-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S64 .f32) (main_arg10 : FVec F S128 .f32) (main_arg11 : FVec F S128 .f32) (main_arg12 : FVec F S128 .f32) (main_arg13 : FVec F S128 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_v48 main_v49 main_v50

def fn_part1 {F : FTy → Type} [FloatOps F] (main_arg6 : FVec F S128x128 .f32) (main_arg7 : FVec F S128 .f32) (main_arg8 : FVec F S128x64 .f32) (main_arg9 : FVec F S64 .f32) (main_arg10 : FVec F S128 .f32) (main_arg11 : FVec F S128 .f32) (main_arg12 : FVec F S128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x64 .f32) (main_arg1 : IVec S800000 32) (main_arg2 : IVec S800000 32) (main_arg3 : FVec F S800000 .f32) (main_arg4 : FVec F S64x128 .f32) (main_arg5 : FVec F S128 .f32) (main_arg6 : FVec F S128x128 .f32) (main_arg7 : FVec F S128 .f32) (main_arg8 : FVec F S128x64 .f32) (main_arg9 : FVec F S64 .f32) (main_arg10 : FVec F S128 .f32) (main_arg11 : FVec F S128 .f32) (main_arg12 : FVec F S128 .f32) (main_arg13 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S10000x64 : Shape := ⟨2, ![10000, 64]⟩
abbrev S10000x128 : Shape := ⟨2, ![10000, 128]⟩
abbrev S800000x128 : Shape := ⟨2, ![800000, 128]⟩
abbrev S50000x1 : Shape := ⟨2, ![50000, 1]⟩
abbrev S1x128 : Shape := ⟨2, ![1, 128]⟩
abbrev S10000x1 : Shape := ⟨2, ![10000, 1]⟩
abbrev S800000x64 : Shape := ⟨2, ![800000, 64]⟩
abbrev S1x64 : Shape := ⟨2, ![1, 64]⟩

abbrev nBuf : Space → Nat
  | .hbm => 144
  | .vmem => 70
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S800000, .f32⟩
  | 4 => ⟨S64x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S128, .f32⟩
  | 11 => ⟨S128, .f32⟩
  | 12 => ⟨S128, .f32⟩
  | 13 => ⟨S128, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S50000, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x1, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S50000x1, .f32⟩
  | 68 => ⟨S1x128, .f32⟩
  | 69 => ⟨S50000x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x1, .f32⟩
  | 98 => ⟨S800000x128, .f32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S50000x1, .f32⟩
  | 105 => ⟨S1x128, .f32⟩
  | 106 => ⟨S50000x128, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S50000x128, .f32⟩
  | 124 => ⟨S50000x64, .f32⟩
  | 125 => ⟨S_, .i32⟩
  | 126 => ⟨S800000, .i32⟩
  | 127 => ⟨S800000, .i1⟩
  | _ => ⟨S50000x64, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S800000x1, .f32⟩
  | 7 => ⟨S800000x64, .f32⟩
  | 8 => ⟨S800000x64, .f32⟩
  | 9 => ⟨S_, .f32⟩
  | 10 => ⟨S50000x64, .f32⟩
  | 11 => ⟨S800000x1, .i32⟩
  | 12 => ⟨S50000x64, .f32⟩
  | 13 => ⟨S50000x1, .f32⟩
  | 14 => ⟨S1x64, .f32⟩
  | 15 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x1, .f32⟩
  | .local _ .vmem, ⟨38, _⟩ => ⟨S10000x1, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S10000x128, .f32⟩
  | .local _ .vmem, ⟨49, _⟩ => ⟨S10000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S10000x128, .f32⟩
  | .local _ .vmem, ⟨55, _⟩ => ⟨S10000x128, .f32⟩
  | .local _ .vmem, ⟨56, _⟩ => ⟨S10000x128, .f32⟩
  | .local _ .vmem, ⟨57, _⟩ => ⟨S10000x128, .f32⟩
  | .local _ .vmem, ⟨58, _⟩ => ⟨S128x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | .local _ .vmem, ⟨65, _⟩ => ⟨S10000x1, .f32⟩
  | .local _ .vmem, ⟨66, _⟩ => ⟨S10000x1, .f32⟩
  | .local _ .vmem, ⟨67, _⟩ => ⟨S1x64, .f32⟩
  | .local _ .vmem, ⟨68, _⟩ => ⟨S10000x64, .f32⟩
  | .local _ .vmem, ⟨69, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43_0 : Ref sig .tc := ⟨.hbm, 70, rfl⟩
abbrev main_v43_1 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_12 : Ref sig .tc := ⟨.hbm, 88, rfl⟩
abbrev main_v57 : Ref sig .tc := ⟨.hbm, 89, rfl⟩
abbrev main_v58 : Ref sig .tc := ⟨.hbm, 90, rfl⟩
abbrev main_c_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73_0 : Ref sig .tc := ⟨.hbm, 107, rfl⟩
abbrev main_v73_1 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_18 : Ref sig .tc := ⟨.hbm, 125, rfl⟩
abbrev main_v87 : Ref sig .tc := ⟨.hbm, 126, rfl⟩
abbrev main_v88 : Ref sig .tc := ⟨.hbm, 127, rfl⟩
abbrev main_c_19 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_20 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_scratch0 : Ref sig .tc := ⟨.vmem, 18, rfl⟩
abbrev cc2_scratch1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_scratch0 : Ref sig .tc := ⟨.vmem, 46, rfl⟩
abbrev cc6_scratch1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg3_0 : Ref sig .tc := ⟨.vmem, 52, rfl⟩
abbrev cc7_stg4_0 : Ref sig .tc := ⟨.vmem, 53, rfl⟩
abbrev cc7_stg5_0 : Ref sig .tc := ⟨.vmem, 54, rfl⟩
abbrev cc7_stg5_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg2_1 : Ref sig .tc := ⟨.vmem, 66, rfl⟩
abbrev cc9_stg3_0 : Ref sig .tc := ⟨.vmem, 67, rfl⟩
abbrev cc9_stg4_0 : Ref sig .tc := ⟨.vmem, 68, rfl⟩
abbrev cc9_stg4_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem3_0 : DmaSem sig := 48
abbrev cc7_sem4_0 : DmaSem sig := 49
abbrev cc7_sem5_0 : DmaSem sig := 50
abbrev cc7_sem5_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem2_1 : DmaSem sig := 56
abbrev cc9_sem0_0 : DmaSem sig := 57
abbrev cc9_sem0_1 : DmaSem sig := 58
abbrev cc9_sem1_0 : DmaSem sig := 59
abbrev cc9_sem1_1 : DmaSem sig := 60
abbrev cc9_sem2_0 : DmaSem sig := 61
abbrev cc9_sem2_1 : DmaSem sig := 62
abbrev cc9_sem3_0 : DmaSem sig := 63
abbrev cc9_sem4_0 : DmaSem sig := 64
abbrev cc9_sem4_1 : DmaSem sig := 65

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S10000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S10000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S128 : S10000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S10000x64_S64x128_S10000x128_1_0_0_1_n_n_wf : DotDims.WF S10000x64 S64x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S50000x128.size a
  hwx1_4 : ∀ i : grid1.Coords, EltTy.bits .f32 = 32 ∨ (Rect.block (s := S50000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S50000x128.size a
  hwx4_2 : ∀ i : grid4.Coords, EltTy.bits .f32 = 32 ∨ (Rect.block (s := S50000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x128.size a ≤ S50000x128.size a
  hwx5_1 : ∀ i : grid5.Coords, EltTy.bits .f32 = 32 ∨ (Rect.block (s := S50000x128) S10000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S50000x1.size a
  hwx5_2 : ∀ i : grid5.Coords, EltTy.bits .f32 = 32 ∨ (Rect.block (s := S50000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x128.size a ≤ S50000x128.size a
  hwx5_4 : ∀ i : grid5.Coords, EltTy.bits .f32 = 32 ∨ (Rect.block (s := S50000x128) S10000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x128.size a ≤ S50000x128.size a
  hwx7_5 : ∀ i : grid7.Coords, EltTy.bits .f32 = 32 ∨ (Rect.block (s := S50000x128) S10000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S50000x128.size a
  hwx8_0 : ∀ i : grid8.Coords, EltTy.bits .f32 = 32 ∨ (Rect.block (s := S50000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x64.size a ≤ S128x64.size a
  hwx8_1 : ∀ i : grid8.Coords, EltTy.bits .f32 = 32 ∨ (Rect.block (s := S128x64) S128x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S50000x64.size a
  hwx8_2 : ∀ i : grid8.Coords, EltTy.bits .f32 = 32 ∨ (Rect.block (s := S50000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S50000x64.size a
  hwx9_0 : ∀ i : grid9.Coords, EltTy.bits .f32 = 32 ∨ (Rect.block (s := S50000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S50000x64.size a
  hwx9_1 : ∀ i : grid9.Coords, EltTy.bits .f32 = 32 ∨ (Rect.block (s := S50000x64) S10000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x1.size a ≤ S50000x1.size a
  hwx9_2 : ∀ i : grid9.Coords, EltTy.bits .f32 = 32 ∨ (Rect.block (s := S50000x1) S10000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S10000x64.size a ≤ S50000x64.size a
  hwx9_4 : ∀ i : grid9.Coords, EltTy.bits .f32 = 32 ∨ (Rect.block (s := S50000x64) S10000x64.size (cc9_transform_4 i) (hinb9_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43_0) S1x128.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v42) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v69) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S10000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v70) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v71) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v72) S10000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v72) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73_0) S1x128.size cc6_transform_1 reads6_1 true true 1 stage6_1 sem6_1
    hrank6 hreads6_1 hinb6_1 nbuf6_1 (Memref.isWhole_whole _) hwx6_1 hstage6_1

abbrev win6_2 : Pipeline.Window sig grid6 :=
  Pipeline.Window.ofSpec (Memref.whole main_v73_1) S1x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v72) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v75) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v82) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v83) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v84) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v85) S10000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v85) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg8) S128x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v86) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v99) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v86) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v100) S10000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v101) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v102) S10000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S50000x64 : Shape := ⟨2, ![50000, 64]⟩
abbrev S800000 : Shape := ⟨1, ![800000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S800000x64 : Shape := ⟨2, ![800000, 64]⟩
abbrev S1x64 : Shape := ⟨2, ![1, 64]⟩

abbrev nBuf : Space → Nat
  | .hbm => 288
  | .vmem => 0
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S800000, .f32⟩
  | 4 => ⟨S64x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S128, .f32⟩
  | 11 => ⟨S128, .f32⟩
  | 12 => ⟨S128, .f32⟩
  | 13 => ⟨S128, .f32⟩
  | 14 => ⟨S50000x128, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S800000, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x1, .f32⟩
  | 60 => ⟨S800000x128, .f32⟩
  | 61 => ⟨S800000x128, .f32⟩
  | 62 => ⟨S_, .f32⟩
  | 63 => ⟨S50000x128, .f32⟩
  | 64 => ⟨S800000x1, .i32⟩
  | 65 => ⟨S50000x128, .f32⟩
  | 66 => ⟨S50000, .f32⟩
  | 67 => ⟨S50000x1, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S128, .f32⟩
  | 108 => ⟨S128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S_, .f32⟩
  | 123 => ⟨S50000, .f32⟩
  | 124 => ⟨S800000x1, .i32⟩
  | 125 => ⟨S50000, .f32⟩
  | 126 => ⟨S_, .f32⟩
  | 127 => ⟨S50000, .f32⟩
  | _ => ⟨S50000x64, .f32⟩

abbrev hbmTy0_1 (i : Nat) : BufTy := match i % 128 with
  | 0 => ⟨S50000, .f32⟩
  | 1 => ⟨S_, .f32⟩
  | 2 => ⟨S50000, .f32⟩
  | 3 => ⟨S50000, .i1⟩
  | 4 => ⟨S50000, .f32⟩
  | 5 => ⟨S_, .f32⟩
  | 6 => ⟨S_, .f32⟩
  | 7 => ⟨S50000, .f32⟩
  | 8 => ⟨S50000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000, .f32⟩
  | 18 => ⟨S800000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000, .f32⟩
  | 28 => ⟨S800000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S800000x1, .f32⟩
  | 39 => ⟨S800000x128, .f32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S50000, .f32⟩
  | 46 => ⟨S50000x1, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x64, .f32⟩
  | 101 => ⟨S_, .f32⟩
  | 102 => ⟨S50000, .f32⟩
  | 103 => ⟨S800000x1, .i32⟩
  | 104 => ⟨S50000, .f32⟩
  | 105 => ⟨S_, .f32⟩
  | 106 => ⟨S50000, .f32⟩
  | 107 => ⟨S50000, .f32⟩
  | 108 => ⟨S_, .f32⟩
  | 109 => ⟨S50000, .f32⟩
  | 110 => ⟨S50000, .i1⟩
  | 111 => ⟨S50000, .f32⟩
  | 112 => ⟨S_, .f32⟩
  | 113 => ⟨S_, .f32⟩
  | 114 => ⟨S50000, .f32⟩
  | 115 => ⟨S50000, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000, .f32⟩
  | 125 => ⟨S800000, .f32⟩
  | 126 => ⟨S_, .i32⟩
  | 127 => ⟨S800000, .i32⟩
  | _ => ⟨S50000x64, .f32⟩

abbrev hbmTy0_2 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x64, .f32⟩
  | 17 => ⟨S800000x1, .f32⟩
  | 18 => ⟨S800000x64, .f32⟩
  | 19 => ⟨S800000x64, .f32⟩
  | 20 => ⟨S_, .f32⟩
  | 21 => ⟨S50000x64, .f32⟩
  | 22 => ⟨S800000x1, .i32⟩
  | 23 => ⟨S50000x64, .f32⟩
  | 24 => ⟨S50000, .f32⟩
  | 25 => ⟨S50000x1, .f32⟩
  | 26 => ⟨S50000x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_4 : Ref sig .tc := ⟨.hbm, 40, rfl⟩
abbrev main_v18 : Ref sig .tc := ⟨.hbm, 41, rfl⟩
abbrev main_v19 : Ref sig .tc := ⟨.hbm, 42, rfl⟩
abbrev main_c_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_cst_12 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_call2_cst : Ref sig .tc := ⟨.hbm, 118, rfl⟩
abbrev main_call2_v0 : Ref sig .tc := ⟨.hbm, 119, rfl⟩
abbrev main_v66 : Ref sig .tc := ⟨.hbm, 120, rfl⟩
abbrev main_v67 : Ref sig .tc := ⟨.hbm, 121, rfl⟩
abbrev main_cst_13 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_14 : Ref sig .tc := ⟨.hbm, 126, rfl⟩
abbrev main_v71 : Ref sig .tc := ⟨.hbm, 127, rfl⟩
abbrev main_v72 : Ref sig .tc := ⟨.hbm, 128, rfl⟩
abbrev main_cst_15 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_cst_16 : Ref sig .tc := ⟨.hbm, 133, rfl⟩
abbrev main_call3_v0 : Ref sig .tc := ⟨.hbm, 134, rfl⟩
abbrev main_call3_v1 : Ref sig .tc := ⟨.hbm, 135, rfl⟩
abbrev main_v76 : Ref sig .tc := ⟨.hbm, 136, rfl⟩
abbrev main_c_17 : Ref sig .tc := ⟨.hbm, 137, rfl⟩
abbrev main_v77 : Ref sig .tc := ⟨.hbm, 138, rfl⟩
abbrev main_v78 : Ref sig .tc := ⟨.hbm, 139, rfl⟩
abbrev main_c_18 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_c_19 : Ref sig .tc := ⟨.hbm, 147, rfl⟩
abbrev main_v85 : Ref sig .tc := ⟨.hbm, 148, rfl⟩
abbrev main_v86 : Ref sig .tc := ⟨.hbm, 149, rfl⟩
abbrev main_c_20 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_c_21 : Ref sig .tc := ⟨.hbm, 157, rfl⟩
abbrev main_v93 : Ref sig .tc := ⟨.hbm, 158, rfl⟩
abbrev main_v94 : Ref sig .tc := ⟨.hbm, 159, rfl⟩
abbrev main_c_22 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_cst_23 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_cst_24 : Ref sig .tc := ⟨.hbm, 181, rfl⟩
abbrev main_v114 : Ref sig .tc := ⟨.hbm, 182, rfl⟩
abbrev main_cst_25 : Ref sig .tc := ⟨.hbm, 183, rfl⟩
abbrev main_v115 : Ref sig .tc := ⟨.hbm, 184, rfl⟩
abbrev main_v116 : Ref sig .tc := ⟨.hbm, 185, rfl⟩
abbrev main_c_26 : Ref sig .tc := ⟨.hbm, 186, rfl⟩
abbrev main_call4_cst : Ref sig .tc := ⟨.hbm, 187, rfl⟩
abbrev main_call4_v0 : Ref sig .tc := ⟨.hbm, 188, rfl⟩
abbrev main_call4_v1 : Ref sig .tc := ⟨.hbm, 189, rfl⟩
abbrev main_call4_cst_0 : Ref sig .tc := ⟨.hbm, 190, rfl⟩
abbrev main_call4_v2 : Ref sig .tc := ⟨.hbm, 191, rfl⟩
abbrev main_call4_v3 : Ref sig .tc := ⟨.hbm, 192, rfl⟩
abbrev main_call4_v4 : Ref sig .tc := ⟨.hbm, 193, rfl⟩
abbrev main_call4_v5 : Ref sig .tc := ⟨.hbm, 194, rfl⟩
abbrev main_call4_v6 : Ref sig .tc := ⟨.hbm, 195, rfl⟩
abbrev main_call4_v7 : Ref sig .tc := ⟨.hbm, 196, rfl⟩
abbrev main_call4_cst_1 : Ref sig .tc := ⟨.hbm, 197, rfl⟩
abbrev main_call4_v8 : Ref sig .tc := ⟨.hbm, 198, rfl⟩
abbrev main_call4_cst_2 : Ref sig .tc := ⟨.hbm, 199, rfl⟩
abbrev main_call4_v9 : Ref sig .tc := ⟨.hbm, 200, rfl⟩
abbrev main_call4_v10 : Ref sig .tc := ⟨.hbm, 201, rfl⟩
abbrev main_call4_v11 : Ref sig .tc := ⟨.hbm, 202, rfl⟩
abbrev main_call4_cst_3 : Ref sig .tc := ⟨.hbm, 203, rfl⟩
abbrev main_call4_v12 : Ref sig .tc := ⟨.hbm, 204, rfl⟩
abbrev main_call4_cst_4 : Ref sig .tc := ⟨.hbm, 205, rfl⟩
abbrev main_call4_call0_v0 : Ref sig .tc := ⟨.hbm, 206, rfl⟩
abbrev main_call4_call0_v1 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_cst_27 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_call5_cst : Ref sig .tc := ⟨.hbm, 225, rfl⟩
abbrev main_call5_v0 : Ref sig .tc := ⟨.hbm, 226, rfl⟩
abbrev main_v133 : Ref sig .tc := ⟨.hbm, 227, rfl⟩
abbrev main_v134 : Ref sig .tc := ⟨.hbm, 228, rfl⟩
abbrev main_cst_28 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_cst_29 : Ref sig .tc := ⟨.hbm, 233, rfl⟩
abbrev main_v138 : Ref sig .tc := ⟨.hbm, 234, rfl⟩
abbrev main_v139 : Ref sig .tc := ⟨.hbm, 235, rfl⟩
abbrev main_cst_30 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_cst_31 : Ref sig .tc := ⟨.hbm, 240, rfl⟩
abbrev main_call6_v0 : Ref sig .tc := ⟨.hbm, 241, rfl⟩
abbrev main_call6_v1 : Ref sig .tc := ⟨.hbm, 242, rfl⟩
abbrev main_v143 : Ref sig .tc := ⟨.hbm, 243, rfl⟩
abbrev main_c_32 : Ref sig .tc := ⟨.hbm, 244, rfl⟩
abbrev main_v144 : Ref sig .tc := ⟨.hbm, 245, rfl⟩
abbrev main_v145 : Ref sig .tc := ⟨.hbm, 246, rfl⟩
abbrev main_c_33 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_c_34 : Ref sig .tc := ⟨.hbm, 254, rfl⟩
abbrev main_v152 : Ref sig .tc := ⟨.hbm, 255, rfl⟩
abbrev main_v153 : Ref sig .tc := ⟨.hbm, 256, rfl⟩
abbrev main_c_35 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_c_36 : Ref sig .tc := ⟨.hbm, 264, rfl⟩
abbrev main_v160 : Ref sig .tc := ⟨.hbm, 265, rfl⟩
abbrev main_v161 : Ref sig .tc := ⟨.hbm, 266, rfl⟩
abbrev main_c_37 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_v169 : Ref sig .tc := ⟨.hbm, 275, rfl⟩
abbrev main_cst_38 : Ref sig .tc := ⟨.hbm, 276, rfl⟩
abbrev main_v170 : Ref sig .tc := ⟨.hbm, 277, rfl⟩
abbrev main_v171 : Ref sig .tc := ⟨.hbm, 278, rfl⟩
abbrev main_v172 : Ref sig .tc := ⟨.hbm, 279, rfl⟩
abbrev main_v173 : Ref sig .tc := ⟨.hbm, 280, rfl⟩
abbrev main_v174 : Ref sig .tc := ⟨.hbm, 281, rfl⟩
abbrev main_v175 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x128_S50000x128_1_0_0_1_n_n_wf : DotDims.WF S50000x64 S64x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.K.Region0.lean ====
import proofs.«141437_j50036368998564_1_alg».proof.Proof.Gen.Kernel.Launch
import proofs.«141437_j50036368998564_1_alg».proof.Proof.Gen.Kernel.Skeleton
import proofs.«141437_j50036368998564_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_1 : Rect S64x128 := Rect.unit (s := S64x128) ![0, 0] S64x128.size inb_S64x128_S64x128_0_0
abbrev r0_2 : Rect S10000x128 := Rect.unit (s := S10000x128) ![0, 0] S10000x128.size inb_S10000x128_S10000x128_0_0

def out0_2 (x0 : Vec F S10000x64 .f32) (x1 : Vec F S64x128 .f32) : Vec F S10000x128 .f32 :=
  View.canon [⟨r0_2, k0_pay1 (View.ld x0 r0_0) (View.ld x1 r0_1)⟩]

theorem sound_kernel0 (c : Dev nD) (i : grid0.Coords) (a0 : Memref sig .tc .vmem S10000x64 .f32) (h0 : a0.IsWhole) (a1 : Memref sig .tc .vmem S64x128 .f32) (h1 : a1.IsWhole) (a2 : Memref sig .tc .vmem S10000x128 .f32) (h2 : a2.IsWhole)
    (x0 : Vec F S10000x64 .f32) (x1 : Vec F S64x128 .f32) {D0 D1 D2 : Type} (b : D2 → Vec F S10000x128 .f32) (P Q : sProp 𝕄) :
    iprop(P ∗ Q ∗ (∃ _ : D0, owns c.tc a0 fullShare x0) ∗ (∃ _ : D1, owns c.tc a1 fullShare x1) ∗ ∃ d, owns c.tc a2 fullShare (b d))
      ⊢ wp frame (wpE (defs₀ (F := F)) Variants.none c none) Set.univ (cc0__matmul_kernel i a0 h0 a1 h1 a2 h2) fun _ =>
        iprop(P ∗ Q ∗ owns c.tc a0 fullShare x0 ∗ owns c.tc a1 fullShare x1 ∗ owns c.tc a2 fullShare (out0_2 x0 x1)) := by
  simp only [cc0__matmul_kernel_eq_skeleton]; unfold cc0__matmul_kernel_skel owns
  iintro ⟨HP, HQ, ⟨%_, %f0, %e0, H0⟩, ⟨%_, %f1, %e1, H1⟩, %d, %f2, -, H2⟩
  subst e0 e1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

variable (c : Dev nD) (t : Fin cfg0.N)

theorem after0_0 : (dat0 V c).after 0 t = iblk0 V c 0 t := by dsimp only [dat0]
theorem after0_1 : (dat0 V c).after 1 t = iblk0 V c 1 t := by dsimp only [dat0]
theorem after0_2 : (dat0 V c).after 2 t = out0_2 (iblk0 V c 0 t) (iblk0 V c 1 t) := by dsimp only [dat0]

theorem blockOf0 (w : Fin cfg0.W) : (dat0 V c).blockOf w t = iblk0 V c w t := by
  unfold Dat.blockOf iblk0; rw [A_eq0]

theorem before0_0 (d) : (dat0 V c).before 0 t d = iblk0 V c 0 t :=
  ((dat0 V c).before_in_eq_fetched 0 rfl (fun _ => rfl) (fun _ _ _ => rfl) (fun t => (after0_0 V c t).trans (blockOf0 V c t 0).symm) t d).trans (blockOf0 V c t 0)
theorem before0_1 (d) : (dat0 V c).before 1 t d = iblk0 V c 1 t :=
  ((dat0 V c).before_in_eq_fetched 1 rfl (fun _ => rfl) (fun _ _ _ => rfl) (fun t => (after0_1 V c t).trans (blockOf0 V c t 1).symm) t d).trans (blockOf0 V c t 1)

theorem body_obligation0 : BodyObligation (dat0 (F := F) V c) (defs₀ (F := F)) Variants.none () Set.univ := fun t => by
  rw [bigSep_W0, bigSep_W0]
  simp only [before0_0, before0_1, after0_0, after0_1, after0_2]
  show _ ⊢ wp _ _ _ (bodyAt0 t) _
  exact sound_kernel0 c _ _ _ _ _ _ _ _ _ _ _ _

end Cert.Kernel.GenP
-- ==== Proof.K.Region1.lean ====
import proofs.«141437_j50036368998564_1_alg».proof.Proof.Gen.Kernel.Launch
import proofs.«141437_j50036368998564_1_alg».proof.Proof.Gen.Kernel.Skeleton
import proofs.«141437_j50036368998564_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x128 := Rect.unit (s := S10000x128) ![0, 0] S10000x128.size inb_S10000x128_S10000x128_0_0
abbrev r1_1 : Rect S10000x1 := Rect.unit (s := S10000x1) ![0, 0] S10000x1.size inb_S10000x1_S10000x1_0_0
abbrev r1_2 : Rect S1x128 := Rect.unit (s := S1x128) ![0, 0] S1x128.size inb_S1x128_S1x128_0_0

def out1_4 (x0 : Vec F S10000x128 .f32) (x1 : Vec F S10000x128 .f32) (x2 : Vec F S10000x1 .f32) (x3 : Vec F S1x128 .f32) : Vec F S10000x128 .f32 :=
  View.canon [⟨r1_0, k1_pay1 (View.ld x0 r1_0) (View.ld x1 r1_0) (View.ld x2 r1_1) (View.ld x3 r1_2)⟩]

theorem sound_kernel1 (c : Dev nD) (i : grid1.Coords) (a0 : Memref sig .tc .vmem S10000x128 .f32) (h0 : a0.IsWhole) (a1 : Memref sig .tc .vmem S10000x128 .f32) (h1 : a1.IsWhole) (a2 : Memref sig .tc .vmem S10000x1 .f32) (h2 : a2.IsWhole) (a3 : Memref sig .tc .vmem S1x128 .f32) (h3 : a3.IsWhole) (a4 : Memref sig .tc .vmem S10000x128 .f32) (h4 : a4.IsWhole)
    (x0 : Vec F S10000x128 .f32) (x1 : Vec F S10000x128 .f32) (x2 : Vec F S10000x1 .f32) (x3 : Vec F S1x128 .f32) {D0 D1 D2 D3 D4 : Type} (b : D4 → Vec F S10000x128 .f32) (P Q : sProp 𝕄) :
    iprop(P ∗ Q ∗ (∃ _ : D0, owns c.tc a0 fullShare x0) ∗ (∃ _ : D1, owns c.tc a1 fullShare x1) ∗ (∃ _ : D2, owns c.tc a2 fullShare x2) ∗ (∃ _ : D3, owns c.tc a3 fullShare x3) ∗ ∃ d, owns c.tc a4 fullShare (b d))
      ⊢ wp frame (wpE (defs₀ (F := F)) Variants.none c none) Set.univ (cc1__finalize_kernel i a0 h0 a1 h1 a2 h2 a3 h3 a4 h4) fun _ =>
        iprop(P ∗ Q ∗ owns c.tc a0 fullShare x0 ∗ owns c.tc a1 fullShare x1 ∗ owns c.tc a2 fullShare x2 ∗ owns c.tc a3 fullShare x3 ∗ owns c.tc a4 fullShare (out1_4 x0 x1 x2 x3)) := by
  simp only [cc1__finalize_kernel_eq_skeleton]; unfold cc1__finalize_kernel_skel owns
  iintro ⟨HP, HQ, ⟨%_, %f0, %e0, H0⟩, ⟨%_, %f1, %e1, H1⟩, ⟨%_, %f2, %e2, H2⟩, ⟨%_, %f3, %e3, H3⟩, %d, %f4, -, H4⟩
  subst e0 e1 e2 e3
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S10000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

variable (c : Dev nD) (t : Fin cfg1.N)

theorem after1_0 : (dat1 V c).after 0 t = iblk1 V c 0 t := by dsimp only [dat1]
theorem after1_1 : (dat1 V c).after 1 t = iblk1 V c 1 t := by dsimp only [dat1]
theorem after1_2 : (dat1 V c).after 2 t = iblk1 V c 2 t := by dsimp only [dat1]
theorem after1_3 : (dat1 V c).after 3 t = iblk1 V c 3 t := by dsimp only [dat1]
theorem after1_4 : (dat1 V c).after 4 t = out1_4 (iblk1 V c 0 t) (iblk1 V c 1 t) (iblk1 V c 2 t) (iblk1 V c 3 t) := by dsimp only [dat1]

theorem blockOf1 (w : Fin cfg1.W) : (dat1 V c).blockOf w t = iblk1 V c w t := by
  unfold Dat.blockOf iblk1; rw [A_eq1]

theorem before1_0 (d) : (dat1 V c).before 0 t d = iblk1 V c 0 t :=
  ((dat1 V c).before_in_eq_fetched 0 rfl (fun _ => rfl) (fun _ _ _ => rfl) (fun t => (after1_0 V c t).trans (blockOf1 V c t 0).symm) t d).trans (blockOf1 V c t 0)
theorem before1_1 (d) : (dat1 V c).before 1 t d = iblk1 V c 1 t :=
  ((dat1 V c).before_in_eq_fetched 1 rfl (fun _ => rfl) (fun _ _ _ => rfl) (fun t => (after1_1 V c t).trans (blockOf1 V c t 1).symm) t d).trans (blockOf1 V c t 1)
theorem before1_2 (d) : (dat1 V c).before 2 t d = iblk1 V c 2 t :=
  ((dat1 V c).before_in_eq_fetched 2 rfl (fun _ => rfl) (fun _ _ _ => rfl) (fun t => (after1_2 V c t).trans (blockOf1 V c t 2).symm) t d).trans (blockOf1 V c t 2)
theorem before1_3 (d) : (dat1 V c).before 3 t d = iblk1 V c 3 t :=
  ((dat1 V c).before_in_eq_fetched 3 rfl (fun _ => rfl) (fun _ _ _ => rfl) (fun t => (after1_3 V c t).trans (blockOf1 V c t 3).symm) t d).trans (blockOf1 V c t 3)

theorem body_obligation1 : BodyObligation (dat1 (F := F) V c) (defs₀ (F := F)) Variants.none () Set.univ := fun t => by
  rw [bigSep_W1, bigSep_W1]
  simp only [before1_0, before1_1, before1_2, before1_3, after1_0, after1_1, after1_2, after1_3, after1_4]
  show _ ⊢ wp _ _ _ (bodyAt1 t) _
  exact sound_kernel1 c _ _ _ _ _ _ _ _ _ _ _ _ _ _ _ _ _ _

end Cert.Kernel.GenP
-- ==== Proof.K.Region2Runs.lean ====
import proofs.«141437_j50036368998564_1_alg».proof.Proof.Gen.Kernel.Launch
import proofs.«141437_j50036368998564_1_alg».proof.Proof.Gen.Kernel.Skeleton
import proofs.«141437_j50036368998564_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev VO2_1 : View sig .tc .vmem S1x128 .f32 := (Memref.whole cc2_stg1_0 : Memref sig .tc .vmem S1x128 .f32).view

abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)

abbrev scM2_0 : Memref sig .tc .vmem S1x128 .f32 := Memref.whole cc2_scratch0
abbrev scM2_1 : Memref sig .tc .vmem S1x128 .f32 := Memref.whole cc2_scratch1

abbrev R2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ R2 c) ∗ (∃ r, prngReg c r)) := by
  unfold Pipeline.ΦA; rw [scopedRest2_split]; simp only [scM2_0, scM2_1, owns_whole]; try rfl

abbrev Run2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (x0 : Vec F S10000x128 .f32) (S0 S1 : sProp 𝕄) :=
  Σ' (L1 L2 LS0 : List (View.Piece (Elt F) S1x128 .f32)), { LS1 : List (View.Piece (Elt F) S1x128 .f32) //
    ∀ (E : Set ℕ) (K : PUnit → sProp 𝕄),
      iprop(owns (c : Thread nD τ) arg1 fullShare x0 ∗ (∃ d, owns (c : Thread nD τ) arg2 fullShare d) ∗ (∃ d, owns (c : Thread nD τ) arg3 fullShare d) ∗ S0 ∗ S1
          ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
        ⊢ wp frame (wpE (defs₀ (F := F)) Variants.none c none) E (cc2__bn_stats_kernel i arg1 harg1 arg2 harg2 arg3 harg3 arg4 harg4 arg5 harg5) K }

end Cert.Kernel.GenP

end
-- ==== Proof.K.Region2RunA.lean ====
import proofs.«141437_j50036368998564_1_alg».proof.Proof.K.Region2Runs

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (x0 : Vec F S10000x128 .f32) :
    Run2 c i arg1 harg1 arg2 harg2 arg3 harg3 arg4 harg4 arg5 harg5 x0 (iprop(∃ d, owns (c : Thread nD τ) arg4 fullShare d)) (iprop(∃ d, owns (c : Thread nD τ) arg5 fullShare d)) := by
  refine ⟨?_, ?_, ?_, ?_, fun E K => ?run⟩
  case run =>
    simp only [cc2__bn_stats_kernel_eq_skeleton]; unfold cc2__bn_stats_kernel_skel
    unfold owns
    iintro ⟨⟨%f0, %hf0, H0⟩, ⟨%d1, %f1, -, H1⟩, ⟨%d2, %f2, -, H2⟩, ⟨%ds0, %fs0, -, HS0⟩, ⟨%ds1, %fs1, -, HS1⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.GenP

end
-- ==== Proof.K.Region2RunB.lean ====
import proofs.«141437_j50036368998564_1_alg».proof.Proof.K.Region2RunA

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (x0 : Vec F S10000x128 .f32) (xs0 xs1 : Vec F S1x128 .f32) :
    Run2 c i arg1 harg1 arg2 harg2 arg3 harg3 arg4 harg4 arg5 harg5 x0 (owns (c : Thread nD τ) arg4 fullShare xs0) (owns (c : Thread nD τ) arg5 fullShare xs1) := by
  refine ⟨?_, ?_, ?_, ?_, fun E K => ?run⟩
  case run =>
    simp only [cc2__bn_stats_kernel_eq_skeleton]; unfold cc2__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.GenP

end
-- ==== Proof.K.Region2.lean ====
import proofs.«141437_j50036368998564_1_alg».proof.Proof.K.Region2RunB
import Idealize.ShloMosaic.Lib.Pipeline.Value

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def rb2 (L : List (View.Piece (Elt F) S1x128 .f32)) : Vec F S1x128 .f32 := VO2_1.read (Elt F) (VO2_1.writes (Elt F) VO2_1.junk L)

section
variable {P : List (View.Piece (Elt F) S1x128 .f32) → List (View.Piece (Elt F) S1x128 .f32) → List (View.Piece (Elt F) S1x128 .f32) → List (View.Piece (Elt F) S1x128 .f32) → Prop} (r : Σ' (L1 L2 LS0 : List (View.Piece (Elt F) S1x128 .f32)), { LS1 // P L1 L2 LS0 LS1 })

def rows2 : Vec F S1x128 .f32 × Vec F S1x128 .f32 × Vec F S1x128 .f32 × Vec F S1x128 .f32 := (rb2 r.1, rb2 r.2.1, rb2 r.2.2.1, rb2 r.2.2.2.1)

abbrev Tiled2 : Prop := View.Piece.tiledL r.1 S1x128.size = true ∧ View.Piece.tiledL r.2.1 S1x128.size = true
  ∧ View.Piece.tiledL r.2.2.1 S1x128.size = true ∧ View.Piece.tiledL r.2.2.2.1 S1x128.size = true
end

abbrev runA2 (c : Dev nD) (t : Fin cfg2.N) (h0 : t.val = 0) :=
  kernelRun2_A c (grid2.coords t) (ms2_0 t) (hs2_0 t) (ms2_1 t) (hs2_1 t) (ms2_2 t) (hs2_2 t) scM2_0 (Memref.isWhole_whole _) scM2_1 (Memref.isWhole_whole _) ((hcond2_0 t).mpr h0) (iblk2 V c 0 t)
abbrev runB2 (c : Dev nD) (t : Fin cfg2.N) (h0 : ¬t.val = 0) (xs0 xs1 : Vec F S1x128 .f32) :=
  kernelRun2_B c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (iblk2 V c 0 t) xs0 xs1

theorem tiled2_A (c : Dev nD) (t : Fin cfg2.N) (h0 : t.val = 0) : Tiled2 (runA2 V c t h0) :=
  ⟨by sl_kernel_rfl, by sl_kernel_rfl, by sl_kernel_rfl, by sl_kernel_rfl⟩

theorem tiled2_B (c : Dev nD) (t : Fin cfg2.N) (h0 : ¬t.val = 0) (xs0 xs1 : Vec F S1x128 .f32) : Tiled2 (runB2 V c t h0 xs0 xs1) :=
  ⟨by sl_kernel_rfl, by sl_kernel_rfl, by sl_kernel_rfl, by sl_kernel_rfl⟩

def outsAt2 (c : Dev nD) : (n : ℕ) → n < cfg2.N → Vec F S1x128 .f32 × Vec F S1x128 .f32 × Vec F S1x128 .f32 × Vec F S1x128 .f32
  | 0, hn => rows2 (runA2 V c ⟨0, hn⟩ rfl)
  | n + 1, hn => rows2 (runB2 V c ⟨n + 1, hn⟩ (Nat.succ_ne_zero n) (outsAt2 c n (Nat.lt_of_succ_lt hn)).2.2.1 (outsAt2 c n (Nat.lt_of_succ_lt hn)).2.2.2)

def PhiG2 (c : Dev nD) (S0 S1 : sProp 𝕄) : sProp 𝕄 := iprop(iprop(iprop(S0 ∗ S1) ∗ R2 c) ∗ (∃ r, prngReg c r))

def PhiS2 (c : Dev nD) : (n : ℕ) → n ≤ cfg2.N → sProp 𝕄
  | 0, _ => Pipeline.ΦA spec2 c
  | n + 1, hn => PhiG2 c (owns (c : Thread nD τ) scM2_0 fullShare (outsAt2 V c n hn).2.2.1) (owns (c : Thread nD τ) scM2_1 fullShare (outsAt2 V c n hn).2.2.2)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
    | ⟨2, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]
theorem after2_2 (c : Dev nD) (t : Fin cfg2.N) : (dat2 V c).after 2 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d

theorem run_body2 (c : Dev nD) (t : Fin cfg2.N) {x0 : Vec F S10000x128 .f32} {S0 S1 : sProp 𝕄}
    (r : Run2 c (grid2.coords t) (ms2_0 t) (hs2_0 t) (ms2_1 t) (hs2_1 t) (ms2_2 t) (hs2_2 t) scM2_0 (Memref.isWhole_whole _) scM2_1 (Memref.isWhole_whole _) x0 S0 S1) (h : Tiled2 r) (P : sProp 𝕄) {D0 D1 D2 : Type} (b1 : D1 → Vec F S1x128 .f32) (b2 : D2 → Vec F S1x128 .f32) :
    iprop(PhiG2 c S0 S1 ∗ P ∗ (∃ _ : D0, owns (c : Thread nD τ) (ms2_0 t) fullShare x0) ∗ (∃ d, owns (c : Thread nD τ) (ms2_1 t) fullShare (b1 d)) ∗ (∃ d, owns (c : Thread nD τ) (ms2_2 t) fullShare (b2 d)))
      ⊢ wp frame (wpE (defs₀ (F := F)) Variants.none c none) Set.univ (bodyAt2 t)
          (fun _ => iprop(PhiG2 c (owns (c : Thread nD τ) scM2_0 fullShare (rows2 r).2.2.1) (owns (c : Thread nD τ) scM2_1 fullShare (rows2 r).2.2.2) ∗ P
            ∗ owns (c : Thread nD τ) (ms2_0 t) fullShare x0 ∗ owns (c : Thread nD τ) (ms2_1 t) fullShare (rows2 r).1 ∗ owns (c : Thread nD τ) (ms2_2 t) fullShare (rows2 r).2.1)) := by
  unfold PhiG2 rows2 rb2 bodyAt2; dsimp only
  iintro ⟨⟨⟨⟨HS0, HS1⟩, HR⟩, Hg⟩, Ho, ⟨%d0, H0⟩, ⟨%d1, H1⟩, ⟨%d2, H2⟩⟩
  iapply (r.2.2.2.2 Set.univ _)
  isplitl [H0]; · iexact H0
  isplitl [H1]; · iexists _; iexact H1
  isplitl [H2]; · iexists _; iexact H2
  isplitl [HS0]; · iexact HS0
  isplitl [HS1]; · iexact HS1
  iintro ⟨H0, ⟨%e1, H1⟩, ⟨%e2, H2⟩, ⟨%es0, HS0⟩, ⟨%es1, HS1⟩⟩
  isplitl [HS0 HS1 HR Hg]
  · isplitl [HS0 HS1 HR]
    · isplitl [HS0 HS1]
      · isplitl [HS0]
        · ihave H' := (Ring.owns_of_writes_tiledL VO2_1 S1x128.size) $$ HS0; iapply H'; ipureintro; exact h.2.2.1
        · ihave H' := (Ring.owns_of_writes_tiledL VO2_1 S1x128.size) $$ HS1; iapply H'; ipureintro; exact h.2.2.2
      · iexact HR
    · iexact Hg
  isplitl [Ho]; · iexact Ho
  isplitl [H0]; · iexact H0
  isplitl [H1]
  · ihave H' := (Ring.owns_of_writes_tiledL VO2_1 S1x128.size) $$ H1; iapply H'; ipureintro; exact h.1
  · ihave H' := (Ring.owns_of_writes_tiledL VO2_1 S1x128.size) $$ H2; iapply H'; ipureintro; exact h.2.1

theorem sound_body2 (c : Dev nD) (t : Fin cfg2.N) :
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))
      ⊢ wp frame (wpE (defs₀ (F := F)) Variants.none c none) Set.univ (bodyAt2 t) (fun _ =>
        iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))) := by
  simp only [before2_0]
  rw [show (dat2 V c).owesAt () t.succ = (dat2 V c).owesAt () t.castSucc from rfl, after2_0, after2_1, after2_2]
  obtain ⟨n, hn⟩ := t
  cases n with
  | zero =>
    rw [show (dat2 V c).Φ (Fin.castSucc ⟨0, hn⟩) = Pipeline.ΦA spec2 c from rfl, PhiA2_eq]
    exact run_body2 c ⟨0, hn⟩ _ (tiled2_A V c _ rfl) _ _ _
  | succ n => exact run_body2 c ⟨n + 1, hn⟩ _ (tiled2_B V c _ (Nat.succ_ne_zero n) _ _) _ _ _

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 :=
  (Idealize.SL.BI.Entails.refl _ : Pipeline.ΦA spec2 c ⊢ Pipeline.ΦA spec2 c)

theorem hout2 (c : Dev nD) : (dat2 V c).Φ (Fin.last cfg2.N) ⊢ Pipeline.ΦA spec2 c := by
  show PhiG2 c _ _ ⊢ _
  rw [PhiA2_eq]; unfold PhiG2
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.Kernel.GenP

end
-- ==== Proof.K.Region3.lean ====
import proofs.«141437_j50036368998564_1_alg».proof.Proof.Gen.Kernel.Launch
import proofs.«141437_j50036368998564_1_alg».proof.Proof.Gen.Kernel.Skeleton
import proofs.«141437_j50036368998564_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x128 := Rect.unit (s := S10000x128) ![0, 0] S10000x128.size inb_S10000x128_S10000x128_0_0
abbrev r3_1 : Rect S1x128 := Rect.unit (s := S1x128) ![0, 0] S1x128.size inb_S1x128_S1x128_0_0

def out3_5 (x0 : Vec F S10000x128 .f32) (x1 : Vec F S1x128 .f32) (x2 : Vec F S1x128 .f32) (x3 : Vec F S1x128 .f32) (x4 : Vec F S1x128 .f32) : Vec F S10000x128 .f32 :=
  View.canon [⟨r3_0, k3_pay1 (View.ld x0 r3_0) (View.ld x1 r3_1) (View.ld x2 r3_1) (View.ld x3 r3_1) (View.ld x4 r3_1)⟩]

theorem sound_kernel3 (c : Dev nD) (i : grid3.Coords) (a0 : Memref sig .tc .vmem S10000x128 .f32) (h0 : a0.IsWhole) (a1 : Memref sig .tc .vmem S1x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S10000x128 .f32) (h5 : a5.IsWhole)
    (x0 : Vec F S10000x128 .f32) (x1 : Vec F S1x128 .f32) (x2 : Vec F S1x128 .f32) (x3 : Vec F S1x128 .f32) (x4 : Vec F S1x128 .f32) {D0 D1 D2 D3 D4 D5 : Type} (b : D5 → Vec F S10000x128 .f32) (P Q : sProp 𝕄) :
    iprop(P ∗ Q ∗ (∃ _ : D0, owns c.tc a0 fullShare x0) ∗ (∃ _ : D1, owns c.tc a1 fullShare x1) ∗ (∃ _ : D2, owns c.tc a2 fullShare x2) ∗ (∃ _ : D3, owns c.tc a3 fullShare x3) ∗ (∃ _ : D4, owns c.tc a4 fullShare x4) ∗ ∃ d, owns c.tc a5 fullShare (b d))
      ⊢ wp frame (wpE (defs₀ (F := F)) Variants.none c none) Set.univ (cc3__bn_norm_kernel i a0 h0 a1 h1 a2 h2 a3 h3 a4 h4 a5 h5) fun _ =>
        iprop(P ∗ Q ∗ owns c.tc a0 fullShare x0 ∗ owns c.tc a1 fullShare x1 ∗ owns c.tc a2 fullShare x2 ∗ owns c.tc a3 fullShare x3 ∗ owns c.tc a4 fullShare x4 ∗ owns c.tc a5 fullShare (out3_5 x0 x1 x2 x3 x4)) := by
  simp only [cc3__bn_norm_kernel_eq_skeleton]; unfold cc3__bn_norm_kernel_skel owns
  iintro ⟨HP, HQ, ⟨%_, %f0, %e0, H0⟩, ⟨%_, %f1, %e1, H1⟩, ⟨%_, %f2, %e2, H2⟩, ⟨%_, %f3, %e3, H3⟩, ⟨%_, %f4, %e4, H4⟩, %d, %f5, -, H5⟩
  subst e0 e1 e2 e3 e4
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

variable (c : Dev nD) (t : Fin cfg3.N)

theorem after3_0 : (dat3 V c).after 0 t = iblk3 V c 0 t := by dsimp only [dat3]
theorem after3_1 : (dat3 V c).after 1 t = iblk3 V c 1 t := by dsimp only [dat3]
theorem after3_2 : (dat3 V c).after 2 t = iblk3 V c 2 t := by dsimp only [dat3]
theorem after3_3 : (dat3 V c).after 3 t = iblk3 V c 3 t := by dsimp only [dat3]
theorem after3_4 : (dat3 V c).after 4 t = iblk3 V c 4 t := by dsimp only [dat3]
theorem after3_5 : (dat3 V c).after 5 t = out3_5 (iblk3 V c 0 t) (iblk3 V c 1 t) (iblk3 V c 2 t) (iblk3 V c 3 t) (iblk3 V c 4 t) := by dsimp only [dat3]

theorem blockOf3 (w : Fin cfg3.W) : (dat3 V c).blockOf w t = iblk3 V c w t := by
  unfold Dat.blockOf iblk3; rw [A_eq3]

theorem before3_0 (d) : (dat3 V c).before 0 t d = iblk3 V c 0 t :=
  ((dat3 V c).before_in_eq_fetched 0 rfl (fun _ => rfl) (fun _ _ _ => rfl) (fun t => (after3_0 V c t).trans (blockOf3 V c t 0).symm) t d).trans (blockOf3 V c t 0)
theorem before3_1 (d) : (dat3 V c).before 1 t d = iblk3 V c 1 t :=
  ((dat3 V c).before_in_eq_fetched 1 rfl (fun _ => rfl) (fun _ _ _ => rfl) (fun t => (after3_1 V c t).trans (blockOf3 V c t 1).symm) t d).trans (blockOf3 V c t 1)
theorem before3_2 (d) : (dat3 V c).before 2 t d = iblk3 V c 2 t :=
  ((dat3 V c).before_in_eq_fetched 2 rfl (fun _ => rfl) (fun _ _ _ => rfl) (fun t => (after3_2 V c t).trans (blockOf3 V c t 2).symm) t d).trans (blockOf3 V c t 2)
theorem before3_3 (d) : (dat3 V c).before 3 t d = iblk3 V c 3 t :=
  ((dat3 V c).before_in_eq_fetched 3 rfl (fun _ => rfl) (fun _ _ _ => rfl) (fun t => (after3_3 V c t).trans (blockOf3 V c t 3).symm) t d).trans (blockOf3 V c t 3)
theorem before3_4 (d) : (dat3 V c).before 4 t d = iblk3 V c 4 t :=
  ((dat3 V c).before_in_eq_fetched 4 rfl (fun _ => rfl) (fun _ _ _ => rfl) (fun t => (after3_4 V c t).trans (blockOf3 V c t 4).symm) t d).trans (blockOf3 V c t 4)

theorem body_obligation3 : BodyObligation (dat3 (F := F) V c) (defs₀ (F := F)) Variants.none () Set.univ := fun t => by
  rw [bigSep_W3, bigSep_W3]
  simp only [before3_0, before3_1, before3_2, before3_3, before3_4, after3_0, after3_1, after3_2, after3_3, after3_4, after3_5]
  show _ ⊢ wp _ _ _ (bodyAt3 t) _
  exact sound_kernel3 c _ _ _ _ _ _ _ _ _ _ _ _ _ _ _ _ _ _ _ _ _

end Cert.Kernel.GenP
-- ==== Proof.K.Region4.lean ====
import proofs.«141437_j50036368998564_1_alg».proof.Proof.Gen.Kernel.Launch
import proofs.«141437_j50036368998564_1_alg».proof.Proof.Gen.Kernel.Skeleton
import proofs.«141437_j50036368998564_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S10000x128 := Rect.unit (s := S10000x128) ![0, 0] S10000x128.size inb_S10000x128_S10000x128_0_0
abbrev r4_1 : Rect S128x128 := Rect.unit (s := S128x128) ![0, 0] S128x128.size inb_S128x128_S128x128_0_0
abbrev r4_2 : Rect S10000x128 := Rect.unit (s := S10000x128) ![0, 0] S10000x128.size inb_S10000x128_S10000x128_0_0

def out4_2 (x0 : Vec F S10000x128 .f32) (x1 : Vec F S128x128 .f32) : Vec F S10000x128 .f32 :=
  View.canon [⟨r4_2, k4_pay1 (View.ld x0 r4_0) (View.ld x1 r4_1)⟩]

theorem sound_kernel4 (c : Dev nD) (i : grid4.Coords) (a0 : Memref sig .tc .vmem S10000x128 .f32) (h0 : a0.IsWhole) (a1 : Memref sig .tc .vmem S128x128 .f32) (h1 : a1.IsWhole) (a2 : Memref sig .tc .vmem S10000x128 .f32) (h2 : a2.IsWhole)
    (x0 : Vec F S10000x128 .f32) (x1 : Vec F S128x128 .f32) {D0 D1 D2 : Type} (b : D2 → Vec F S10000x128 .f32) (P Q : sProp 𝕄) :
    iprop(P ∗ Q ∗ (∃ _ : D0, owns c.tc a0 fullShare x0) ∗ (∃ _ : D1, owns c.tc a1 fullShare x1) ∗ ∃ d, owns c.tc a2 fullShare (b d))
      ⊢ wp frame (wpE (defs₀ (F := F)) Variants.none c none) Set.univ (cc4__matmul_kernel i a0 h0 a1 h1 a2 h2) fun _ =>
        iprop(P ∗ Q ∗ owns c.tc a0 fullShare x0 ∗ owns c.tc a1 fullShare x1 ∗ owns c.tc a2 fullShare (out4_2 x0 x1)) := by
  simp only [cc4__matmul_kernel_eq_skeleton]; unfold cc4__matmul_kernel_skel owns
  iintro ⟨HP, HQ, ⟨%_, %f0, %e0, H0⟩, ⟨%_, %f1, %e1, H1⟩, %d, %f2, -, H2⟩
  subst e0 e1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

variable (c : Dev nD) (t : Fin cfg4.N)

theorem after4_0 : (dat4 V c).after 0 t = iblk4 V c 0 t := by dsimp only [dat4]
theorem after4_1 : (dat4 V c).after 1 t = iblk4 V c 1 t := by dsimp only [dat4]
theorem after4_2 : (dat4 V c).after 2 t = out4_2 (iblk4 V c 0 t) (iblk4 V c 1 t) := by dsimp only [dat4]

theorem blockOf4 (w : Fin cfg4.W) : (dat4 V c).blockOf w t = iblk4 V c w t := by
  unfold Dat.blockOf iblk4; rw [A_eq4]

theorem before4_0 (d) : (dat4 V c).before 0 t d = iblk4 V c 0 t :=
  ((dat4 V c).before_in_eq_fetched 0 rfl (fun _ => rfl) (fun _ _ _ => rfl) (fun t => (after4_0 V c t).trans (blockOf4 V c t 0).symm) t d).trans (blockOf4 V c t 0)
theorem before4_1 (d) : (dat4 V c).before 1 t d = iblk4 V c 1 t :=
  ((dat4 V c).before_in_eq_fetched 1 rfl (fun _ => rfl) (fun _ _ _ => rfl) (fun t => (after4_1 V c t).trans (blockOf4 V c t 1).symm) t d).trans (blockOf4 V c t 1)

theorem body_obligation4 : BodyObligation (dat4 (F := F) V c) (defs₀ (F := F)) Variants.none () Set.univ := fun t => by
  rw [bigSep_W4, bigSep_W4]
  simp only [before4_0, before4_1, after4_0, after4_1, after4_2]
  show _ ⊢ wp _ _ _ (bodyAt4 t) _
  exact sound_kernel4 c _ _ _ _ _ _ _ _ _ _ _ _

end Cert.Kernel.GenP
-- ==== Proof.K.Region5.lean ====
import proofs.«141437_j50036368998564_1_alg».proof.Proof.Gen.Kernel.Launch
import proofs.«141437_j50036368998564_1_alg».proof.Proof.Gen.Kernel.Skeleton
import proofs.«141437_j50036368998564_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x128 := Rect.unit (s := S10000x128) ![0, 0] S10000x128.size inb_S10000x128_S10000x128_0_0
abbrev r5_1 : Rect S10000x1 := Rect.unit (s := S10000x1) ![0, 0] S10000x1.size inb_S10000x1_S10000x1_0_0
abbrev r5_2 : Rect S1x128 := Rect.unit (s := S1x128) ![0, 0] S1x128.size inb_S1x128_S1x128_0_0

def out5_4 (x0 : Vec F S10000x128 .f32) (x1 : Vec F S10000x128 .f32) (x2 : Vec F S10000x1 .f32) (x3 : Vec F S1x128 .f32) : Vec F S10000x128 .f32 :=
  View.canon [⟨r5_0, k5_pay1 (View.ld x0 r5_0) (View.ld x1 r5_0) (View.ld x2 r5_1) (View.ld x3 r5_2)⟩]

theorem sound_kernel5 (c : Dev nD) (i : grid5.Coords) (a0 : Memref sig .tc .vmem S10000x128 .f32) (h0 : a0.IsWhole) (a1 : Memref sig .tc .vmem S10000x128 .f32) (h1 : a1.IsWhole) (a2 : Memref sig .tc .vmem S10000x1 .f32) (h2 : a2.IsWhole) (a3 : Memref sig .tc .vmem S1x128 .f32) (h3 : a3.IsWhole) (a4 : Memref sig .tc .vmem S10000x128 .f32) (h4 : a4.IsWhole)
    (x0 : Vec F S10000x128 .f32) (x1 : Vec F S10000x128 .f32) (x2 : Vec F S10000x1 .f32) (x3 : Vec F S1x128 .f32) {D0 D1 D2 D3 D4 : Type} (b : D4 → Vec F S10000x128 .f32) (P Q : sProp 𝕄) :
    iprop(P ∗ Q ∗ (∃ _ : D0, owns c.tc a0 fullShare x0) ∗ (∃ _ : D1, owns c.tc a1 fullShare x1) ∗ (∃ _ : D2, owns c.tc a2 fullShare x2) ∗ (∃ _ : D3, owns c.tc a3 fullShare x3) ∗ ∃ d, owns c.tc a4 fullShare (b d))
      ⊢ wp frame (wpE (defs₀ (F := F)) Variants.none c none) Set.univ (cc5__finalize_kernel i a0 h0 a1 h1 a2 h2 a3 h3 a4 h4) fun _ =>
        iprop(P ∗ Q ∗ owns c.tc a0 fullShare x0 ∗ owns c.tc a1 fullShare x1 ∗ owns c.tc a2 fullShare x2 ∗ owns c.tc a3 fullShare x3 ∗ owns c.tc a4 fullShare (out5_4 x0 x1 x2 x3)) := by
  simp only [cc5__finalize_kernel_eq_skeleton]; unfold cc5__finalize_kernel_skel owns
  iintro ⟨HP, HQ, ⟨%_, %f0, %e0, H0⟩, ⟨%_, %f1, %e1, H1⟩, ⟨%_, %f2, %e2, H2⟩, ⟨%_, %f3, %e3, H3⟩, %d, %f4, -, H4⟩
  subst e0 e1 e2 e3
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S10000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

variable (c : Dev nD) (t : Fin cfg5.N)

theorem after5_0 : (dat5 V c).after 0 t = iblk5 V c 0 t := by dsimp only [dat5]
theorem after5_1 : (dat5 V c).after 1 t = iblk5 V c 1 t := by dsimp only [dat5]
theorem after5_2 : (dat5 V c).after 2 t = iblk5 V c 2 t := by dsimp only [dat5]
theorem after5_3 : (dat5 V c).after 3 t = iblk5 V c 3 t := by dsimp only [dat5]
theorem after5_4 : (dat5 V c).after 4 t = out5_4 (iblk5 V c 0 t) (iblk5 V c 1 t) (iblk5 V c 2 t) (iblk5 V c 3 t) := by dsimp only [dat5]

theorem blockOf5 (w : Fin cfg5.W) : (dat5 V c).blockOf w t = iblk5 V c w t := by
  unfold Dat.blockOf iblk5; rw [A_eq5]

theorem before5_0 (d) : (dat5 V c).before 0 t d = iblk5 V c 0 t :=
  ((dat5 V c).before_in_eq_fetched 0 rfl (fun _ => rfl) (fun _ _ _ => rfl) (fun t => (after5_0 V c t).trans (blockOf5 V c t 0).symm) t d).trans (blockOf5 V c t 0)
theorem before5_1 (d) : (dat5 V c).before 1 t d = iblk5 V c 1 t :=
  ((dat5 V c).before_in_eq_fetched 1 rfl (fun _ => rfl) (fun _ _ _ => rfl) (fun t => (after5_1 V c t).trans (blockOf5 V c t 1).symm) t d).trans (blockOf5 V c t 1)
theorem before5_2 (d) : (dat5 V c).before 2 t d = iblk5 V c 2 t :=
  ((dat5 V c).before_in_eq_fetched 2 rfl (fun _ => rfl) (fun _ _ _ => rfl) (fun t => (after5_2 V c t).trans (blockOf5 V c t 2).symm) t d).trans (blockOf5 V c t 2)
theorem before5_3 (d) : (dat5 V c).before 3 t d = iblk5 V c 3 t :=
  ((dat5 V c).before_in_eq_fetched 3 rfl (fun _ => rfl) (fun _ _ _ => rfl) (fun t => (after5_3 V c t).trans (blockOf5 V c t 3).symm) t d).trans (blockOf5 V c t 3)

theorem body_obligation5 : BodyObligation (dat5 (F := F) V c) (defs₀ (F := F)) Variants.none () Set.univ := fun t => by
  rw [bigSep_W5, bigSep_W5]
  simp only [before5_0, before5_1, before5_2, before5_3, after5_0, after5_1, after5_2, after5_3, after5_4]
  show _ ⊢ wp _ _ _ (bodyAt5 t) _
  exact sound_kernel5 c _ _ _ _ _ _ _ _ _ _ _ _ _ _ _ _ _ _

end Cert.Kernel.GenP
-- ==== Proof.K.Region6Runs.lean ====
import proofs.«141437_j50036368998564_1_alg».proof.Proof.Gen.Kernel.Launch
import proofs.«141437_j50036368998564_1_alg».proof.Proof.Gen.Kernel.Skeleton
import proofs.«141437_j50036368998564_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev VO6_1 : View sig .tc .vmem S1x128 .f32 := (Memref.whole cc6_stg1_0 : Memref sig .tc .vmem S1x128 .f32).view

abbrev ms6_0 (t : Fin cfg6.N) : Memref sig .tc .vmem S10000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)

abbrev scM6_0 : Memref sig .tc .vmem S1x128 .f32 := Memref.whole cc6_scratch0
abbrev scM6_1 : Memref sig .tc .vmem S1x128 .f32 := Memref.whole cc6_scratch1

abbrev R6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ R6 c) ∗ (∃ r, prngReg c r)) := by
  unfold Pipeline.ΦA; rw [scopedRest6_split]; simp only [scM6_0, scM6_1, owns_whole]; try rfl

abbrev Run6 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (x0 : Vec F S10000x128 .f32) (S0 S1 : sProp 𝕄) :=
  Σ' (L1 L2 LS0 : List (View.Piece (Elt F) S1x128 .f32)), { LS1 : List (View.Piece (Elt F) S1x128 .f32) //
    ∀ (E : Set ℕ) (K : PUnit → sProp 𝕄),
      iprop(owns (c : Thread nD τ) arg1 fullShare x0 ∗ (∃ d, owns (c : Thread nD τ) arg2 fullShare d) ∗ (∃ d, owns (c : Thread nD τ) arg3 fullShare d) ∗ S0 ∗ S1
          ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
        ⊢ wp frame (wpE (defs₀ (F := F)) Variants.none c none) E (cc6__bn_stats_kernel i arg1 harg1 arg2 harg2 arg3 harg3 arg4 harg4 arg5 harg5) K }

end Cert.Kernel.GenP

end
-- ==== Proof.K.Region6RunA.lean ====
import proofs.«141437_j50036368998564_1_alg».proof.Proof.K.Region6Runs

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun6_A (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond6_0 i) (x0 : Vec F S10000x128 .f32) :
    Run6 c i arg1 harg1 arg2 harg2 arg3 harg3 arg4 harg4 arg5 harg5 x0 (iprop(∃ d, owns (c : Thread nD τ) arg4 fullShare d)) (iprop(∃ d, owns (c : Thread nD τ) arg5 fullShare d)) := by
  refine ⟨?_, ?_, ?_, ?_, fun E K => ?run⟩
  case run =>
    simp only [cc6__bn_stats_kernel_eq_skeleton]; unfold cc6__bn_stats_kernel_skel
    unfold owns
    iintro ⟨⟨%f0, %hf0, H0⟩, ⟨%d1, %f1, -, H1⟩, ⟨%d2, %f2, -, H2⟩, ⟨%ds0, %fs0, -, HS0⟩, ⟨%ds1, %fs1, -, HS1⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.GenP

end
-- ==== Proof.K.Region6RunB.lean ====
import proofs.«141437_j50036368998564_1_alg».proof.Proof.K.Region6RunA

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun6_B (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (x0 : Vec F S10000x128 .f32) (xs0 xs1 : Vec F S1x128 .f32) :
    Run6 c i arg1 harg1 arg2 harg2 arg3 harg3 arg4 harg4 arg5 harg5 x0 (owns (c : Thread nD τ) arg4 fullShare xs0) (owns (c : Thread nD τ) arg5 fullShare xs1) := by
  refine ⟨?_, ?_, ?_, ?_, fun E K => ?run⟩
  case run =>
    simp only [cc6__bn_stats_kernel_eq_skeleton]; unfold cc6__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.GenP

end
-- ==== Proof.K.Region6.lean ====
import proofs.«141437_j50036368998564_1_alg».proof.Proof.K.Region6RunB
import Idealize.ShloMosaic.Lib.Pipeline.Value

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def rb6 (L : List (View.Piece (Elt F) S1x128 .f32)) : Vec F S1x128 .f32 := VO6_1.read (Elt F) (VO6_1.writes (Elt F) VO6_1.junk L)

section
variable {P : List (View.Piece (Elt F) S1x128 .f32) → List (View.Piece (Elt F) S1x128 .f32) → List (View.Piece (Elt F) S1x128 .f32) → List (View.Piece (Elt F) S1x128 .f32) → Prop} (r : Σ' (L1 L2 LS0 : List (View.Piece (Elt F) S1x128 .f32)), { LS1 // P L1 L2 LS0 LS1 })

def rows6 : Vec F S1x128 .f32 × Vec F S1x128 .f32 × Vec F S1x128 .f32 × Vec F S1x128 .f32 := (rb6 r.1, rb6 r.2.1, rb6 r.2.2.1, rb6 r.2.2.2.1)

abbrev Tiled6 : Prop := View.Piece.tiledL r.1 S1x128.size = true ∧ View.Piece.tiledL r.2.1 S1x128.size = true
  ∧ View.Piece.tiledL r.2.2.1 S1x128.size = true ∧ View.Piece.tiledL r.2.2.2.1 S1x128.size = true
end

abbrev runA6 (c : Dev nD) (t : Fin cfg6.N) (h0 : t.val = 0) :=
  kernelRun6_A c (grid6.coords t) (ms6_0 t) (hs6_0 t) (ms6_1 t) (hs6_1 t) (ms6_2 t) (hs6_2 t) scM6_0 (Memref.isWhole_whole _) scM6_1 (Memref.isWhole_whole _) ((hcond6_0 t).mpr h0) (iblk6 V c 0 t)
abbrev runB6 (c : Dev nD) (t : Fin cfg6.N) (h0 : ¬t.val = 0) (xs0 xs1 : Vec F S1x128 .f32) :=
  kernelRun6_B c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) (iblk6 V c 0 t) xs0 xs1

theorem tiled6_A (c : Dev nD) (t : Fin cfg6.N) (h0 : t.val = 0) : Tiled6 (runA6 V c t h0) :=
  ⟨by sl_kernel_rfl, by sl_kernel_rfl, by sl_kernel_rfl, by sl_kernel_rfl⟩

theorem tiled6_B (c : Dev nD) (t : Fin cfg6.N) (h0 : ¬t.val = 0) (xs0 xs1 : Vec F S1x128 .f32) : Tiled6 (runB6 V c t h0 xs0 xs1) :=
  ⟨by sl_kernel_rfl, by sl_kernel_rfl, by sl_kernel_rfl, by sl_kernel_rfl⟩

def outsAt6 (c : Dev nD) : (n : ℕ) → n < cfg6.N → Vec F S1x128 .f32 × Vec F S1x128 .f32 × Vec F S1x128 .f32 × Vec F S1x128 .f32
  | 0, hn => rows6 (runA6 V c ⟨0, hn⟩ rfl)
  | n + 1, hn => rows6 (runB6 V c ⟨n + 1, hn⟩ (Nat.succ_ne_zero n) (outsAt6 c n (Nat.lt_of_succ_lt hn)).2.2.1 (outsAt6 c n (Nat.lt_of_succ_lt hn)).2.2.2)

def PhiG6 (c : Dev nD) (S0 S1 : sProp 𝕄) : sProp 𝕄 := iprop(iprop(iprop(S0 ∗ S1) ∗ R6 c) ∗ (∃ r, prngReg c r))

def PhiS6 (c : Dev nD) : (n : ℕ) → n ≤ cfg6.N → sProp 𝕄
  | 0, _ => Pipeline.ΦA spec6 c
  | n + 1, hn => PhiG6 c (owns (c : Thread nD τ) scM6_0 fullShare (outsAt6 V c n hn).2.2.1) (owns (c : Thread nD τ) scM6_1 fullShare (outsAt6 V c n hn).2.2.2)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => (outsAt6 V c t.val t.isLt).1
    | ⟨2, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = (outsAt6 V c t.val t.isLt).1 := by dsimp only [dat6]
theorem after6_2 (c : Dev nD) (t : Fin cfg6.N) : (dat6 V c).after 2 t = (outsAt6 V c t.val t.isLt).2.1 := by dsimp only [dat6]

theorem before6_0 (c : Dev nD) (t : Fin cfg6.N) (d) : (dat6 V c).before 0 t d = iblk6 V c 0 t :=
  before6_0_of V (dat6 V c) (A_eq6 V c 0) (after6_0 V c) t d

theorem run_body6 (c : Dev nD) (t : Fin cfg6.N) {x0 : Vec F S10000x128 .f32} {S0 S1 : sProp 𝕄}
    (r : Run6 c (grid6.coords t) (ms6_0 t) (hs6_0 t) (ms6_1 t) (hs6_1 t) (ms6_2 t) (hs6_2 t) scM6_0 (Memref.isWhole_whole _) scM6_1 (Memref.isWhole_whole _) x0 S0 S1) (h : Tiled6 r) (P : sProp 𝕄) {D0 D1 D2 : Type} (b1 : D1 → Vec F S1x128 .f32) (b2 : D2 → Vec F S1x128 .f32) :
    iprop(PhiG6 c S0 S1 ∗ P ∗ (∃ _ : D0, owns (c : Thread nD τ) (ms6_0 t) fullShare x0) ∗ (∃ d, owns (c : Thread nD τ) (ms6_1 t) fullShare (b1 d)) ∗ (∃ d, owns (c : Thread nD τ) (ms6_2 t) fullShare (b2 d)))
      ⊢ wp frame (wpE (defs₀ (F := F)) Variants.none c none) Set.univ (bodyAt6 t)
          (fun _ => iprop(PhiG6 c (owns (c : Thread nD τ) scM6_0 fullShare (rows6 r).2.2.1) (owns (c : Thread nD τ) scM6_1 fullShare (rows6 r).2.2.2) ∗ P
            ∗ owns (c : Thread nD τ) (ms6_0 t) fullShare x0 ∗ owns (c : Thread nD τ) (ms6_1 t) fullShare (rows6 r).1 ∗ owns (c : Thread nD τ) (ms6_2 t) fullShare (rows6 r).2.1)) := by
  unfold PhiG6 rows6 rb6 bodyAt6; dsimp only
  iintro ⟨⟨⟨⟨HS0, HS1⟩, HR⟩, Hg⟩, Ho, ⟨%d0, H0⟩, ⟨%d1, H1⟩, ⟨%d2, H2⟩⟩
  iapply (r.2.2.2.2 Set.univ _)
  isplitl [H0]; · iexact H0
  isplitl [H1]; · iexists _; iexact H1
  isplitl [H2]; · iexists _; iexact H2
  isplitl [HS0]; · iexact HS0
  isplitl [HS1]; · iexact HS1
  iintro ⟨H0, ⟨%e1, H1⟩, ⟨%e2, H2⟩, ⟨%es0, HS0⟩, ⟨%es1, HS1⟩⟩
  isplitl [HS0 HS1 HR Hg]
  · isplitl [HS0 HS1 HR]
    · isplitl [HS0 HS1]
      · isplitl [HS0]
        · ihave H' := (Ring.owns_of_writes_tiledL VO6_1 S1x128.size) $$ HS0; iapply H'; ipureintro; exact h.2.2.1
        · ihave H' := (Ring.owns_of_writes_tiledL VO6_1 S1x128.size) $$ HS1; iapply H'; ipureintro; exact h.2.2.2
      · iexact HR
    · iexact Hg
  isplitl [Ho]; · iexact Ho
  isplitl [H0]; · iexact H0
  isplitl [H1]
  · ihave H' := (Ring.owns_of_writes_tiledL VO6_1 S1x128.size) $$ H1; iapply H'; ipureintro; exact h.1
  · ihave H' := (Ring.owns_of_writes_tiledL VO6_1 S1x128.size) $$ H2; iapply H'; ipureintro; exact h.2.1

theorem sound_body6 (c : Dev nD) (t : Fin cfg6.N) :
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))
      ⊢ wp frame (wpE (defs₀ (F := F)) Variants.none c none) Set.univ (bodyAt6 t) (fun _ =>
        iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t))) := by
  simp only [before6_0]
  rw [show (dat6 V c).owesAt () t.succ = (dat6 V c).owesAt () t.castSucc from rfl, after6_0, after6_1, after6_2]
  obtain ⟨n, hn⟩ := t
  cases n with
  | zero =>
    rw [show (dat6 V c).Φ (Fin.castSucc ⟨0, hn⟩) = Pipeline.ΦA spec6 c from rfl, PhiA6_eq]
    exact run_body6 c ⟨0, hn⟩ _ (tiled6_A V c _ rfl) _ _ _
  | succ n => exact run_body6 c ⟨n + 1, hn⟩ _ (tiled6_B V c _ (Nat.succ_ne_zero n) _ _) _ _ _

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 :=
  (Idealize.SL.BI.Entails.refl _ : Pipeline.ΦA spec6 c ⊢ Pipeline.ΦA spec6 c)

theorem hout6 (c : Dev nD) : (dat6 V c).Φ (Fin.last cfg6.N) ⊢ Pipeline.ΦA spec6 c := by
  show PhiG6 c _ _ ⊢ _
  rw [PhiA6_eq]; unfold PhiG6
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.Kernel.GenP

end
-- ==== Proof.K.Region7.lean ====
import proofs.«141437_j50036368998564_1_alg».proof.Proof.Gen.Kernel.Launch
import proofs.«141437_j50036368998564_1_alg».proof.Proof.Gen.Kernel.Skeleton
import proofs.«141437_j50036368998564_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S10000x128 := Rect.unit (s := S10000x128) ![0, 0] S10000x128.size inb_S10000x128_S10000x128_0_0
abbrev r7_1 : Rect S1x128 := Rect.unit (s := S1x128) ![0, 0] S1x128.size inb_S1x128_S1x128_0_0

def out7_5 (x0 : Vec F S10000x128 .f32) (x1 : Vec F S1x128 .f32) (x2 : Vec F S1x128 .f32) (x3 : Vec F S1x128 .f32) (x4 : Vec F S1x128 .f32) : Vec F S10000x128 .f32 :=
  View.canon [⟨r7_0, k7_pay1 (View.ld x0 r7_0) (View.ld x1 r7_1) (View.ld x2 r7_1) (View.ld x3 r7_1) (View.ld x4 r7_1)⟩]

theorem sound_kernel7 (c : Dev nD) (i : grid7.Coords) (a0 : Memref sig .tc .vmem S10000x128 .f32) (h0 : a0.IsWhole) (a1 : Memref sig .tc .vmem S1x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S10000x128 .f32) (h5 : a5.IsWhole)
    (x0 : Vec F S10000x128 .f32) (x1 : Vec F S1x128 .f32) (x2 : Vec F S1x128 .f32) (x3 : Vec F S1x128 .f32) (x4 : Vec F S1x128 .f32) {D0 D1 D2 D3 D4 D5 : Type} (b : D5 → Vec F S10000x128 .f32) (P Q : sProp 𝕄) :
    iprop(P ∗ Q ∗ (∃ _ : D0, owns c.tc a0 fullShare x0) ∗ (∃ _ : D1, owns c.tc a1 fullShare x1) ∗ (∃ _ : D2, owns c.tc a2 fullShare x2) ∗ (∃ _ : D3, owns c.tc a3 fullShare x3) ∗ (∃ _ : D4, owns c.tc a4 fullShare x4) ∗ ∃ d, owns c.tc a5 fullShare (b d))
      ⊢ wp frame (wpE (defs₀ (F := F)) Variants.none c none) Set.univ (cc7__bn_norm_kernel i a0 h0 a1 h1 a2 h2 a3 h3 a4 h4 a5 h5) fun _ =>
        iprop(P ∗ Q ∗ owns c.tc a0 fullShare x0 ∗ owns c.tc a1 fullShare x1 ∗ owns c.tc a2 fullShare x2 ∗ owns c.tc a3 fullShare x3 ∗ owns c.tc a4 fullShare x4 ∗ owns c.tc a5 fullShare (out7_5 x0 x1 x2 x3 x4)) := by
  simp only [cc7__bn_norm_kernel_eq_skeleton]; unfold cc7__bn_norm_kernel_skel owns
  iintro ⟨HP, HQ, ⟨%_, %f0, %e0, H0⟩, ⟨%_, %f1, %e1, H1⟩, ⟨%_, %f2, %e2, H2⟩, ⟨%_, %f3, %e3, H3⟩, ⟨%_, %f4, %e4, H4⟩, %d, %f5, -, H5⟩
  subst e0 e1 e2 e3 e4
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x128.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

variable (c : Dev nD) (t : Fin cfg7.N)

theorem after7_0 : (dat7 V c).after 0 t = iblk7 V c 0 t := by dsimp only [dat7]
theorem after7_1 : (dat7 V c).after 1 t = iblk7 V c 1 t := by dsimp only [dat7]
theorem after7_2 : (dat7 V c).after 2 t = iblk7 V c 2 t := by dsimp only [dat7]
theorem after7_3 : (dat7 V c).after 3 t = iblk7 V c 3 t := by dsimp only [dat7]
theorem after7_4 : (dat7 V c).after 4 t = iblk7 V c 4 t := by dsimp only [dat7]
theorem after7_5 : (dat7 V c).after 5 t = out7_5 (iblk7 V c 0 t) (iblk7 V c 1 t) (iblk7 V c 2 t) (iblk7 V c 3 t) (iblk7 V c 4 t) := by dsimp only [dat7]

theorem blockOf7 (w : Fin cfg7.W) : (dat7 V c).blockOf w t = iblk7 V c w t := by
  unfold Dat.blockOf iblk7; rw [A_eq7]

theorem before7_0 (d) : (dat7 V c).before 0 t d = iblk7 V c 0 t :=
  ((dat7 V c).before_in_eq_fetched 0 rfl (fun _ => rfl) (fun _ _ _ => rfl) (fun t => (after7_0 V c t).trans (blockOf7 V c t 0).symm) t d).trans (blockOf7 V c t 0)
theorem before7_1 (d) : (dat7 V c).before 1 t d = iblk7 V c 1 t :=
  ((dat7 V c).before_in_eq_fetched 1 rfl (fun _ => rfl) (fun _ _ _ => rfl) (fun t => (after7_1 V c t).trans (blockOf7 V c t 1).symm) t d).trans (blockOf7 V c t 1)
theorem before7_2 (d) : (dat7 V c).before 2 t d = iblk7 V c 2 t :=
  ((dat7 V c).before_in_eq_fetched 2 rfl (fun _ => rfl) (fun _ _ _ => rfl) (fun t => (after7_2 V c t).trans (blockOf7 V c t 2).symm) t d).trans (blockOf7 V c t 2)
theorem before7_3 (d) : (dat7 V c).before 3 t d = iblk7 V c 3 t :=
  ((dat7 V c).before_in_eq_fetched 3 rfl (fun _ => rfl) (fun _ _ _ => rfl) (fun t => (after7_3 V c t).trans (blockOf7 V c t 3).symm) t d).trans (blockOf7 V c t 3)
theorem before7_4 (d) : (dat7 V c).before 4 t d = iblk7 V c 4 t :=
  ((dat7 V c).before_in_eq_fetched 4 rfl (fun _ => rfl) (fun _ _ _ => rfl) (fun t => (after7_4 V c t).trans (blockOf7 V c t 4).symm) t d).trans (blockOf7 V c t 4)

theorem body_obligation7 : BodyObligation (dat7 (F := F) V c) (defs₀ (F := F)) Variants.none () Set.univ := fun t => by
  rw [bigSep_W7, bigSep_W7]
  simp only [before7_0, before7_1, before7_2, before7_3, before7_4, after7_0, after7_1, after7_2, after7_3, after7_4, after7_5]
  show _ ⊢ wp _ _ _ (bodyAt7 t) _
  exact sound_kernel7 c _ _ _ _ _ _ _ _ _ _ _ _ _ _ _ _ _ _ _ _ _

end Cert.Kernel.GenP
-- ==== Proof.K.Region8.lean ====
import proofs.«141437_j50036368998564_1_alg».proof.Proof.Gen.Kernel.Launch
import proofs.«141437_j50036368998564_1_alg».proof.Proof.Gen.Kernel.Skeleton
import proofs.«141437_j50036368998564_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S10000x128 := Rect.unit (s := S10000x128) ![0, 0] S10000x128.size inb_S10000x128_S10000x128_0_0
abbrev r8_1 : Rect S128x64 := Rect.unit (s := S128x64) ![0, 0] S128x64.size inb_S128x64_S128x64_0_0
abbrev r8_2 : Rect S10000x64 := Rect.unit (s := S10000x64) ![0, 0] S10000x64.size inb_S10000x64_S10000x64_0_0

def out8_2 (x0 : Vec F S10000x128 .f32) (x1 : Vec F S128x64 .f32) : Vec F S10000x64 .f32 :=
  View.canon [⟨r8_2, k8_pay1 (View.ld x0 r8_0) (View.ld x1 r8_1)⟩]

theorem sound_kernel8 (c : Dev nD) (i : grid8.Coords) (a0 : Memref sig .tc .vmem S10000x128 .f32) (h0 : a0.IsWhole) (a1 : Memref sig .tc .vmem S128x64 .f32) (h1 : a1.IsWhole) (a2 : Memref sig .tc .vmem S10000x64 .f32) (h2 : a2.IsWhole)
    (x0 : Vec F S10000x128 .f32) (x1 : Vec F S128x64 .f32) {D0 D1 D2 : Type} (b : D2 → Vec F S10000x64 .f32) (P Q : sProp 𝕄) :
    iprop(P ∗ Q ∗ (∃ _ : D0, owns c.tc a0 fullShare x0) ∗ (∃ _ : D1, owns c.tc a1 fullShare x1) ∗ ∃ d, owns c.tc a2 fullShare (b d))
      ⊢ wp frame (wpE (defs₀ (F := F)) Variants.none c none) Set.univ (cc8__matmul_kernel i a0 h0 a1 h1 a2 h2) fun _ =>
        iprop(P ∗ Q ∗ owns c.tc a0 fullShare x0 ∗ owns c.tc a1 fullShare x1 ∗ owns c.tc a2 fullShare (out8_2 x0 x1)) := by
  simp only [cc8__matmul_kernel_eq_skeleton]; unfold cc8__matmul_kernel_skel owns
  iintro ⟨HP, HQ, ⟨%_, %f0, %e0, H0⟩, ⟨%_, %f1, %e1, H1⟩, %d, %f2, -, H2⟩
  subst e0 e1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x64.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

variable (c : Dev nD) (t : Fin cfg8.N)

theorem after8_0 : (dat8 V c).after 0 t = iblk8 V c 0 t := by dsimp only [dat8]
theorem after8_1 : (dat8 V c).after 1 t = iblk8 V c 1 t := by dsimp only [dat8]
theorem after8_2 : (dat8 V c).after 2 t = out8_2 (iblk8 V c 0 t) (iblk8 V c 1 t) := by dsimp only [dat8]

theorem blockOf8 (w : Fin cfg8.W) : (dat8 V c).blockOf w t = iblk8 V c w t := by
  unfold Dat.blockOf iblk8; rw [A_eq8]

theorem before8_0 (d) : (dat8 V c).before 0 t d = iblk8 V c 0 t :=
  ((dat8 V c).before_in_eq_fetched 0 rfl (fun _ => rfl) (fun _ _ _ => rfl) (fun t => (after8_0 V c t).trans (blockOf8 V c t 0).symm) t d).trans (blockOf8 V c t 0)
theorem before8_1 (d) : (dat8 V c).before 1 t d = iblk8 V c 1 t :=
  ((dat8 V c).before_in_eq_fetched 1 rfl (fun _ => rfl) (fun _ _ _ => rfl) (fun t => (after8_1 V c t).trans (blockOf8 V c t 1).symm) t d).trans (blockOf8 V c t 1)

theorem body_obligation8 : BodyObligation (dat8 (F := F) V c) (defs₀ (F := F)) Variants.none () Set.univ := fun t => by
  rw [bigSep_W8, bigSep_W8]
  simp only [before8_0, before8_1, after8_0, after8_1, after8_2]
  show _ ⊢ wp _ _ _ (bodyAt8 t) _
  exact sound_kernel8 c _ _ _ _ _ _ _ _ _ _ _ _

end Cert.Kernel.GenP
-- ==== Proof.K.Region9.lean ====
import proofs.«141437_j50036368998564_1_alg».proof.Proof.Gen.Kernel.Launch
import proofs.«141437_j50036368998564_1_alg».proof.Proof.Gen.Kernel.Skeleton
import proofs.«141437_j50036368998564_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S10000x64 := Rect.unit (s := S10000x64) ![0, 0] S10000x64.size inb_S10000x64_S10000x64_0_0
abbrev r9_1 : Rect S10000x1 := Rect.unit (s := S10000x1) ![0, 0] S10000x1.size inb_S10000x1_S10000x1_0_0
abbrev r9_2 : Rect S1x64 := Rect.unit (s := S1x64) ![0, 0] S1x64.size inb_S1x64_S1x64_0_0

def out9_4 (x0 : Vec F S10000x64 .f32) (x1 : Vec F S10000x64 .f32) (x2 : Vec F S10000x1 .f32) (x3 : Vec F S1x64 .f32) : Vec F S10000x64 .f32 :=
  View.canon [⟨r9_0, k9_pay1 (View.ld x0 r9_0) (View.ld x1 r9_0) (View.ld x2 r9_1) (View.ld x3 r9_2)⟩]

theorem sound_kernel9 (c : Dev nD) (i : grid9.Coords) (a0 : Memref sig .tc .vmem S10000x64 .f32) (h0 : a0.IsWhole) (a1 : Memref sig .tc .vmem S10000x64 .f32) (h1 : a1.IsWhole) (a2 : Memref sig .tc .vmem S10000x1 .f32) (h2 : a2.IsWhole) (a3 : Memref sig .tc .vmem S1x64 .f32) (h3 : a3.IsWhole) (a4 : Memref sig .tc .vmem S10000x64 .f32) (h4 : a4.IsWhole)
    (x0 : Vec F S10000x64 .f32) (x1 : Vec F S10000x64 .f32) (x2 : Vec F S10000x1 .f32) (x3 : Vec F S1x64 .f32) {D0 D1 D2 D3 D4 : Type} (b : D4 → Vec F S10000x64 .f32) (P Q : sProp 𝕄) :
    iprop(P ∗ Q ∗ (∃ _ : D0, owns c.tc a0 fullShare x0) ∗ (∃ _ : D1, owns c.tc a1 fullShare x1) ∗ (∃ _ : D2, owns c.tc a2 fullShare x2) ∗ (∃ _ : D3, owns c.tc a3 fullShare x3) ∗ ∃ d, owns c.tc a4 fullShare (b d))
      ⊢ wp frame (wpE (defs₀ (F := F)) Variants.none c none) Set.univ (cc9__finalize_kernel i a0 h0 a1 h1 a2 h2 a3 h3 a4 h4) fun _ =>
        iprop(P ∗ Q ∗ owns c.tc a0 fullShare x0 ∗ owns c.tc a1 fullShare x1 ∗ owns c.tc a2 fullShare x2 ∗ owns c.tc a3 fullShare x3 ∗ owns c.tc a4 fullShare (out9_4 x0 x1 x2 x3)) := by
  simp only [cc9__finalize_kernel_eq_skeleton]; unfold cc9__finalize_kernel_skel owns
  iintro ⟨HP, HQ, ⟨%_, %f0, %e0, H0⟩, ⟨%_, %f1, %e1, H1⟩, ⟨%_, %f2, %e2, H2⟩, ⟨%_, %f3, %e3, H3⟩, %d, %f4, -, H4⟩
  subst e0 e1 e2 e3
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S10000x64.size (by rfl))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

variable (c : Dev nD) (t : Fin cfg9.N)

theorem after9_0 : (dat9 V c).after 0 t = iblk9 V c 0 t := by dsimp only [dat9]
theorem after9_1 : (dat9 V c).after 1 t = iblk9 V c 1 t := by dsimp only [dat9]
theorem after9_2 : (dat9 V c).after 2 t = iblk9 V c 2 t := by dsimp only [dat9]
theorem after9_3 : (dat9 V c).after 3 t = iblk9 V c 3 t := by dsimp only [dat9]
theorem after9_4 : (dat9 V c).after 4 t = out9_4 (iblk9 V c 0 t) (iblk9 V c 1 t) (iblk9 V c 2 t) (iblk9 V c 3 t) := by dsimp only [dat9]

theorem blockOf9 (w : Fin cfg9.W) : (dat9 V c).blockOf w t = iblk9 V c w t := by
  unfold Dat.blockOf iblk9; rw [A_eq9]

theorem before9_0 (d) : (dat9 V c).before 0 t d = iblk9 V c 0 t :=
  ((dat9 V c).before_in_eq_fetched 0 rfl (fun _ => rfl) (fun _ _ _ => rfl) (fun t => (after9_0 V c t).trans (blockOf9 V c t 0).symm) t d).trans (blockOf9 V c t 0)
theorem before9_1 (d) : (dat9 V c).before 1 t d = iblk9 V c 1 t :=
  ((dat9 V c).before_in_eq_fetched 1 rfl (fun _ => rfl) (fun _ _ _ => rfl) (fun t => (after9_1 V c t).trans (blockOf9 V c t 1).symm) t d).trans (blockOf9 V c t 1)
theorem before9_2 (d) : (dat9 V c).before 2 t d = iblk9 V c 2 t :=
  ((dat9 V c).before_in_eq_fetched 2 rfl (fun _ => rfl) (fun _ _ _ => rfl) (fun t => (after9_2 V c t).trans (blockOf9 V c t 2).symm) t d).trans (blockOf9 V c t 2)
theorem before9_3 (d) : (dat9 V c).before 3 t d = iblk9 V c 3 t :=
  ((dat9 V c).before_in_eq_fetched 3 rfl (fun _ => rfl) (fun _ _ _ => rfl) (fun t => (after9_3 V c t).trans (blockOf9 V c t 3).symm) t d).trans (blockOf9 V c t 3)

theorem body_obligation9 : BodyObligation (dat9 (F := F) V c) (defs₀ (F := F)) Variants.none () Set.univ := fun t => by
  rw [bigSep_W9, bigSep_W9]
  simp only [before9_0, before9_1, before9_2, before9_3, after9_0, after9_1, after9_2, after9_3, after9_4]
  show _ ⊢ wp _ _ _ (bodyAt9 t) _
  exact sound_kernel9 c _ _ _ _ _ _ _ _ _ _ _ _ _ _ _ _ _ _

end Cert.Kernel.GenP
-- ==== Proof.K.Run.lean ====
import proofs.«141437_j50036368998564_1_alg».proof.Proof.Gen.Kernel.Launch
import proofs.«141437_j50036368998564_1_alg».proof.Proof.Gen.Kernel.Skeleton
import proofs.«141437_j50036368998564_1_alg».proof.Proof.Gen.Kernel.Points
import proofs.«141437_j50036368998564_1_alg».proof.Proof.Gen.Kernel.Regions
import proofs.«141437_j50036368998564_1_alg».proof.Proof.K.Region0
import proofs.«141437_j50036368998564_1_alg».proof.Proof.K.Region1
import proofs.«141437_j50036368998564_1_alg».proof.Proof.K.Region2
import proofs.«141437_j50036368998564_1_alg».proof.Proof.K.Region3
import proofs.«141437_j50036368998564_1_alg».proof.Proof.K.Region4
import proofs.«141437_j50036368998564_1_alg».proof.Proof.K.Region5
import proofs.«141437_j50036368998564_1_alg».proof.Proof.K.Region6
import proofs.«141437_j50036368998564_1_alg».proof.Proof.K.Region7
import proofs.«141437_j50036368998564_1_alg».proof.Proof.K.Region8
import proofs.«141437_j50036368998564_1_alg».proof.Proof.K.Region9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev V0 : (c : Dev nD) → (b : Ref sig .tc) → Buf (Elt F) ((c : Thread nD τ).loc b) := fun c b => W0 m c b

abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c r = W0 m c r :=
  StableHlo.after_of_writes_sub hostOps0 _ hostOps0_writes h

abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
theorem W2_of (c : Dev nD) (r : Ref sig .tc) (h : r ∉ hostOps0_1_W) : W2 m c r = W1 m c r :=
  StableHlo.after_of_writes_sub hostOps0_1 _ hostOps0_1_writes h

abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
theorem W3_of (c : Dev nD) (r : Ref sig .tc) (h : r ∉ hostOps0_2_W) : W3 m c r = W2 m c r :=
  StableHlo.after_of_writes_sub hostOps0_2 _ hostOps0_2_writes h

def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

abbrev W5 : Dev nD → Valuation τ sig (Elt F) := fun c => StableHlo.after hostOps1 (W4 m c)
abbrev V5 : (c : Dev nD) → (b : Ref sig .tc) → Buf (Elt F) ((c : Thread nD τ).loc b) := fun c b => W5 m c b
theorem W5_of (c : Dev nD) (r : Ref sig .tc) (h : r ∉ hostOps1_W) : W5 m c r = W4 m c r :=
  StableHlo.after_of_writes_sub hostOps1 _ hostOps1_writes h

def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

abbrev W8 : Dev nD → Valuation τ sig (Elt F) := fun c => StableHlo.after hostOps3 (W7 m c)
abbrev V8 : (c : Dev nD) → (b : Ref sig .tc) → Buf (Elt F) ((c : Thread nD τ).loc b) := fun c b => W8 m c b
theorem W8_of (c : Dev nD) (r : Ref sig .tc) (h : r ∉ hostOps3_W) : W8 m c r = W7 m c r :=
  StableHlo.after_of_writes_sub hostOps3 _ hostOps3_writes h

def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)

def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

abbrev W11 : Dev nD → Valuation τ sig (Elt F) := fun c => StableHlo.after hostOps5 (W10 m c)
abbrev V11 : (c : Dev nD) → (b : Ref sig .tc) → Buf (Elt F) ((c : Thread nD τ).loc b) := fun c b => W11 m c b
theorem W11_of (c : Dev nD) (r : Ref sig .tc) (h : r ∉ hostOps5_W) : W11 m c r = W10 m c r :=
  StableHlo.after_of_writes_sub hostOps5 _ hostOps5_writes h

def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev V12 : (c : Dev nD) → (b : Ref sig .tc) → Buf (Elt F) ((c : Thread nD τ).loc b) := fun c b => W12 m c b
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => W12_of_ne m c b fun w e => hb (Finset.mem_image.mpr ⟨w, Finset.mem_univ _, e⟩)

def W13 (c : Dev nD) : Valuation τ sig (Elt F) :=
  Pipeline.withArrays spec6 c (W12 m c) fun w => (dat6 (V12 m) c).arrAt w cfg6.N
theorem W13_arr (c : Dev nD) (w : Fin cfg6.W) :
    W13 m c (Proc.devRef .tc (Pipeline.arrRef spec6 w)) = (dat6 (V12 m) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m c (Proc.devRef .tc b) = W12 m c (Proc.devRef .tc b) := by
  unfold W13; exact Pipeline.withArrays_of_ne spec6 c _ _ b hb
abbrev V13 : (c : Dev nD) → (b : Ref sig .tc) → Buf (Elt F) ((c : Thread nD τ).loc b) := fun c b => W13 m c b
theorem hF6 (c : Dev nD) (w : Fin cfg6.W) : (dat6 (V12 m) c).arrAt w cfg6.N = V13 m c (Pipeline.arrRef spec6 w) :=
  (W13_arr m c w).symm
theorem hrest6 (c : Dev nD) : ∀ b, b ∉ Finset.univ.image (Pipeline.arrRef spec6) → V13 m c b = V12 m c b :=
  fun b hb => W13_of_ne m c b fun w e => hb (Finset.mem_image.mpr ⟨w, Finset.mem_univ _, e⟩)

abbrev W14 : Dev nD → Valuation τ sig (Elt F) := fun c => StableHlo.after hostOps7 (W13 m c)
abbrev V14 : (c : Dev nD) → (b : Ref sig .tc) → Buf (Elt F) ((c : Thread nD τ).loc b) := fun c b => W14 m c b
theorem W14_of (c : Dev nD) (r : Ref sig .tc) (h : r ∉ hostOps7_W) : W14 m c r = W13 m c r :=
  StableHlo.after_of_writes_sub hostOps7 _ hostOps7_writes h

def W15 (c : Dev nD) : Valuation τ sig (Elt F) :=
  Pipeline.withArrays spec7 c (W14 m c) fun w => (dat7 (V14 m) c).arrAt w cfg7.N
theorem W15_arr (c : Dev nD) (w : Fin cfg7.W) :
    W15 m c (Proc.devRef .tc (Pipeline.arrRef spec7 w)) = (dat7 (V14 m) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m c (Proc.devRef .tc b) = W14 m c (Proc.devRef .tc b) := by
  unfold W15; exact Pipeline.withArrays_of_ne spec7 c _ _ b hb
abbrev V15 : (c : Dev nD) → (b : Ref sig .tc) → Buf (Elt F) ((c : Thread nD τ).loc b) := fun c b => W15 m c b
theorem hF7 (c : Dev nD) (w : Fin cfg7.W) : (dat7 (V14 m) c).arrAt w cfg7.N = V15 m c (Pipeline.arrRef spec7 w) :=
  (W15_arr m c w).symm
theorem hrest7 (c : Dev nD) : ∀ b, b ∉ Finset.univ.image (Pipeline.arrRef spec7) → V15 m c b = V14 m c b :=
  fun b hb => W15_of_ne m c b fun w e => hb (Finset.mem_image.mpr ⟨w, Finset.mem_univ _, e⟩)

def W16 (c : Dev nD) : Valuation τ sig (Elt F) :=
  Pipeline.withArrays spec8 c (W15 m c) fun w => (dat8 (V15 m) c).arrAt w cfg8.N
theorem W16_arr (c : Dev nD) (w : Fin cfg8.W) :
    W16 m c (Proc.devRef .tc (Pipeline.arrRef spec8 w)) = (dat8 (V15 m) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m c (Proc.devRef .tc b) = W15 m c (Proc.devRef .tc b) := by
  unfold W16; exact Pipeline.withArrays_of_ne spec8 c _ _ b hb
abbrev V16 : (c : Dev nD) → (b : Ref sig .tc) → Buf (Elt F) ((c : Thread nD τ).loc b) := fun c b => W16 m c b
theorem hF8 (c : Dev nD) (w : Fin cfg8.W) : (dat8 (V15 m) c).arrAt w cfg8.N = V16 m c (Pipeline.arrRef spec8 w) :=
  (W16_arr m c w).symm
theorem hrest8 (c : Dev nD) : ∀ b, b ∉ Finset.univ.image (Pipeline.arrRef spec8) → V16 m c b = V15 m c b :=
  fun b hb => W16_of_ne m c b fun w e => hb (Finset.mem_image.mpr ⟨w, Finset.mem_univ _, e⟩)

abbrev W17 : Dev nD → Valuation τ sig (Elt F) := fun c => StableHlo.after hostOps9 (W16 m c)
abbrev V17 : (c : Dev nD) → (b : Ref sig .tc) → Buf (Elt F) ((c : Thread nD τ).loc b) := fun c b => W17 m c b
theorem W17_of (c : Dev nD) (r : Ref sig .tc) (h : r ∉ hostOps9_W) : W17 m c r = W16 m c r :=
  StableHlo.after_of_writes_sub hostOps9 _ hostOps9_writes h

def W18 (c : Dev nD) : Valuation τ sig (Elt F) :=
  Pipeline.withArrays spec9 c (W17 m c) fun w => (dat9 (V17 m) c).arrAt w cfg9.N
theorem W18_arr (c : Dev nD) (w : Fin cfg9.W) :
    W18 m c (Proc.devRef .tc (Pipeline.arrRef spec9 w)) = (dat9 (V17 m) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m c (Proc.devRef .tc b) = W17 m c (Proc.devRef .tc b) := by
  unfold W18; exact Pipeline.withArrays_of_ne spec9 c _ _ b hb
abbrev V18 : (c : Dev nD) → (b : Ref sig .tc) → Buf (Elt F) ((c : Thread nD τ).loc b) := fun c b => W18 m c b
theorem hF9 (c : Dev nD) (w : Fin cfg9.W) : (dat9 (V17 m) c).arrAt w cfg9.N = V18 m c (Pipeline.arrRef spec9 w) :=
  (W18_arr m c w).symm
theorem hrest9 (c : Dev nD) : ∀ b, b ∉ Finset.univ.image (Pipeline.arrRef spec9) → V18 m c b = V17 m c b :=
  fun b hb => W18_of_ne m c b fun w e => hb (Finset.mem_image.mpr ⟨w, Finset.mem_univ _, e⟩)

-- a region leaves an array that is none of its outputs as it found it
theorem W4_keep (c : Dev nD) (b : Ref sig .tc) (h : ∀ w, Pipeline.arrRef spec0 w = b → (cfg0.win w).isOut = false) :
    W4 m c (Proc.devRef .tc b) = W3 m c (Proc.devRef .tc b) :=
  (em (∃ w, Pipeline.arrRef spec0 w = b)).elim
    (fun ⟨w, e⟩ => e ▸ (W4_arr m c w).trans (((dat0 (V3 m) c).arrAt_in w (h w e) _).trans (A_eq0 (V3 m) c w)))
    fun hb => W4_of_ne m c b fun w e => hb ⟨w, e⟩
theorem W6_keep (c : Dev nD) (b : Ref sig .tc) (h : ∀ w, Pipeline.arrRef spec1 w = b → (cfg1.win w).isOut = false) :
    W6 m c (Proc.devRef .tc b) = W5 m c (Proc.devRef .tc b) :=
  (em (∃ w, Pipeline.arrRef spec1 w = b)).elim
    (fun ⟨w, e⟩ => e ▸ (W6_arr m c w).trans (((dat1 (V5 m) c).arrAt_in w (h w e) _).trans (A_eq1 (V5 m) c w)))
    fun hb => W6_of_ne m c b fun w e => hb ⟨w, e⟩
theorem W7_keep (c : Dev nD) (b : Ref sig .tc) (h : ∀ w, Pipeline.arrRef spec2 w = b → (cfg2.win w).isOut = false) :
    W7 m c (Proc.devRef .tc b) = W6 m c (Proc.devRef .tc b) :=
  (em (∃ w, Pipeline.arrRef spec2 w = b)).elim
    (fun ⟨w, e⟩ => e ▸ (W7_arr m c w).trans (((dat2 (V6 m) c).arrAt_in w (h w e) _).trans (A_eq2 (V6 m) c w)))
    fun hb => W7_of_ne m c b fun w e => hb ⟨w, e⟩
theorem W9_keep (c : Dev nD) (b : Ref sig .tc) (h : ∀ w, Pipeline.arrRef spec3 w = b → (cfg3.win w).isOut = false) :
    W9 m c (Proc.devRef .tc b) = W8 m c (Proc.devRef .tc b) :=
  (em (∃ w, Pipeline.arrRef spec3 w = b)).elim
    (fun ⟨w, e⟩ => e ▸ (W9_arr m c w).trans (((dat3 (V8 m) c).arrAt_in w (h w e) _).trans (A_eq3 (V8 m) c w)))
    fun hb => W9_of_ne m c b fun w e => hb ⟨w, e⟩
theorem W10_keep (c : Dev nD) (b : Ref sig .tc) (h : ∀ w, Pipeline.arrRef spec4 w = b → (cfg4.win w).isOut = false) :
    W10 m c (Proc.devRef .tc b) = W9 m c (Proc.devRef .tc b) :=
  (em (∃ w, Pipeline.arrRef spec4 w = b)).elim
    (fun ⟨w, e⟩ => e ▸ (W10_arr m c w).trans (((dat4 (V9 m) c).arrAt_in w (h w e) _).trans (A_eq4 (V9 m) c w)))
    fun hb => W10_of_ne m c b fun w e => hb ⟨w, e⟩
theorem W12_keep (c : Dev nD) (b : Ref sig .tc) (h : ∀ w, Pipeline.arrRef spec5 w = b → (cfg5.win w).isOut = false) :
    W12 m c (Proc.devRef .tc b) = W11 m c (Proc.devRef .tc b) :=
  (em (∃ w, Pipeline.arrRef spec5 w = b)).elim
    (fun ⟨w, e⟩ => e ▸ (W12_arr m c w).trans (((dat5 (V11 m) c).arrAt_in w (h w e) _).trans (A_eq5 (V11 m) c w)))
    fun hb => W12_of_ne m c b fun w e => hb ⟨w, e⟩
theorem W13_keep (c : Dev nD) (b : Ref sig .tc) (h : ∀ w, Pipeline.arrRef spec6 w = b → (cfg6.win w).isOut = false) :
    W13 m c (Proc.devRef .tc b) = W12 m c (Proc.devRef .tc b) :=
  (em (∃ w, Pipeline.arrRef spec6 w = b)).elim
    (fun ⟨w, e⟩ => e ▸ (W13_arr m c w).trans (((dat6 (V12 m) c).arrAt_in w (h w e) _).trans (A_eq6 (V12 m) c w)))
    fun hb => W13_of_ne m c b fun w e => hb ⟨w, e⟩
theorem W15_keep (c : Dev nD) (b : Ref sig .tc) (h : ∀ w, Pipeline.arrRef spec7 w = b → (cfg7.win w).isOut = false) :
    W15 m c (Proc.devRef .tc b) = W14 m c (Proc.devRef .tc b) :=
  (em (∃ w, Pipeline.arrRef spec7 w = b)).elim
    (fun ⟨w, e⟩ => e ▸ (W15_arr m c w).trans (((dat7 (V14 m) c).arrAt_in w (h w e) _).trans (A_eq7 (V14 m) c w)))
    fun hb => W15_of_ne m c b fun w e => hb ⟨w, e⟩
theorem W16_keep (c : Dev nD) (b : Ref sig .tc) (h : ∀ w, Pipeline.arrRef spec8 w = b → (cfg8.win w).isOut = false) :
    W16 m c (Proc.devRef .tc b) = W15 m c (Proc.devRef .tc b) :=
  (em (∃ w, Pipeline.arrRef spec8 w = b)).elim
    (fun ⟨w, e⟩ => e ▸ (W16_arr m c w).trans (((dat8 (V15 m) c).arrAt_in w (h w e) _).trans (A_eq8 (V15 m) c w)))
    fun hb => W16_of_ne m c b fun w e => hb ⟨w, e⟩
theorem W18_keep (c : Dev nD) (b : Ref sig .tc) (h : ∀ w, Pipeline.arrRef spec9 w = b → (cfg9.win w).isOut = false) :
    W18 m c (Proc.devRef .tc b) = W17 m c (Proc.devRef .tc b) :=
  (em (∃ w, Pipeline.arrRef spec9 w = b)).elim
    (fun ⟨w, e⟩ => e ▸ (W18_arr m c w).trans (((dat9 (V17 m) c).arrAt_in w (h w e) _).trans (A_eq9 (V17 m) c w)))
    fun hb => W18_of_ne m c b fun w e => hb ⟨w, e⟩

/-- No host stretch writes `b` and no region writes it back. -/
def Kept (b : Ref sig .tc) : Prop :=
  b ∉ hostOps0_W ∧ b ∉ hostOps0_1_W ∧ b ∉ hostOps0_2_W ∧ b ∉ hostOps1_W ∧ b ∉ hostOps3_W ∧ b ∉ hostOps5_W
    ∧ b ∉ hostOps7_W ∧ b ∉ hostOps9_W
    ∧ (∀ w, Pipeline.arrRef spec0 w = b → (cfg0.win w).isOut = false)
    ∧ (∀ w, Pipeline.arrRef spec1 w = b → (cfg1.win w).isOut = false)
    ∧ (∀ w, Pipeline.arrRef spec2 w = b → (cfg2.win w).isOut = false)
    ∧ (∀ w, Pipeline.arrRef spec3 w = b → (cfg3.win w).isOut = false)
    ∧ (∀ w, Pipeline.arrRef spec4 w = b → (cfg4.win w).isOut = false)
    ∧ (∀ w, Pipeline.arrRef spec5 w = b → (cfg5.win w).isOut = false)
    ∧ (∀ w, Pipeline.arrRef spec6 w = b → (cfg6.win w).isOut = false)
    ∧ (∀ w, Pipeline.arrRef spec7 w = b → (cfg7.win w).isOut = false)
    ∧ (∀ w, Pipeline.arrRef spec8 w = b → (cfg8.win w).isOut = false)
    ∧ (∀ w, Pipeline.arrRef spec9 w = b → (cfg9.win w).isOut = false)

instance (b : Ref sig .tc) : Decidable (Kept b) := by unfold Kept; infer_instance

theorem W18_kept (c : Dev nD) (b : Ref sig .tc) (h : Kept b) :
    W18 m c (Proc.devRef .tc b) = m ((c : Thread nD τ).loc b) := by
  obtain ⟨h0, h1, h2, h3, h4, h5, h6, h7, r0, r1, r2, r3, r4, r5, r6, r7, r8, r9⟩ := h
  exact (W18_keep m c b r9).trans <| (W17_of m c b h7).trans <| (W16_keep m c b r8).trans <| (W15_keep m c b r7).trans <|
    (W14_of m c b h6).trans <| (W13_keep m c b r6).trans <| (W12_keep m c b r5).trans <| (W11_of m c b h5).trans <|
    (W10_keep m c b r4).trans <| (W9_keep m c b r3).trans <| (W8_of m c b h4).trans <| (W7_keep m c b r2).trans <|
    (W6_keep m c b r1).trans <| (W5_of m c b h3).trans <| (W4_keep m c b r0).trans <| (W3_of m c b h2).trans <|
    (W2_of m c b h1).trans <| (W1_of m c b h0).trans rfl

abbrev adm : (p : Fin 10) → (pcfgs (F := F) p).Adm := fun p => (cfgs p).toPCfg_adm

def pdats : (p : Fin 10) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
  | ⟨4, _⟩ => fun c => dat4 (V9 m) c
  | ⟨5, _⟩ => fun c => dat5 (V11 m) c
  | ⟨6, _⟩ => fun c => dat6 (V12 m) c
  | ⟨7, _⟩ => fun c => dat7 (V14 m) c
  | ⟨8, _⟩ => fun c => dat8 (V15 m) c
  | ⟨9, _⟩ => fun c => dat9 (V17 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m c) ∗ ∃ r, prngReg c r)

section Reg

variable (p : Fin 10) (ln : Pipeline.LaunchFacts (nD := nD) (τ := τ) cfgs p)
  (Vi Vo : (c : Dev nD) → (b : Ref sig .tc) → Buf (Elt F) ((c : Thread nD τ).loc b))
  (Wi Wo : Dev nD → Valuation τ sig (Elt F)) (hWi : ∀ c, Vi c = fun (b : Ref sig .tc) => Wi c b) (hWo : ∀ c, Vo c = fun (b : Ref sig .tc) => Wo c b)
  (hb : ∀ c, Pipeline.BodyObligationLoose (pdats m p c) defs₀ 𝒱₀ () Set.univ)
  (howed : ∀ c t, (pdats m p c).owed t = 0)
  (hq : ∀ c w, (pdats m p c).q w = fullShare) (hrec : ∀ c, (pdats m p c).recorded 0 = Set.univ)
  (hA : ∀ c w, (pdats m p c).A w = Vi c (Pipeline.arrRef (cfgs p).spec w))
  (hin : ∀ c, Pipeline.ΦA (cfgs p).spec c ⊢ (pdats m p c).Φ 0)
  (hout : ∀ c, (pdats m p c).Φ (Fin.last (cfgs p).N) ⊢ Pipeline.ΦA (cfgs p).spec c)
  (hF : ∀ c w, (pdats m p c).arrAt w (cfgs p).N = Vo c (Pipeline.arrRef (cfgs p).spec w))
  (hrest : ∀ c, ∀ b, b ∉ Finset.univ.image (Pipeline.arrRef (cfgs p).spec) → Vo c b = Vi c b)

set_option backward.isDefEq.respectTransparency.types false in
def mkReg : Pipeline.RegionSeg (pcfgs (F := F)) adm (pdats m) () defs₀ 𝒱₀ L lv p where
  win := ln.win.to₀
  block_pos := ln.block_pos
  stage_whole := ln.stage_whole
  K := PEmpty
  osem k := k.elim
  ho := Pipeline.OwnSemFacts.none _
  hbody := hb
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (Vi c)
  hentry c := by
    rw [Pipeline.ownSems0_none]
    have hsplit := Pipeline.arrays_of_unscopedBufs (p := p) (pcfgs (F := F)) adm (pdats m) ln.win ln.arr_whole c
      ((pdats m p c).share_full (hq c)) (Vi c) (hA c)
    rw [hWi c, Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    rw [hWi c]; iexact Hrest
  hin c := by
    refine (?_ : (_ : sProp 𝕄) ⊢ Pipeline.ΦA (cfgs p).spec c).trans (hin c)
    unfold Pipeline.ΦA
    iintro ⟨Hp, -, Hr⟩
    isplitl [Hr]; · iexact Hr
    iexact Hp
  hout c := by
    rw [Pipeline.ownSems0_none]
    refine (hout c).trans (?_ : Pipeline.ΦA (cfgs p).spec c ⊢ (_ : sProp 𝕄))
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      ln.win ln.arr_whole c (pdats m) ((pdats m p c).share_full (hq c))
      (Vi c) (Vo c) ((pdats m p c).arrAt · (cfgs p).N) (hF c) (hrest c)
    rw [hWo c, Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Reg

set_option backward.isDefEq.respectTransparency.types false in
def reg0 : Pipeline.RegionSeg (pcfgs (F := F)) adm (pdats m) () defs₀ 𝒱₀ L lv 0 :=
  mkReg m 0 launch0 (V3 m) (V4 m) (W3 m) (W4 m) (fun _ => rfl) (fun _ => rfl)
    (fun c => (body_obligation0 (V3 m) c).loose) (fun _ _ => rfl) (fun _ _ => rfl) (fun _ => rfl) (fun _ _ => rfl)
    (fun _ => .rfl) (fun _ => .rfl) (hF0 m) (hrest0 m)

set_option backward.isDefEq.respectTransparency.types false in
def reg1 : Pipeline.RegionSeg (pcfgs (F := F)) adm (pdats m) () defs₀ 𝒱₀ L lv 1 :=
  mkReg m 1 launch1 (V5 m) (V6 m) (W5 m) (W6 m) (fun _ => rfl) (fun _ => rfl)
    (fun c => (body_obligation1 (V5 m) c).loose) (fun _ _ => rfl) (fun _ _ => rfl) (fun _ => rfl) (fun _ _ => rfl)
    (fun _ => .rfl) (fun _ => .rfl) (hF1 m) (hrest1 m)

set_option backward.isDefEq.respectTransparency.types false in
def reg2 : Pipeline.RegionSeg (pcfgs (F := F)) adm (pdats m) () defs₀ 𝒱₀ L lv 2 :=
  mkReg m 2 launch2 (V6 m) (V7 m) (W6 m) (W7 m) (fun _ => rfl) (fun _ => rfl)
    (fun c => (body_obligation2 (V6 m) c).loose) (fun _ _ => rfl) (fun _ _ => rfl) (fun _ => rfl) (fun _ _ => rfl)
    (hin2 (V6 m)) (hout2 (V6 m)) (hF2 m) (hrest2 m)

set_option backward.isDefEq.respectTransparency.types false in
def reg3 : Pipeline.RegionSeg (pcfgs (F := F)) adm (pdats m) () defs₀ 𝒱₀ L lv 3 :=
  mkReg m 3 launch3 (V8 m) (V9 m) (W8 m) (W9 m) (fun _ => rfl) (fun _ => rfl)
    (fun c => (body_obligation3 (V8 m) c).loose) (fun _ _ => rfl) (fun _ _ => rfl) (fun _ => rfl) (fun _ _ => rfl)
    (fun _ => .rfl) (fun _ => .rfl) (hF3 m) (hrest3 m)

set_option backward.isDefEq.respectTransparency.types false in
def reg4 : Pipeline.RegionSeg (pcfgs (F := F)) adm (pdats m) () defs₀ 𝒱₀ L lv 4 :=
  mkReg m 4 launch4 (V9 m) (V10 m) (W9 m) (W10 m) (fun _ => rfl) (fun _ => rfl)
    (fun c => (body_obligation4 (V9 m) c).loose) (fun _ _ => rfl) (fun _ _ => rfl) (fun _ => rfl) (fun _ _ => rfl)
    (fun _ => .rfl) (fun _ => .rfl) (hF4 m) (hrest4 m)

set_option backward.isDefEq.respectTransparency.types false in
def reg5 : Pipeline.RegionSeg (pcfgs (F := F)) adm (pdats m) () defs₀ 𝒱₀ L lv 5 :=
  mkReg m 5 launch5 (V11 m) (V12 m) (W11 m) (W12 m) (fun _ => rfl) (fun _ => rfl)
    (fun c => (body_obligation5 (V11 m) c).loose) (fun _ _ => rfl) (fun _ _ => rfl) (fun _ => rfl) (fun _ _ => rfl)
    (fun _ => .rfl) (fun _ => .rfl) (hF5 m) (hrest5 m)

set_option backward.isDefEq.respectTransparency.types false in
def reg6 : Pipeline.RegionSeg (pcfgs (F := F)) adm (pdats m) () defs₀ 𝒱₀ L lv 6 :=
  mkReg m 6 launch6 (V12 m) (V13 m) (W12 m) (W13 m) (fun _ => rfl) (fun _ => rfl)
    (fun c => (body_obligation6 (V12 m) c).loose) (fun _ _ => rfl) (fun _ _ => rfl) (fun _ => rfl) (fun _ _ => rfl)
    (hin6 (V12 m)) (hout6 (V12 m)) (hF6 m) (hrest6 m)

set_option backward.isDefEq.respectTransparency.types false in
def reg7 : Pipeline.RegionSeg (pcfgs (F := F)) adm (pdats m) () defs₀ 𝒱₀ L lv 7 :=
  mkReg m 7 launch7 (V14 m) (V15 m) (W14 m) (W15 m) (fun _ => rfl) (fun _ => rfl)
    (fun c => (body_obligation7 (V14 m) c).loose) (fun _ _ => rfl) (fun _ _ => rfl) (fun _ => rfl) (fun _ _ => rfl)
    (fun _ => .rfl) (fun _ => .rfl) (hF7 m) (hrest7 m)

set_option backward.isDefEq.respectTransparency.types false in
def reg8 : Pipeline.RegionSeg (pcfgs (F := F)) adm (pdats m) () defs₀ 𝒱₀ L lv 8 :=
  mkReg m 8 launch8 (V15 m) (V16 m) (W15 m) (W16 m) (fun _ => rfl) (fun _ => rfl)
    (fun c => (body_obligation8 (V15 m) c).loose) (fun _ _ => rfl) (fun _ _ => rfl) (fun _ => rfl) (fun _ _ => rfl)
    (fun _ => .rfl) (fun _ => .rfl) (hF8 m) (hrest8 m)

set_option backward.isDefEq.respectTransparency.types false in

def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V17 m) c).loose
  hwaits := Pipeline.hwaits_of_owed_zero _ _ _ _ L lv 9 fun _ _ => rfl
  pre c := iprop(StableHlo.held (c : Thread nD τ) (Pipeline.ucRefs τ sig) (W17 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (V17 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (V17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (V17 m c) (V18 m c) ((pdats m 9 c).arrAt · cfg9.N) (hF9 m c) (hrest9 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .region (reg4 m),
    .host (hseg hostOps5 hostOps5_sub hostOps5_fresh (W10 m)),
    .region (reg5 m),
    .region (reg6 m),
    .host (hseg hostOps7 hostOps7_sub hostOps7_fresh (W13 m)),
    .region (reg7 m),
    .region (reg8 m),
    .host (hseg hostOps9 hostOps9_sub hostOps9_fresh (W16 m)),
    .region (reg9 m) ]
theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h c => h c)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W18_kept m c main_arg0 (by decide)),
    (h c _ (mem_uc main_arg1 (by decide))).trans (W18_kept m c main_arg1 (by decide)),
    (h c _ (mem_uc main_arg2 (by decide))).trans (W18_kept m c main_arg2 (by decide)),
    (h c _ (mem_uc main_arg3 (by decide))).trans (W18_kept m c main_arg3 (by decide)),
    (h c _ (mem_uc main_arg4 (by decide))).trans (W18_kept m c main_arg4 (by decide)),
    (h c _ (mem_uc main_arg5 (by decide))).trans (W18_kept m c main_arg5 (by decide)),
    (h c _ (mem_uc main_arg6 (by decide))).trans (W18_kept m c main_arg6 (by decide)),
    (h c _ (mem_uc main_arg7 (by decide))).trans (W18_kept m c main_arg7 (by decide)),
    (h c _ (mem_uc main_arg8 (by decide))).trans (W18_kept m c main_arg8 (by decide)),
    (h c _ (mem_uc main_arg9 (by decide))).trans (W18_kept m c main_arg9 (by decide)),
    (h c _ (mem_uc main_arg10 (by decide))).trans (W18_kept m c main_arg10 (by decide)),
    (h c _ (mem_uc main_arg11 (by decide))).trans (W18_kept m c main_arg11 (by decide)),
    (h c _ (mem_uc main_arg12 (by decide))).trans (W18_kept m c main_arg12 (by decide)),
    (h c _ (mem_uc main_arg13 (by decide))).trans (W18_kept m c main_arg13 (by decide))⟩) (run_all m ρ)

end Cert.Kernel.GenP

end
-- ==== Proof.KI.Region0.lean ====
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_1 : Rect S64x128 := Rect.unit (s := S64x128) ![0, 0] S64x128.size inb_S64x128_S64x128_0_0
abbrev r0_2 : Rect S10000x128 := Rect.unit (s := S10000x128) ![0, 0] S10000x128.size inb_S10000x128_S10000x128_0_0

def out0_2 (x0 : Vec F S10000x64 .f32) (x1 : Vec F S64x128 .f32) : Vec F S10000x128 .f32 :=
  View.canon [⟨r0_2, k0_pay1 (View.ld x0 r0_0) (View.ld x1 r0_1)⟩]

theorem sound_kernel0 (c : Dev nD) (i : grid0.Coords) (a0 : Memref sig .tc .vmem S10000x64 .f32) (h0 : a0.IsWhole) (a1 : Memref sig .tc .vmem S64x128 .f32) (h1 : a1.IsWhole) (a2 : Memref sig .tc .vmem S10000x128 .f32) (h2 : a2.IsWhole)
    (x0 : Vec F S10000x64 .f32) (x1 : Vec F S64x128 .f32) {D0 D1 D2 : Type} (b : D2 → Vec F S10000x128 .f32) (P Q : sProp 𝕄) :
    iprop(P ∗ Q ∗ (∃ _ : D0, owns c.tc a0 fullShare x0) ∗ (∃ _ : D1, owns c.tc a1 fullShare x1) ∗ ∃ d, owns c.tc a2 fullShare (b d))
      ⊢ wp frame (wpE (defs₀ (F := F)) Variants.none c none) Set.univ (cc0__matmul_kernel i a0 h0 a1 h1 a2 h2) fun _ =>
        iprop(P ∗ Q ∗ owns c.tc a0 fullShare x0 ∗ owns c.tc a1 fullShare x1 ∗ owns c.tc a2 fullShare (out0_2 x0 x1)) := by
  simp only [cc0__matmul_kernel_eq_skeleton]; unfold cc0__matmul_kernel_skel owns
  iintro ⟨HP, HQ, ⟨%_, %f0, %e0, H0⟩, ⟨%_, %f1, %e1, H1⟩, %d, %f2, -, H2⟩
  subst e0 e1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

variable (c : Dev nD) (t : Fin cfg0.N)

theorem after0_0 : (dat0 V c).after 0 t = iblk0 V c 0 t := by dsimp only [dat0]
theorem after0_1 : (dat0 V c).after 1 t = iblk0 V c 1 t := by dsimp only [dat0]
theorem after0_2 : (dat0 V c).after 2 t = out0_2 (iblk0 V c 0 t) (iblk0 V c 1 t) := by dsimp only [dat0]

theorem blockOf0 (w : Fin cfg0.W) : (dat0 V c).blockOf w t = iblk0 V c w t := by
  unfold Dat.blockOf iblk0; rw [A_eq0]

theorem before0_0 (d) : (dat0 V c).before 0 t d = iblk0 V c 0 t :=
  ((dat0 V c).before_in_eq_fetched 0 rfl (fun _ => rfl) (fun _ _ _ => rfl) (fun t => (after0_0 V c t).trans (blockOf0 V c t 0).symm) t d).trans (blockOf0 V c t 0)
theorem before0_1 (d) : (dat0 V c).before 1 t d = iblk0 V c 1 t :=
  ((dat0 V c).before_in_eq_fetched 1 rfl (fun _ => rfl) (fun _ _ _ => rfl) (fun t => (after0_1 V c t).trans (blockOf0 V c t 1).symm) t d).trans (blockOf0 V c t 1)

theorem body_obligation0 : BodyObligation (dat0 (F := F) V c) (defs₀ (F := F)) Variants.none () Set.univ := fun t => by
  rw [bigSep_W0, bigSep_W0]
  simp only [before0_0, before0_1, after0_0, after0_1, after0_2]
  show _ ⊢ wp _ _ _ (bodyAt0 t) _
  exact sound_kernel0 c _ _ _ _ _ _ _ _ _ _ _ _

end Cert.KernelIdeal.GenP
-- ==== Proof.KI.Region1.lean ====
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x128 := Rect.unit (s := S10000x128) ![0, 0] S10000x128.size inb_S10000x128_S10000x128_0_0
abbrev r1_1 : Rect S10000x1 := Rect.unit (s := S10000x1) ![0, 0] S10000x1.size inb_S10000x1_S10000x1_0_0
abbrev r1_2 : Rect S1x128 := Rect.unit (s := S1x128) ![0, 0] S1x128.size inb_S1x128_S1x128_0_0

def out1_4 (x0 : Vec F S10000x128 .f32) (x1 : Vec F S10000x128 .f32) (x2 : Vec F S10000x1 .f32) (x3 : Vec F S1x128 .f32) : Vec F S10000x128 .f32 :=
  View.canon [⟨r1_0, k1_pay1 (View.ld x0 r1_0) (View.ld x1 r1_0) (View.ld x2 r1_1) (View.ld x3 r1_2)⟩]

theorem sound_kernel1 (c : Dev nD) (i : grid1.Coords) (a0 : Memref sig .tc .vmem S10000x128 .f32) (h0 : a0.IsWhole) (a1 : Memref sig .tc .vmem S10000x128 .f32) (h1 : a1.IsWhole) (a2 : Memref sig .tc .vmem S10000x1 .f32) (h2 : a2.IsWhole) (a3 : Memref sig .tc .vmem S1x128 .f32) (h3 : a3.IsWhole) (a4 : Memref sig .tc .vmem S10000x128 .f32) (h4 : a4.IsWhole)
    (x0 : Vec F S10000x128 .f32) (x1 : Vec F S10000x128 .f32) (x2 : Vec F S10000x1 .f32) (x3 : Vec F S1x128 .f32) {D0 D1 D2 D3 D4 : Type} (b : D4 → Vec F S10000x128 .f32) (P Q : sProp 𝕄) :
    iprop(P ∗ Q ∗ (∃ _ : D0, owns c.tc a0 fullShare x0) ∗ (∃ _ : D1, owns c.tc a1 fullShare x1) ∗ (∃ _ : D2, owns c.tc a2 fullShare x2) ∗ (∃ _ : D3, owns c.tc a3 fullShare x3) ∗ ∃ d, owns c.tc a4 fullShare (b d))
      ⊢ wp frame (wpE (defs₀ (F := F)) Variants.none c none) Set.univ (cc1__finalize_kernel i a0 h0 a1 h1 a2 h2 a3 h3 a4 h4) fun _ =>
        iprop(P ∗ Q ∗ owns c.tc a0 fullShare x0 ∗ owns c.tc a1 fullShare x1 ∗ owns c.tc a2 fullShare x2 ∗ owns c.tc a3 fullShare x3 ∗ owns c.tc a4 fullShare (out1_4 x0 x1 x2 x3)) := by
  simp only [cc1__finalize_kernel_eq_skeleton]; unfold cc1__finalize_kernel_skel owns
  iintro ⟨HP, HQ, ⟨%_, %f0, %e0, H0⟩, ⟨%_, %f1, %e1, H1⟩, ⟨%_, %f2, %e2, H2⟩, ⟨%_, %f3, %e3, H3⟩, %d, %f4, -, H4⟩
  subst e0 e1 e2 e3
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S10000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

variable (c : Dev nD) (t : Fin cfg1.N)

theorem after1_0 : (dat1 V c).after 0 t = iblk1 V c 0 t := by dsimp only [dat1]
theorem after1_1 : (dat1 V c).after 1 t = iblk1 V c 1 t := by dsimp only [dat1]
theorem after1_2 : (dat1 V c).after 2 t = iblk1 V c 2 t := by dsimp only [dat1]
theorem after1_3 : (dat1 V c).after 3 t = iblk1 V c 3 t := by dsimp only [dat1]
theorem after1_4 : (dat1 V c).after 4 t = out1_4 (iblk1 V c 0 t) (iblk1 V c 1 t) (iblk1 V c 2 t) (iblk1 V c 3 t) := by dsimp only [dat1]

theorem blockOf1 (w : Fin cfg1.W) : (dat1 V c).blockOf w t = iblk1 V c w t := by
  unfold Dat.blockOf iblk1; rw [A_eq1]

theorem before1_0 (d) : (dat1 V c).before 0 t d = iblk1 V c 0 t :=
  ((dat1 V c).before_in_eq_fetched 0 rfl (fun _ => rfl) (fun _ _ _ => rfl) (fun t => (after1_0 V c t).trans (blockOf1 V c t 0).symm) t d).trans (blockOf1 V c t 0)
theorem before1_1 (d) : (dat1 V c).before 1 t d = iblk1 V c 1 t :=
  ((dat1 V c).before_in_eq_fetched 1 rfl (fun _ => rfl) (fun _ _ _ => rfl) (fun t => (after1_1 V c t).trans (blockOf1 V c t 1).symm) t d).trans (blockOf1 V c t 1)
theorem before1_2 (d) : (dat1 V c).before 2 t d = iblk1 V c 2 t :=
  ((dat1 V c).before_in_eq_fetched 2 rfl (fun _ => rfl) (fun _ _ _ => rfl) (fun t => (after1_2 V c t).trans (blockOf1 V c t 2).symm) t d).trans (blockOf1 V c t 2)
theorem before1_3 (d) : (dat1 V c).before 3 t d = iblk1 V c 3 t :=
  ((dat1 V c).before_in_eq_fetched 3 rfl (fun _ => rfl) (fun _ _ _ => rfl) (fun t => (after1_3 V c t).trans (blockOf1 V c t 3).symm) t d).trans (blockOf1 V c t 3)

theorem body_obligation1 : BodyObligation (dat1 (F := F) V c) (defs₀ (F := F)) Variants.none () Set.univ := fun t => by
  rw [bigSep_W1, bigSep_W1]
  simp only [before1_0, before1_1, before1_2, before1_3, after1_0, after1_1, after1_2, after1_3, after1_4]
  show _ ⊢ wp _ _ _ (bodyAt1 t) _
  exact sound_kernel1 c _ _ _ _ _ _ _ _ _ _ _ _ _ _ _ _ _ _

end Cert.KernelIdeal.GenP
-- ==== Proof.KI.Region2Runs.lean ====
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev VO2_1 : View sig .tc .vmem S1x128 .f32 := (Memref.whole cc2_stg1_0 : Memref sig .tc .vmem S1x128 .f32).view

abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)

abbrev scM2_0 : Memref sig .tc .vmem S1x128 .f32 := Memref.whole cc2_scratch0
abbrev scM2_1 : Memref sig .tc .vmem S1x128 .f32 := Memref.whole cc2_scratch1

abbrev R2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ R2 c) ∗ (∃ r, prngReg c r)) := by
  unfold Pipeline.ΦA; rw [scopedRest2_split]; simp only [scM2_0, scM2_1, owns_whole]; try rfl

abbrev Run2 (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (x0 : Vec F S10000x128 .f32) (S0 S1 : sProp 𝕄) :=
  Σ' (L1 L2 LS0 : List (View.Piece (Elt F) S1x128 .f32)), { LS1 : List (View.Piece (Elt F) S1x128 .f32) //
    ∀ (E : Set ℕ) (K : PUnit → sProp 𝕄),
      iprop(owns (c : Thread nD τ) arg1 fullShare x0 ∗ (∃ d, owns (c : Thread nD τ) arg2 fullShare d) ∗ (∃ d, owns (c : Thread nD τ) arg3 fullShare d) ∗ S0 ∗ S1
          ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
        ⊢ wp frame (wpE (defs₀ (F := F)) Variants.none c none) E (cc2__bn_stats_kernel i arg1 harg1 arg2 harg2 arg3 harg3 arg4 harg4 arg5 harg5) K }

end Cert.KernelIdeal.GenP

end
-- ==== Proof.KI.Region2RunA.lean ====
import proofs.«141437_j50036368998564_1_alg».proof.Proof.KI.Region2Runs

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond2_0 i) (x0 : Vec F S10000x128 .f32) :
    Run2 c i arg1 harg1 arg2 harg2 arg3 harg3 arg4 harg4 arg5 harg5 x0 (iprop(∃ d, owns (c : Thread nD τ) arg4 fullShare d)) (iprop(∃ d, owns (c : Thread nD τ) arg5 fullShare d)) := by
  refine ⟨?_, ?_, ?_, ?_, fun E K => ?run⟩
  case run =>
    simp only [cc2__bn_stats_kernel_eq_skeleton]; unfold cc2__bn_stats_kernel_skel
    unfold owns
    iintro ⟨⟨%f0, %hf0, H0⟩, ⟨%d1, %f1, -, H1⟩, ⟨%d2, %f2, -, H2⟩, ⟨%ds0, %fs0, -, HS0⟩, ⟨%ds1, %fs1, -, HS1⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.GenP

end
-- ==== Proof.KI.Region2RunB.lean ====
import proofs.«141437_j50036368998564_1_alg».proof.Proof.KI.Region2RunA

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_B (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (x0 : Vec F S10000x128 .f32) (xs0 xs1 : Vec F S1x128 .f32) :
    Run2 c i arg1 harg1 arg2 harg2 arg3 harg3 arg4 harg4 arg5 harg5 x0 (owns (c : Thread nD τ) arg4 fullShare xs0) (owns (c : Thread nD τ) arg5 fullShare xs1) := by
  refine ⟨?_, ?_, ?_, ?_, fun E K => ?run⟩
  case run =>
    simp only [cc2__bn_stats_kernel_eq_skeleton]; unfold cc2__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.GenP

end
-- ==== Proof.KI.Region2.lean ====
import proofs.«141437_j50036368998564_1_alg».proof.Proof.KI.Region2RunB
import Idealize.ShloMosaic.Lib.Pipeline.Value

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def rb2 (L : List (View.Piece (Elt F) S1x128 .f32)) : Vec F S1x128 .f32 := VO2_1.read (Elt F) (VO2_1.writes (Elt F) VO2_1.junk L)

section
variable {P : List (View.Piece (Elt F) S1x128 .f32) → List (View.Piece (Elt F) S1x128 .f32) → List (View.Piece (Elt F) S1x128 .f32) → List (View.Piece (Elt F) S1x128 .f32) → Prop} (r : Σ' (L1 L2 LS0 : List (View.Piece (Elt F) S1x128 .f32)), { LS1 // P L1 L2 LS0 LS1 })

def rows2 : Vec F S1x128 .f32 × Vec F S1x128 .f32 × Vec F S1x128 .f32 × Vec F S1x128 .f32 := (rb2 r.1, rb2 r.2.1, rb2 r.2.2.1, rb2 r.2.2.2.1)

abbrev Tiled2 : Prop := View.Piece.tiledL r.1 S1x128.size = true ∧ View.Piece.tiledL r.2.1 S1x128.size = true
  ∧ View.Piece.tiledL r.2.2.1 S1x128.size = true ∧ View.Piece.tiledL r.2.2.2.1 S1x128.size = true
end

abbrev runA2 (c : Dev nD) (t : Fin cfg2.N) (h0 : t.val = 0) :=
  kernelRun2_A c (grid2.coords t) (ms2_0 t) (hs2_0 t) (ms2_1 t) (hs2_1 t) (ms2_2 t) (hs2_2 t) scM2_0 (Memref.isWhole_whole _) scM2_1 (Memref.isWhole_whole _) ((hcond2_0 t).mpr h0) (iblk2 V c 0 t)
abbrev runB2 (c : Dev nD) (t : Fin cfg2.N) (h0 : ¬t.val = 0) (xs0 xs1 : Vec F S1x128 .f32) :=
  kernelRun2_B c (grid2.coords t) (ms2_0 t) (hs2_0 t) (ms2_1 t) (hs2_1 t) (ms2_2 t) (hs2_2 t) scM2_0 (Memref.isWhole_whole _) scM2_1 (Memref.isWhole_whole _) (fun h => h0 ((hcond2_0 t).mp h)) (iblk2 V c 0 t) xs0 xs1

theorem tiled2_A (c : Dev nD) (t : Fin cfg2.N) (h0 : t.val = 0) : Tiled2 (runA2 V c t h0) :=
  ⟨by sl_kernel_rfl, by sl_kernel_rfl, by sl_kernel_rfl, by sl_kernel_rfl⟩

theorem tiled2_B (c : Dev nD) (t : Fin cfg2.N) (h0 : ¬t.val = 0) (xs0 xs1 : Vec F S1x128 .f32) : Tiled2 (runB2 V c t h0 xs0 xs1) :=
  ⟨by sl_kernel_rfl, by sl_kernel_rfl, by sl_kernel_rfl, by sl_kernel_rfl⟩

def outsAt2 (c : Dev nD) : (n : ℕ) → n < cfg2.N → Vec F S1x128 .f32 × Vec F S1x128 .f32 × Vec F S1x128 .f32 × Vec F S1x128 .f32
  | 0, hn => rows2 (runA2 V c ⟨0, hn⟩ rfl)
  | n + 1, hn => rows2 (runB2 V c ⟨n + 1, hn⟩ (Nat.succ_ne_zero n) (outsAt2 c n (Nat.lt_of_succ_lt hn)).2.2.1 (outsAt2 c n (Nat.lt_of_succ_lt hn)).2.2.2)

def PhiG2 (c : Dev nD) (S0 S1 : sProp 𝕄) : sProp 𝕄 := iprop(iprop(iprop(S0 ∗ S1) ∗ R2 c) ∗ (∃ r, prngReg c r))

def PhiS2 (c : Dev nD) : (n : ℕ) → n ≤ cfg2.N → sProp 𝕄
  | 0, _ => Pipeline.ΦA spec2 c
  | n + 1, hn => PhiG2 c (owns (c : Thread nD τ) scM2_0 fullShare (outsAt2 V c n hn).2.2.1) (owns (c : Thread nD τ) scM2_1 fullShare (outsAt2 V c n hn).2.2.2)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
    | ⟨2, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]
theorem after2_2 (c : Dev nD) (t : Fin cfg2.N) : (dat2 V c).after 2 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d

theorem run_body2 (c : Dev nD) (t : Fin cfg2.N) {x0 : Vec F S10000x128 .f32} {S0 S1 : sProp 𝕄}
    (r : Run2 c (grid2.coords t) (ms2_0 t) (hs2_0 t) (ms2_1 t) (hs2_1 t) (ms2_2 t) (hs2_2 t) scM2_0 (Memref.isWhole_whole _) scM2_1 (Memref.isWhole_whole _) x0 S0 S1) (h : Tiled2 r) (P : sProp 𝕄) {D0 D1 D2 : Type} (b1 : D1 → Vec F S1x128 .f32) (b2 : D2 → Vec F S1x128 .f32) :
    iprop(PhiG2 c S0 S1 ∗ P ∗ (∃ _ : D0, owns (c : Thread nD τ) (ms2_0 t) fullShare x0) ∗ (∃ d, owns (c : Thread nD τ) (ms2_1 t) fullShare (b1 d)) ∗ (∃ d, owns (c : Thread nD τ) (ms2_2 t) fullShare (b2 d)))
      ⊢ wp frame (wpE (defs₀ (F := F)) Variants.none c none) Set.univ (bodyAt2 t)
          (fun _ => iprop(PhiG2 c (owns (c : Thread nD τ) scM2_0 fullShare (rows2 r).2.2.1) (owns (c : Thread nD τ) scM2_1 fullShare (rows2 r).2.2.2) ∗ P
            ∗ owns (c : Thread nD τ) (ms2_0 t) fullShare x0 ∗ owns (c : Thread nD τ) (ms2_1 t) fullShare (rows2 r).1 ∗ owns (c : Thread nD τ) (ms2_2 t) fullShare (rows2 r).2.1)) := by
  unfold PhiG2 rows2 rb2 bodyAt2; dsimp only
  iintro ⟨⟨⟨⟨HS0, HS1⟩, HR⟩, Hg⟩, Ho, ⟨%d0, H0⟩, ⟨%d1, H1⟩, ⟨%d2, H2⟩⟩
  iapply (r.2.2.2.2 Set.univ _)
  isplitl [H0]; · iexact H0
  isplitl [H1]; · iexists _; iexact H1
  isplitl [H2]; · iexists _; iexact H2
  isplitl [HS0]; · iexact HS0
  isplitl [HS1]; · iexact HS1
  iintro ⟨H0, ⟨%e1, H1⟩, ⟨%e2, H2⟩, ⟨%es0, HS0⟩, ⟨%es1, HS1⟩⟩
  isplitl [HS0 HS1 HR Hg]
  · isplitl [HS0 HS1 HR]
    · isplitl [HS0 HS1]
      · isplitl [HS0]
        · ihave H' := (Ring.owns_of_writes_tiledL VO2_1 S1x128.size) $$ HS0; iapply H'; ipureintro; exact h.2.2.1
        · ihave H' := (Ring.owns_of_writes_tiledL VO2_1 S1x128.size) $$ HS1; iapply H'; ipureintro; exact h.2.2.2
      · iexact HR
    · iexact Hg
  isplitl [Ho]; · iexact Ho
  isplitl [H0]; · iexact H0
  isplitl [H1]
  · ihave H' := (Ring.owns_of_writes_tiledL VO2_1 S1x128.size) $$ H1; iapply H'; ipureintro; exact h.1
  · ihave H' := (Ring.owns_of_writes_tiledL VO2_1 S1x128.size) $$ H2; iapply H'; ipureintro; exact h.2.1

theorem sound_body2 (c : Dev nD) (t : Fin cfg2.N) :
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))
      ⊢ wp frame (wpE (defs₀ (F := F)) Variants.none c none) Set.univ (bodyAt2 t) (fun _ =>
        iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))) := by
  simp only [before2_0]
  rw [show (dat2 V c).owesAt () t.succ = (dat2 V c).owesAt () t.castSucc from rfl, after2_0, after2_1, after2_2]
  obtain ⟨n, hn⟩ := t
  cases n with
  | zero =>
    rw [show (dat2 V c).Φ (Fin.castSucc ⟨0, hn⟩) = Pipeline.ΦA spec2 c from rfl, PhiA2_eq]
    exact run_body2 c ⟨0, hn⟩ _ (tiled2_A V c _ rfl) _ _ _
  | succ n => exact run_body2 c ⟨n + 1, hn⟩ _ (tiled2_B V c _ (Nat.succ_ne_zero n) _ _) _ _ _

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 :=
  (Idealize.SL.BI.Entails.refl _ : Pipeline.ΦA spec2 c ⊢ Pipeline.ΦA spec2 c)

theorem hout2 (c : Dev nD) : (dat2 V c).Φ (Fin.last cfg2.N) ⊢ Pipeline.ΦA spec2 c := by
  show PhiG2 c _ _ ⊢ _
  rw [PhiA2_eq]; unfold PhiG2
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.KernelIdeal.GenP

end
-- ==== Proof.KI.Region3.lean ====
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x128 := Rect.unit (s := S10000x128) ![0, 0] S10000x128.size inb_S10000x128_S10000x128_0_0
abbrev r3_1 : Rect S1x128 := Rect.unit (s := S1x128) ![0, 0] S1x128.size inb_S1x128_S1x128_0_0

def out3_5 (x0 : Vec F S10000x128 .f32) (x1 : Vec F S1x128 .f32) (x2 : Vec F S1x128 .f32) (x3 : Vec F S1x128 .f32) (x4 : Vec F S1x128 .f32) : Vec F S10000x128 .f32 :=
  View.canon [⟨r3_0, k3_pay1 (View.ld x0 r3_0) (View.ld x1 r3_1) (View.ld x2 r3_1) (View.ld x3 r3_1) (View.ld x4 r3_1)⟩]

theorem sound_kernel3 (c : Dev nD) (i : grid3.Coords) (a0 : Memref sig .tc .vmem S10000x128 .f32) (h0 : a0.IsWhole) (a1 : Memref sig .tc .vmem S1x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S10000x128 .f32) (h5 : a5.IsWhole)
    (x0 : Vec F S10000x128 .f32) (x1 : Vec F S1x128 .f32) (x2 : Vec F S1x128 .f32) (x3 : Vec F S1x128 .f32) (x4 : Vec F S1x128 .f32) {D0 D1 D2 D3 D4 D5 : Type} (b : D5 → Vec F S10000x128 .f32) (P Q : sProp 𝕄) :
    iprop(P ∗ Q ∗ (∃ _ : D0, owns c.tc a0 fullShare x0) ∗ (∃ _ : D1, owns c.tc a1 fullShare x1) ∗ (∃ _ : D2, owns c.tc a2 fullShare x2) ∗ (∃ _ : D3, owns c.tc a3 fullShare x3) ∗ (∃ _ : D4, owns c.tc a4 fullShare x4) ∗ ∃ d, owns c.tc a5 fullShare (b d))
      ⊢ wp frame (wpE (defs₀ (F := F)) Variants.none c none) Set.univ (cc3__bn_norm_kernel i a0 h0 a1 h1 a2 h2 a3 h3 a4 h4 a5 h5) fun _ =>
        iprop(P ∗ Q ∗ owns c.tc a0 fullShare x0 ∗ owns c.tc a1 fullShare x1 ∗ owns c.tc a2 fullShare x2 ∗ owns c.tc a3 fullShare x3 ∗ owns c.tc a4 fullShare x4 ∗ owns c.tc a5 fullShare (out3_5 x0 x1 x2 x3 x4)) := by
  simp only [cc3__bn_norm_kernel_eq_skeleton]; unfold cc3__bn_norm_kernel_skel owns
  iintro ⟨HP, HQ, ⟨%_, %f0, %e0, H0⟩, ⟨%_, %f1, %e1, H1⟩, ⟨%_, %f2, %e2, H2⟩, ⟨%_, %f3, %e3, H3⟩, ⟨%_, %f4, %e4, H4⟩, %d, %f5, -, H5⟩
  subst e0 e1 e2 e3 e4
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

variable (c : Dev nD) (t : Fin cfg3.N)

theorem after3_0 : (dat3 V c).after 0 t = iblk3 V c 0 t := by dsimp only [dat3]
theorem after3_1 : (dat3 V c).after 1 t = iblk3 V c 1 t := by dsimp only [dat3]
theorem after3_2 : (dat3 V c).after 2 t = iblk3 V c 2 t := by dsimp only [dat3]
theorem after3_3 : (dat3 V c).after 3 t = iblk3 V c 3 t := by dsimp only [dat3]
theorem after3_4 : (dat3 V c).after 4 t = iblk3 V c 4 t := by dsimp only [dat3]
theorem after3_5 : (dat3 V c).after 5 t = out3_5 (iblk3 V c 0 t) (iblk3 V c 1 t) (iblk3 V c 2 t) (iblk3 V c 3 t) (iblk3 V c 4 t) := by dsimp only [dat3]

theorem blockOf3 (w : Fin cfg3.W) : (dat3 V c).blockOf w t = iblk3 V c w t := by
  unfold Dat.blockOf iblk3; rw [A_eq3]

theorem before3_0 (d) : (dat3 V c).before 0 t d = iblk3 V c 0 t :=
  ((dat3 V c).before_in_eq_fetched 0 rfl (fun _ => rfl) (fun _ _ _ => rfl) (fun t => (after3_0 V c t).trans (blockOf3 V c t 0).symm) t d).trans (blockOf3 V c t 0)
theorem before3_1 (d) : (dat3 V c).before 1 t d = iblk3 V c 1 t :=
  ((dat3 V c).before_in_eq_fetched 1 rfl (fun _ => rfl) (fun _ _ _ => rfl) (fun t => (after3_1 V c t).trans (blockOf3 V c t 1).symm) t d).trans (blockOf3 V c t 1)
theorem before3_2 (d) : (dat3 V c).before 2 t d = iblk3 V c 2 t :=
  ((dat3 V c).before_in_eq_fetched 2 rfl (fun _ => rfl) (fun _ _ _ => rfl) (fun t => (after3_2 V c t).trans (blockOf3 V c t 2).symm) t d).trans (blockOf3 V c t 2)
theorem before3_3 (d) : (dat3 V c).before 3 t d = iblk3 V c 3 t :=
  ((dat3 V c).before_in_eq_fetched 3 rfl (fun _ => rfl) (fun _ _ _ => rfl) (fun t => (after3_3 V c t).trans (blockOf3 V c t 3).symm) t d).trans (blockOf3 V c t 3)
theorem before3_4 (d) : (dat3 V c).before 4 t d = iblk3 V c 4 t :=
  ((dat3 V c).before_in_eq_fetched 4 rfl (fun _ => rfl) (fun _ _ _ => rfl) (fun t => (after3_4 V c t).trans (blockOf3 V c t 4).symm) t d).trans (blockOf3 V c t 4)

theorem body_obligation3 : BodyObligation (dat3 (F := F) V c) (defs₀ (F := F)) Variants.none () Set.univ := fun t => by
  rw [bigSep_W3, bigSep_W3]
  simp only [before3_0, before3_1, before3_2, before3_3, before3_4, after3_0, after3_1, after3_2, after3_3, after3_4, after3_5]
  show _ ⊢ wp _ _ _ (bodyAt3 t) _
  exact sound_kernel3 c _ _ _ _ _ _ _ _ _ _ _ _ _ _ _ _ _ _ _ _ _

end Cert.KernelIdeal.GenP
-- ==== Proof.KI.Region4.lean ====
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S10000x128 := Rect.unit (s := S10000x128) ![0, 0] S10000x128.size inb_S10000x128_S10000x128_0_0
abbrev r4_1 : Rect S128x128 := Rect.unit (s := S128x128) ![0, 0] S128x128.size inb_S128x128_S128x128_0_0
abbrev r4_2 : Rect S10000x128 := Rect.unit (s := S10000x128) ![0, 0] S10000x128.size inb_S10000x128_S10000x128_0_0

def out4_2 (x0 : Vec F S10000x128 .f32) (x1 : Vec F S128x128 .f32) : Vec F S10000x128 .f32 :=
  View.canon [⟨r4_2, k4_pay1 (View.ld x0 r4_0) (View.ld x1 r4_1)⟩]

theorem sound_kernel4 (c : Dev nD) (i : grid4.Coords) (a0 : Memref sig .tc .vmem S10000x128 .f32) (h0 : a0.IsWhole) (a1 : Memref sig .tc .vmem S128x128 .f32) (h1 : a1.IsWhole) (a2 : Memref sig .tc .vmem S10000x128 .f32) (h2 : a2.IsWhole)
    (x0 : Vec F S10000x128 .f32) (x1 : Vec F S128x128 .f32) {D0 D1 D2 : Type} (b : D2 → Vec F S10000x128 .f32) (P Q : sProp 𝕄) :
    iprop(P ∗ Q ∗ (∃ _ : D0, owns c.tc a0 fullShare x0) ∗ (∃ _ : D1, owns c.tc a1 fullShare x1) ∗ ∃ d, owns c.tc a2 fullShare (b d))
      ⊢ wp frame (wpE (defs₀ (F := F)) Variants.none c none) Set.univ (cc4__matmul_kernel i a0 h0 a1 h1 a2 h2) fun _ =>
        iprop(P ∗ Q ∗ owns c.tc a0 fullShare x0 ∗ owns c.tc a1 fullShare x1 ∗ owns c.tc a2 fullShare (out4_2 x0 x1)) := by
  simp only [cc4__matmul_kernel_eq_skeleton]; unfold cc4__matmul_kernel_skel owns
  iintro ⟨HP, HQ, ⟨%_, %f0, %e0, H0⟩, ⟨%_, %f1, %e1, H1⟩, %d, %f2, -, H2⟩
  subst e0 e1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

variable (c : Dev nD) (t : Fin cfg4.N)

theorem after4_0 : (dat4 V c).after 0 t = iblk4 V c 0 t := by dsimp only [dat4]
theorem after4_1 : (dat4 V c).after 1 t = iblk4 V c 1 t := by dsimp only [dat4]
theorem after4_2 : (dat4 V c).after 2 t = out4_2 (iblk4 V c 0 t) (iblk4 V c 1 t) := by dsimp only [dat4]

theorem blockOf4 (w : Fin cfg4.W) : (dat4 V c).blockOf w t = iblk4 V c w t := by
  unfold Dat.blockOf iblk4; rw [A_eq4]

theorem before4_0 (d) : (dat4 V c).before 0 t d = iblk4 V c 0 t :=
  ((dat4 V c).before_in_eq_fetched 0 rfl (fun _ => rfl) (fun _ _ _ => rfl) (fun t => (after4_0 V c t).trans (blockOf4 V c t 0).symm) t d).trans (blockOf4 V c t 0)
theorem before4_1 (d) : (dat4 V c).before 1 t d = iblk4 V c 1 t :=
  ((dat4 V c).before_in_eq_fetched 1 rfl (fun _ => rfl) (fun _ _ _ => rfl) (fun t => (after4_1 V c t).trans (blockOf4 V c t 1).symm) t d).trans (blockOf4 V c t 1)

theorem body_obligation4 : BodyObligation (dat4 (F := F) V c) (defs₀ (F := F)) Variants.none () Set.univ := fun t => by
  rw [bigSep_W4, bigSep_W4]
  simp only [before4_0, before4_1, after4_0, after4_1, after4_2]
  show _ ⊢ wp _ _ _ (bodyAt4 t) _
  exact sound_kernel4 c _ _ _ _ _ _ _ _ _ _ _ _

end Cert.KernelIdeal.GenP
-- ==== Proof.KI.Region5.lean ====
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x128 := Rect.unit (s := S10000x128) ![0, 0] S10000x128.size inb_S10000x128_S10000x128_0_0
abbrev r5_1 : Rect S10000x1 := Rect.unit (s := S10000x1) ![0, 0] S10000x1.size inb_S10000x1_S10000x1_0_0
abbrev r5_2 : Rect S1x128 := Rect.unit (s := S1x128) ![0, 0] S1x128.size inb_S1x128_S1x128_0_0

def out5_4 (x0 : Vec F S10000x128 .f32) (x1 : Vec F S10000x128 .f32) (x2 : Vec F S10000x1 .f32) (x3 : Vec F S1x128 .f32) : Vec F S10000x128 .f32 :=
  View.canon [⟨r5_0, k5_pay1 (View.ld x0 r5_0) (View.ld x1 r5_0) (View.ld x2 r5_1) (View.ld x3 r5_2)⟩]

theorem sound_kernel5 (c : Dev nD) (i : grid5.Coords) (a0 : Memref sig .tc .vmem S10000x128 .f32) (h0 : a0.IsWhole) (a1 : Memref sig .tc .vmem S10000x128 .f32) (h1 : a1.IsWhole) (a2 : Memref sig .tc .vmem S10000x1 .f32) (h2 : a2.IsWhole) (a3 : Memref sig .tc .vmem S1x128 .f32) (h3 : a3.IsWhole) (a4 : Memref sig .tc .vmem S10000x128 .f32) (h4 : a4.IsWhole)
    (x0 : Vec F S10000x128 .f32) (x1 : Vec F S10000x128 .f32) (x2 : Vec F S10000x1 .f32) (x3 : Vec F S1x128 .f32) {D0 D1 D2 D3 D4 : Type} (b : D4 → Vec F S10000x128 .f32) (P Q : sProp 𝕄) :
    iprop(P ∗ Q ∗ (∃ _ : D0, owns c.tc a0 fullShare x0) ∗ (∃ _ : D1, owns c.tc a1 fullShare x1) ∗ (∃ _ : D2, owns c.tc a2 fullShare x2) ∗ (∃ _ : D3, owns c.tc a3 fullShare x3) ∗ ∃ d, owns c.tc a4 fullShare (b d))
      ⊢ wp frame (wpE (defs₀ (F := F)) Variants.none c none) Set.univ (cc5__finalize_kernel i a0 h0 a1 h1 a2 h2 a3 h3 a4 h4) fun _ =>
        iprop(P ∗ Q ∗ owns c.tc a0 fullShare x0 ∗ owns c.tc a1 fullShare x1 ∗ owns c.tc a2 fullShare x2 ∗ owns c.tc a3 fullShare x3 ∗ owns c.tc a4 fullShare (out5_4 x0 x1 x2 x3)) := by
  simp only [cc5__finalize_kernel_eq_skeleton]; unfold cc5__finalize_kernel_skel owns
  iintro ⟨HP, HQ, ⟨%_, %f0, %e0, H0⟩, ⟨%_, %f1, %e1, H1⟩, ⟨%_, %f2, %e2, H2⟩, ⟨%_, %f3, %e3, H3⟩, %d, %f4, -, H4⟩
  subst e0 e1 e2 e3
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S10000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

variable (c : Dev nD) (t : Fin cfg5.N)

theorem after5_0 : (dat5 V c).after 0 t = iblk5 V c 0 t := by dsimp only [dat5]
theorem after5_1 : (dat5 V c).after 1 t = iblk5 V c 1 t := by dsimp only [dat5]
theorem after5_2 : (dat5 V c).after 2 t = iblk5 V c 2 t := by dsimp only [dat5]
theorem after5_3 : (dat5 V c).after 3 t = iblk5 V c 3 t := by dsimp only [dat5]
theorem after5_4 : (dat5 V c).after 4 t = out5_4 (iblk5 V c 0 t) (iblk5 V c 1 t) (iblk5 V c 2 t) (iblk5 V c 3 t) := by dsimp only [dat5]

theorem blockOf5 (w : Fin cfg5.W) : (dat5 V c).blockOf w t = iblk5 V c w t := by
  unfold Dat.blockOf iblk5; rw [A_eq5]

theorem before5_0 (d) : (dat5 V c).before 0 t d = iblk5 V c 0 t :=
  ((dat5 V c).before_in_eq_fetched 0 rfl (fun _ => rfl) (fun _ _ _ => rfl) (fun t => (after5_0 V c t).trans (blockOf5 V c t 0).symm) t d).trans (blockOf5 V c t 0)
theorem before5_1 (d) : (dat5 V c).before 1 t d = iblk5 V c 1 t :=
  ((dat5 V c).before_in_eq_fetched 1 rfl (fun _ => rfl) (fun _ _ _ => rfl) (fun t => (after5_1 V c t).trans (blockOf5 V c t 1).symm) t d).trans (blockOf5 V c t 1)
theorem before5_2 (d) : (dat5 V c).before 2 t d = iblk5 V c 2 t :=
  ((dat5 V c).before_in_eq_fetched 2 rfl (fun _ => rfl) (fun _ _ _ => rfl) (fun t => (after5_2 V c t).trans (blockOf5 V c t 2).symm) t d).trans (blockOf5 V c t 2)
theorem before5_3 (d) : (dat5 V c).before 3 t d = iblk5 V c 3 t :=
  ((dat5 V c).before_in_eq_fetched 3 rfl (fun _ => rfl) (fun _ _ _ => rfl) (fun t => (after5_3 V c t).trans (blockOf5 V c t 3).symm) t d).trans (blockOf5 V c t 3)

theorem body_obligation5 : BodyObligation (dat5 (F := F) V c) (defs₀ (F := F)) Variants.none () Set.univ := fun t => by
  rw [bigSep_W5, bigSep_W5]
  simp only [before5_0, before5_1, before5_2, before5_3, after5_0, after5_1, after5_2, after5_3, after5_4]
  show _ ⊢ wp _ _ _ (bodyAt5 t) _
  exact sound_kernel5 c _ _ _ _ _ _ _ _ _ _ _ _ _ _ _ _ _ _

end Cert.KernelIdeal.GenP
-- ==== Proof.KI.Region6Runs.lean ====
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev VO6_1 : View sig .tc .vmem S1x128 .f32 := (Memref.whole cc6_stg1_0 : Memref sig .tc .vmem S1x128 .f32).view

abbrev ms6_0 (t : Fin cfg6.N) : Memref sig .tc .vmem S10000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)

abbrev scM6_0 : Memref sig .tc .vmem S1x128 .f32 := Memref.whole cc6_scratch0
abbrev scM6_1 : Memref sig .tc .vmem S1x128 .f32 := Memref.whole cc6_scratch1

abbrev R6 (c : Dev nD) : sProp 𝕄 :=
  Pipeline.scopedRestBut (Ix := Unit) (Name := ℕ) (U := UR sig nD τ) (Lvl := ℕ) (Val := Elt F) spec6 c [cc6_scratch0, cc6_scratch1]

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ R6 c) ∗ (∃ r, prngReg c r)) := by
  unfold Pipeline.ΦA; rw [scopedRest6_split]; simp only [scM6_0, scM6_1, owns_whole]; try rfl

abbrev Run6 (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (x0 : Vec F S10000x128 .f32) (S0 S1 : sProp 𝕄) :=
  Σ' (L1 L2 LS0 : List (View.Piece (Elt F) S1x128 .f32)), { LS1 : List (View.Piece (Elt F) S1x128 .f32) //
    ∀ (E : Set ℕ) (K : PUnit → sProp 𝕄),
      iprop(owns (c : Thread nD τ) arg1 fullShare x0 ∗ (∃ d, owns (c : Thread nD τ) arg2 fullShare d) ∗ (∃ d, owns (c : Thread nD τ) arg3 fullShare d) ∗ S0 ∗ S1
          ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
        ⊢ wp frame (wpE (defs₀ (F := F)) Variants.none c none) E (cc6__bn_stats_kernel i arg1 harg1 arg2 harg2 arg3 harg3 arg4 harg4 arg5 harg5) K }

end Cert.KernelIdeal.GenP

end
-- ==== Proof.KI.Region6RunA.lean ====
import proofs.«141437_j50036368998564_1_alg».proof.Proof.KI.Region6Runs

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun6_A (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : cond6_0 i) (x0 : Vec F S10000x128 .f32) :
    Run6 c i arg1 harg1 arg2 harg2 arg3 harg3 arg4 harg4 arg5 harg5 x0 (iprop(∃ d, owns (c : Thread nD τ) arg4 fullShare d)) (iprop(∃ d, owns (c : Thread nD τ) arg5 fullShare d)) := by
  refine ⟨?_, ?_, ?_, ?_, fun E K => ?run⟩
  case run =>
    simp only [cc6__bn_stats_kernel_eq_skeleton]; unfold cc6__bn_stats_kernel_skel
    unfold owns
    iintro ⟨⟨%f0, %hf0, H0⟩, ⟨%d1, %f1, -, H1⟩, ⟨%d2, %f2, -, H2⟩, ⟨%ds0, %fs0, -, HS0⟩, ⟨%ds1, %fs1, -, HS1⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.GenP

end
-- ==== Proof.KI.Region6RunB.lean ====
import proofs.«141437_j50036368998564_1_alg».proof.Proof.KI.Region6RunA

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun6_B (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (hc0 : ¬cond6_0 i) (x0 : Vec F S10000x128 .f32) (xs0 xs1 : Vec F S1x128 .f32) :
    Run6 c i arg1 harg1 arg2 harg2 arg3 harg3 arg4 harg4 arg5 harg5 x0 (owns (c : Thread nD τ) arg4 fullShare xs0) (owns (c : Thread nD τ) arg5 fullShare xs1) := by
  refine ⟨?_, ?_, ?_, ?_, fun E K => ?run⟩
  case run =>
    simp only [cc6__bn_stats_kernel_eq_skeleton]; unfold cc6__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0; obtain rfl := harg4.eq_unread hfs0; obtain rfl := harg5.eq_unread hfs1
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.GenP

end
-- ==== Proof.KI.Region6.lean ====
import proofs.«141437_j50036368998564_1_alg».proof.Proof.KI.Region6RunB
import Idealize.ShloMosaic.Lib.Pipeline.Value

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def rb6 (L : List (View.Piece (Elt F) S1x128 .f32)) : Vec F S1x128 .f32 := VO6_1.read (Elt F) (VO6_1.writes (Elt F) VO6_1.junk L)

section
variable {P : List (View.Piece (Elt F) S1x128 .f32) → List (View.Piece (Elt F) S1x128 .f32) → List (View.Piece (Elt F) S1x128 .f32) → List (View.Piece (Elt F) S1x128 .f32) → Prop} (r : Σ' (L1 L2 LS0 : List (View.Piece (Elt F) S1x128 .f32)), { LS1 // P L1 L2 LS0 LS1 })

def rows6 : Vec F S1x128 .f32 × Vec F S1x128 .f32 × Vec F S1x128 .f32 × Vec F S1x128 .f32 := (rb6 r.1, rb6 r.2.1, rb6 r.2.2.1, rb6 r.2.2.2.1)

abbrev Tiled6 : Prop := View.Piece.tiledL r.1 S1x128.size = true ∧ View.Piece.tiledL r.2.1 S1x128.size = true
  ∧ View.Piece.tiledL r.2.2.1 S1x128.size = true ∧ View.Piece.tiledL r.2.2.2.1 S1x128.size = true
end

abbrev runA6 (c : Dev nD) (t : Fin cfg6.N) (h0 : t.val = 0) :=
  kernelRun6_A c (grid6.coords t) (ms6_0 t) (hs6_0 t) (ms6_1 t) (hs6_1 t) (ms6_2 t) (hs6_2 t) scM6_0 (Memref.isWhole_whole _) scM6_1 (Memref.isWhole_whole _) ((hcond6_0 t).mpr h0) (iblk6 V c 0 t)
abbrev runB6 (c : Dev nD) (t : Fin cfg6.N) (h0 : ¬t.val = 0) (xs0 xs1 : Vec F S1x128 .f32) :=
  kernelRun6_B c (grid6.coords t) (ms6_0 t) (hs6_0 t) (ms6_1 t) (hs6_1 t) (ms6_2 t) (hs6_2 t) scM6_0 (Memref.isWhole_whole _) scM6_1 (Memref.isWhole_whole _) (fun h => h0 ((hcond6_0 t).mp h)) (iblk6 V c 0 t) xs0 xs1

theorem tiled6_A (c : Dev nD) (t : Fin cfg6.N) (h0 : t.val = 0) : Tiled6 (runA6 V c t h0) :=
  ⟨by sl_kernel_rfl, by sl_kernel_rfl, by sl_kernel_rfl, by sl_kernel_rfl⟩

theorem tiled6_B (c : Dev nD) (t : Fin cfg6.N) (h0 : ¬t.val = 0) (xs0 xs1 : Vec F S1x128 .f32) : Tiled6 (runB6 V c t h0 xs0 xs1) :=
  ⟨by sl_kernel_rfl, by sl_kernel_rfl, by sl_kernel_rfl, by sl_kernel_rfl⟩

def outsAt6 (c : Dev nD) : (n : ℕ) → n < cfg6.N → Vec F S1x128 .f32 × Vec F S1x128 .f32 × Vec F S1x128 .f32 × Vec F S1x128 .f32
  | 0, hn => rows6 (runA6 V c ⟨0, hn⟩ rfl)
  | n + 1, hn => rows6 (runB6 V c ⟨n + 1, hn⟩ (Nat.succ_ne_zero n) (outsAt6 c n (Nat.lt_of_succ_lt hn)).2.2.1 (outsAt6 c n (Nat.lt_of_succ_lt hn)).2.2.2)

def PhiG6 (c : Dev nD) (S0 S1 : sProp 𝕄) : sProp 𝕄 := iprop(iprop(iprop(S0 ∗ S1) ∗ R6 c) ∗ (∃ r, prngReg c r))

def PhiS6 (c : Dev nD) : (n : ℕ) → n ≤ cfg6.N → sProp 𝕄
  | 0, _ => Pipeline.ΦA spec6 c
  | n + 1, hn => PhiG6 c (owns (c : Thread nD τ) scM6_0 fullShare (outsAt6 V c n hn).2.2.1) (owns (c : Thread nD τ) scM6_1 fullShare (outsAt6 V c n hn).2.2.2)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => (outsAt6 V c t.val t.isLt).1
    | ⟨2, _⟩ => (outsAt6 V c t.val t.isLt).2.1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = (outsAt6 V c t.val t.isLt).1 := by dsimp only [dat6]
theorem after6_2 (c : Dev nD) (t : Fin cfg6.N) : (dat6 V c).after 2 t = (outsAt6 V c t.val t.isLt).2.1 := by dsimp only [dat6]

theorem before6_0 (c : Dev nD) (t : Fin cfg6.N) (d) : (dat6 V c).before 0 t d = iblk6 V c 0 t :=
  before6_0_of V (dat6 V c) (A_eq6 V c 0) (after6_0 V c) t d

theorem run_body6 (c : Dev nD) (t : Fin cfg6.N) {x0 : Vec F S10000x128 .f32} {S0 S1 : sProp 𝕄}
    (r : Run6 c (grid6.coords t) (ms6_0 t) (hs6_0 t) (ms6_1 t) (hs6_1 t) (ms6_2 t) (hs6_2 t) scM6_0 (Memref.isWhole_whole _) scM6_1 (Memref.isWhole_whole _) x0 S0 S1) (h : Tiled6 r) (P : sProp 𝕄) {D0 D1 D2 : Type} (b1 : D1 → Vec F S1x128 .f32) (b2 : D2 → Vec F S1x128 .f32) :
    iprop(PhiG6 c S0 S1 ∗ P ∗ (∃ _ : D0, owns (c : Thread nD τ) (ms6_0 t) fullShare x0) ∗ (∃ d, owns (c : Thread nD τ) (ms6_1 t) fullShare (b1 d)) ∗ (∃ d, owns (c : Thread nD τ) (ms6_2 t) fullShare (b2 d)))
      ⊢ wp frame (wpE (defs₀ (F := F)) Variants.none c none) Set.univ (bodyAt6 t)
          (fun _ => iprop(PhiG6 c (owns (c : Thread nD τ) scM6_0 fullShare (rows6 r).2.2.1) (owns (c : Thread nD τ) scM6_1 fullShare (rows6 r).2.2.2) ∗ P
            ∗ owns (c : Thread nD τ) (ms6_0 t) fullShare x0 ∗ owns (c : Thread nD τ) (ms6_1 t) fullShare (rows6 r).1 ∗ owns (c : Thread nD τ) (ms6_2 t) fullShare (rows6 r).2.1)) := by
  unfold PhiG6 rows6 rb6 bodyAt6; dsimp only
  iintro ⟨⟨⟨⟨HS0, HS1⟩, HR⟩, Hg⟩, Ho, ⟨%d0, H0⟩, ⟨%d1, H1⟩, ⟨%d2, H2⟩⟩
  iapply (r.2.2.2.2 Set.univ _)
  isplitl [H0]; · iexact H0
  isplitl [H1]; · iexists _; iexact H1
  isplitl [H2]; · iexists _; iexact H2
  isplitl [HS0]; · iexact HS0
  isplitl [HS1]; · iexact HS1
  iintro ⟨H0, ⟨%e1, H1⟩, ⟨%e2, H2⟩, ⟨%es0, HS0⟩, ⟨%es1, HS1⟩⟩
  isplitl [HS0 HS1 HR Hg]
  · isplitl [HS0 HS1 HR]
    · isplitl [HS0 HS1]
      · isplitl [HS0]
        · ihave H' := (Ring.owns_of_writes_tiledL VO6_1 S1x128.size) $$ HS0; iapply H'; ipureintro; exact h.2.2.1
        · ihave H' := (Ring.owns_of_writes_tiledL VO6_1 S1x128.size) $$ HS1; iapply H'; ipureintro; exact h.2.2.2
      · iexact HR
    · iexact Hg
  isplitl [Ho]; · iexact Ho
  isplitl [H0]; · iexact H0
  isplitl [H1]
  · ihave H' := (Ring.owns_of_writes_tiledL VO6_1 S1x128.size) $$ H1; iapply H'; ipureintro; exact h.1
  · ihave H' := (Ring.owns_of_writes_tiledL VO6_1 S1x128.size) $$ H2; iapply H'; ipureintro; exact h.2.1

theorem sound_body6 (c : Dev nD) (t : Fin cfg6.N) :
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))
      ⊢ wp frame (wpE (defs₀ (F := F)) Variants.none c none) Set.univ (bodyAt6 t) (fun _ =>
        iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t))) := by
  simp only [before6_0]
  rw [show (dat6 V c).owesAt () t.succ = (dat6 V c).owesAt () t.castSucc from rfl, after6_0, after6_1, after6_2]
  obtain ⟨n, hn⟩ := t
  cases n with
  | zero =>
    rw [show (dat6 V c).Φ (Fin.castSucc ⟨0, hn⟩) = Pipeline.ΦA spec6 c from rfl, PhiA6_eq]
    exact run_body6 c ⟨0, hn⟩ _ (tiled6_A V c _ rfl) _ _ _
  | succ n => exact run_body6 c ⟨n + 1, hn⟩ _ (tiled6_B V c _ (Nat.succ_ne_zero n) _ _) _ _ _

theorem body_obligation6 (c : Dev nD) : BodyObligation (dat6 (F := F) V c) (defs₀ (F := F)) Variants.none () Set.univ := fun t => by
  rw [bigSep_W6, bigSep_W6]
  exact sound_body6 V c t

theorem hin6 (c : Dev nD) : Pipeline.ΦA spec6 c ⊢ (dat6 V c).Φ 0 :=
  (Idealize.SL.BI.Entails.refl _ : Pipeline.ΦA spec6 c ⊢ Pipeline.ΦA spec6 c)

theorem hout6 (c : Dev nD) : (dat6 V c).Φ (Fin.last cfg6.N) ⊢ Pipeline.ΦA spec6 c := by
  show PhiG6 c _ _ ⊢ _
  rw [PhiA6_eq]; unfold PhiG6
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.KernelIdeal.GenP

end
-- ==== Proof.KI.Region7.lean ====
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S10000x128 := Rect.unit (s := S10000x128) ![0, 0] S10000x128.size inb_S10000x128_S10000x128_0_0
abbrev r7_1 : Rect S1x128 := Rect.unit (s := S1x128) ![0, 0] S1x128.size inb_S1x128_S1x128_0_0

def out7_5 (x0 : Vec F S10000x128 .f32) (x1 : Vec F S1x128 .f32) (x2 : Vec F S1x128 .f32) (x3 : Vec F S1x128 .f32) (x4 : Vec F S1x128 .f32) : Vec F S10000x128 .f32 :=
  View.canon [⟨r7_0, k7_pay1 (View.ld x0 r7_0) (View.ld x1 r7_1) (View.ld x2 r7_1) (View.ld x3 r7_1) (View.ld x4 r7_1)⟩]

theorem sound_kernel7 (c : Dev nD) (i : grid7.Coords) (a0 : Memref sig .tc .vmem S10000x128 .f32) (h0 : a0.IsWhole) (a1 : Memref sig .tc .vmem S1x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S10000x128 .f32) (h5 : a5.IsWhole)
    (x0 : Vec F S10000x128 .f32) (x1 : Vec F S1x128 .f32) (x2 : Vec F S1x128 .f32) (x3 : Vec F S1x128 .f32) (x4 : Vec F S1x128 .f32) {D0 D1 D2 D3 D4 D5 : Type} (b : D5 → Vec F S10000x128 .f32) (P Q : sProp 𝕄) :
    iprop(P ∗ Q ∗ (∃ _ : D0, owns c.tc a0 fullShare x0) ∗ (∃ _ : D1, owns c.tc a1 fullShare x1) ∗ (∃ _ : D2, owns c.tc a2 fullShare x2) ∗ (∃ _ : D3, owns c.tc a3 fullShare x3) ∗ (∃ _ : D4, owns c.tc a4 fullShare x4) ∗ ∃ d, owns c.tc a5 fullShare (b d))
      ⊢ wp frame (wpE (defs₀ (F := F)) Variants.none c none) Set.univ (cc7__bn_norm_kernel i a0 h0 a1 h1 a2 h2 a3 h3 a4 h4 a5 h5) fun _ =>
        iprop(P ∗ Q ∗ owns c.tc a0 fullShare x0 ∗ owns c.tc a1 fullShare x1 ∗ owns c.tc a2 fullShare x2 ∗ owns c.tc a3 fullShare x3 ∗ owns c.tc a4 fullShare x4 ∗ owns c.tc a5 fullShare (out7_5 x0 x1 x2 x3 x4)) := by
  simp only [cc7__bn_norm_kernel_eq_skeleton]; unfold cc7__bn_norm_kernel_skel owns
  iintro ⟨HP, HQ, ⟨%_, %f0, %e0, H0⟩, ⟨%_, %f1, %e1, H1⟩, ⟨%_, %f2, %e2, H2⟩, ⟨%_, %f3, %e3, H3⟩, ⟨%_, %f4, %e4, H4⟩, %d, %f5, -, H5⟩
  subst e0 e1 e2 e3 e4
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S10000x128.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

theorem A_eq7 (c : Dev nD) (w : Fin cfg7.W) : (dat7 V c).A w = V c (Pipeline.arrRef spec7 w) := by
  dsimp only [dat7]

variable (c : Dev nD) (t : Fin cfg7.N)

theorem after7_0 : (dat7 V c).after 0 t = iblk7 V c 0 t := by dsimp only [dat7]
theorem after7_1 : (dat7 V c).after 1 t = iblk7 V c 1 t := by dsimp only [dat7]
theorem after7_2 : (dat7 V c).after 2 t = iblk7 V c 2 t := by dsimp only [dat7]
theorem after7_3 : (dat7 V c).after 3 t = iblk7 V c 3 t := by dsimp only [dat7]
theorem after7_4 : (dat7 V c).after 4 t = iblk7 V c 4 t := by dsimp only [dat7]
theorem after7_5 : (dat7 V c).after 5 t = out7_5 (iblk7 V c 0 t) (iblk7 V c 1 t) (iblk7 V c 2 t) (iblk7 V c 3 t) (iblk7 V c 4 t) := by dsimp only [dat7]

theorem blockOf7 (w : Fin cfg7.W) : (dat7 V c).blockOf w t = iblk7 V c w t := by
  unfold Dat.blockOf iblk7; rw [A_eq7]

theorem before7_0 (d) : (dat7 V c).before 0 t d = iblk7 V c 0 t :=
  ((dat7 V c).before_in_eq_fetched 0 rfl (fun _ => rfl) (fun _ _ _ => rfl) (fun t => (after7_0 V c t).trans (blockOf7 V c t 0).symm) t d).trans (blockOf7 V c t 0)
theorem before7_1 (d) : (dat7 V c).before 1 t d = iblk7 V c 1 t :=
  ((dat7 V c).before_in_eq_fetched 1 rfl (fun _ => rfl) (fun _ _ _ => rfl) (fun t => (after7_1 V c t).trans (blockOf7 V c t 1).symm) t d).trans (blockOf7 V c t 1)
theorem before7_2 (d) : (dat7 V c).before 2 t d = iblk7 V c 2 t :=
  ((dat7 V c).before_in_eq_fetched 2 rfl (fun _ => rfl) (fun _ _ _ => rfl) (fun t => (after7_2 V c t).trans (blockOf7 V c t 2).symm) t d).trans (blockOf7 V c t 2)
theorem before7_3 (d) : (dat7 V c).before 3 t d = iblk7 V c 3 t :=
  ((dat7 V c).before_in_eq_fetched 3 rfl (fun _ => rfl) (fun _ _ _ => rfl) (fun t => (after7_3 V c t).trans (blockOf7 V c t 3).symm) t d).trans (blockOf7 V c t 3)
theorem before7_4 (d) : (dat7 V c).before 4 t d = iblk7 V c 4 t :=
  ((dat7 V c).before_in_eq_fetched 4 rfl (fun _ => rfl) (fun _ _ _ => rfl) (fun t => (after7_4 V c t).trans (blockOf7 V c t 4).symm) t d).trans (blockOf7 V c t 4)

theorem body_obligation7 : BodyObligation (dat7 (F := F) V c) (defs₀ (F := F)) Variants.none () Set.univ := fun t => by
  rw [bigSep_W7, bigSep_W7]
  simp only [before7_0, before7_1, before7_2, before7_3, before7_4, after7_0, after7_1, after7_2, after7_3, after7_4, after7_5]
  show _ ⊢ wp _ _ _ (bodyAt7 t) _
  exact sound_kernel7 c _ _ _ _ _ _ _ _ _ _ _ _ _ _ _ _ _ _ _ _ _

end Cert.KernelIdeal.GenP
-- ==== Proof.KI.Region8.lean ====
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S10000x128 := Rect.unit (s := S10000x128) ![0, 0] S10000x128.size inb_S10000x128_S10000x128_0_0
abbrev r8_1 : Rect S128x64 := Rect.unit (s := S128x64) ![0, 0] S128x64.size inb_S128x64_S128x64_0_0
abbrev r8_2 : Rect S10000x64 := Rect.unit (s := S10000x64) ![0, 0] S10000x64.size inb_S10000x64_S10000x64_0_0

def out8_2 (x0 : Vec F S10000x128 .f32) (x1 : Vec F S128x64 .f32) : Vec F S10000x64 .f32 :=
  View.canon [⟨r8_2, k8_pay1 (View.ld x0 r8_0) (View.ld x1 r8_1)⟩]

theorem sound_kernel8 (c : Dev nD) (i : grid8.Coords) (a0 : Memref sig .tc .vmem S10000x128 .f32) (h0 : a0.IsWhole) (a1 : Memref sig .tc .vmem S128x64 .f32) (h1 : a1.IsWhole) (a2 : Memref sig .tc .vmem S10000x64 .f32) (h2 : a2.IsWhole)
    (x0 : Vec F S10000x128 .f32) (x1 : Vec F S128x64 .f32) {D0 D1 D2 : Type} (b : D2 → Vec F S10000x64 .f32) (P Q : sProp 𝕄) :
    iprop(P ∗ Q ∗ (∃ _ : D0, owns c.tc a0 fullShare x0) ∗ (∃ _ : D1, owns c.tc a1 fullShare x1) ∗ ∃ d, owns c.tc a2 fullShare (b d))
      ⊢ wp frame (wpE (defs₀ (F := F)) Variants.none c none) Set.univ (cc8__matmul_kernel i a0 h0 a1 h1 a2 h2) fun _ =>
        iprop(P ∗ Q ∗ owns c.tc a0 fullShare x0 ∗ owns c.tc a1 fullShare x1 ∗ owns c.tc a2 fullShare (out8_2 x0 x1)) := by
  simp only [cc8__matmul_kernel_eq_skeleton]; unfold cc8__matmul_kernel_skel owns
  iintro ⟨HP, HQ, ⟨%_, %f0, %e0, H0⟩, ⟨%_, %f1, %e1, H1⟩, %d, %f2, -, H2⟩
  subst e0 e1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S10000x64.size (by rfl))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]

variable (c : Dev nD) (t : Fin cfg8.N)

theorem after8_0 : (dat8 V c).after 0 t = iblk8 V c 0 t := by dsimp only [dat8]
theorem after8_1 : (dat8 V c).after 1 t = iblk8 V c 1 t := by dsimp only [dat8]
theorem after8_2 : (dat8 V c).after 2 t = out8_2 (iblk8 V c 0 t) (iblk8 V c 1 t) := by dsimp only [dat8]

theorem blockOf8 (w : Fin cfg8.W) : (dat8 V c).blockOf w t = iblk8 V c w t := by
  unfold Dat.blockOf iblk8; rw [A_eq8]

theorem before8_0 (d) : (dat8 V c).before 0 t d = iblk8 V c 0 t :=
  ((dat8 V c).before_in_eq_fetched 0 rfl (fun _ => rfl) (fun _ _ _ => rfl) (fun t => (after8_0 V c t).trans (blockOf8 V c t 0).symm) t d).trans (blockOf8 V c t 0)
theorem before8_1 (d) : (dat8 V c).before 1 t d = iblk8 V c 1 t :=
  ((dat8 V c).before_in_eq_fetched 1 rfl (fun _ => rfl) (fun _ _ _ => rfl) (fun t => (after8_1 V c t).trans (blockOf8 V c t 1).symm) t d).trans (blockOf8 V c t 1)

theorem body_obligation8 : BodyObligation (dat8 (F := F) V c) (defs₀ (F := F)) Variants.none () Set.univ := fun t => by
  rw [bigSep_W8, bigSep_W8]
  simp only [before8_0, before8_1, after8_0, after8_1, after8_2]
  show _ ⊢ wp _ _ _ (bodyAt8 t) _
  exact sound_kernel8 c _ _ _ _ _ _ _ _ _ _ _ _

end Cert.KernelIdeal.GenP
-- ==== Proof.KI.Region9.lean ====
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S10000x64 := Rect.unit (s := S10000x64) ![0, 0] S10000x64.size inb_S10000x64_S10000x64_0_0
abbrev r9_1 : Rect S10000x1 := Rect.unit (s := S10000x1) ![0, 0] S10000x1.size inb_S10000x1_S10000x1_0_0
abbrev r9_2 : Rect S1x64 := Rect.unit (s := S1x64) ![0, 0] S1x64.size inb_S1x64_S1x64_0_0

def out9_4 (x0 : Vec F S10000x64 .f32) (x1 : Vec F S10000x64 .f32) (x2 : Vec F S10000x1 .f32) (x3 : Vec F S1x64 .f32) : Vec F S10000x64 .f32 :=
  View.canon [⟨r9_0, k9_pay1 (View.ld x0 r9_0) (View.ld x1 r9_0) (View.ld x2 r9_1) (View.ld x3 r9_2)⟩]

theorem sound_kernel9 (c : Dev nD) (i : grid9.Coords) (a0 : Memref sig .tc .vmem S10000x64 .f32) (h0 : a0.IsWhole) (a1 : Memref sig .tc .vmem S10000x64 .f32) (h1 : a1.IsWhole) (a2 : Memref sig .tc .vmem S10000x1 .f32) (h2 : a2.IsWhole) (a3 : Memref sig .tc .vmem S1x64 .f32) (h3 : a3.IsWhole) (a4 : Memref sig .tc .vmem S10000x64 .f32) (h4 : a4.IsWhole)
    (x0 : Vec F S10000x64 .f32) (x1 : Vec F S10000x64 .f32) (x2 : Vec F S10000x1 .f32) (x3 : Vec F S1x64 .f32) {D0 D1 D2 D3 D4 : Type} (b : D4 → Vec F S10000x64 .f32) (P Q : sProp 𝕄) :
    iprop(P ∗ Q ∗ (∃ _ : D0, owns c.tc a0 fullShare x0) ∗ (∃ _ : D1, owns c.tc a1 fullShare x1) ∗ (∃ _ : D2, owns c.tc a2 fullShare x2) ∗ (∃ _ : D3, owns c.tc a3 fullShare x3) ∗ ∃ d, owns c.tc a4 fullShare (b d))
      ⊢ wp frame (wpE (defs₀ (F := F)) Variants.none c none) Set.univ (cc9__finalize_kernel i a0 h0 a1 h1 a2 h2 a3 h3 a4 h4) fun _ =>
        iprop(P ∗ Q ∗ owns c.tc a0 fullShare x0 ∗ owns c.tc a1 fullShare x1 ∗ owns c.tc a2 fullShare x2 ∗ owns c.tc a3 fullShare x3 ∗ owns c.tc a4 fullShare (out9_4 x0 x1 x2 x3)) := by
  simp only [cc9__finalize_kernel_eq_skeleton]; unfold cc9__finalize_kernel_skel owns
  iintro ⟨HP, HQ, ⟨%_, %f0, %e0, H0⟩, ⟨%_, %f1, %e1, H1⟩, ⟨%_, %f2, %e2, H2⟩, ⟨%_, %f3, %e3, H3⟩, %d, %f4, -, H4⟩
  subst e0 e1 e2 e3
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S10000x64.size (by rfl))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

variable (c : Dev nD) (t : Fin cfg9.N)

theorem after9_0 : (dat9 V c).after 0 t = iblk9 V c 0 t := by dsimp only [dat9]
theorem after9_1 : (dat9 V c).after 1 t = iblk9 V c 1 t := by dsimp only [dat9]
theorem after9_2 : (dat9 V c).after 2 t = iblk9 V c 2 t := by dsimp only [dat9]
theorem after9_3 : (dat9 V c).after 3 t = iblk9 V c 3 t := by dsimp only [dat9]
theorem after9_4 : (dat9 V c).after 4 t = out9_4 (iblk9 V c 0 t) (iblk9 V c 1 t) (iblk9 V c 2 t) (iblk9 V c 3 t) := by dsimp only [dat9]

theorem blockOf9 (w : Fin cfg9.W) : (dat9 V c).blockOf w t = iblk9 V c w t := by
  unfold Dat.blockOf iblk9; rw [A_eq9]

theorem before9_0 (d) : (dat9 V c).before 0 t d = iblk9 V c 0 t :=
  ((dat9 V c).before_in_eq_fetched 0 rfl (fun _ => rfl) (fun _ _ _ => rfl) (fun t => (after9_0 V c t).trans (blockOf9 V c t 0).symm) t d).trans (blockOf9 V c t 0)
theorem before9_1 (d) : (dat9 V c).before 1 t d = iblk9 V c 1 t :=
  ((dat9 V c).before_in_eq_fetched 1 rfl (fun _ => rfl) (fun _ _ _ => rfl) (fun t => (after9_1 V c t).trans (blockOf9 V c t 1).symm) t d).trans (blockOf9 V c t 1)
theorem before9_2 (d) : (dat9 V c).before 2 t d = iblk9 V c 2 t :=
  ((dat9 V c).before_in_eq_fetched 2 rfl (fun _ => rfl) (fun _ _ _ => rfl) (fun t => (after9_2 V c t).trans (blockOf9 V c t 2).symm) t d).trans (blockOf9 V c t 2)
theorem before9_3 (d) : (dat9 V c).before 3 t d = iblk9 V c 3 t :=
  ((dat9 V c).before_in_eq_fetched 3 rfl (fun _ => rfl) (fun _ _ _ => rfl) (fun t => (after9_3 V c t).trans (blockOf9 V c t 3).symm) t d).trans (blockOf9 V c t 3)

theorem body_obligation9 : BodyObligation (dat9 (F := F) V c) (defs₀ (F := F)) Variants.none () Set.univ := fun t => by
  rw [bigSep_W9, bigSep_W9]
  simp only [before9_0, before9_1, before9_2, before9_3, after9_0, after9_1, after9_2, after9_3, after9_4]
  show _ ⊢ wp _ _ _ (bodyAt9 t) _
  exact sound_kernel9 c _ _ _ _ _ _ _ _ _ _ _ _ _ _ _ _ _ _

end Cert.KernelIdeal.GenP
-- ==== Proof.KI.Run.lean ====
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import proofs.«141437_j50036368998564_1_alg».proof.Proof.Gen.KernelIdeal.Regions
import proofs.«141437_j50036368998564_1_alg».proof.Proof.KI.Region0
import proofs.«141437_j50036368998564_1_alg».proof.Proof.KI.Region1
import proofs.«141437_j50036368998564_1_alg».proof.Proof.KI.Region2
import proofs.«141437_j50036368998564_1_alg».proof.Proof.KI.Region3
import proofs.«141437_j50036368998564_1_alg».proof.Proof.KI.Region4
import proofs.«141437_j50036368998564_1_alg».proof.Proof.KI.Region5
import proofs.«141437_j50036368998564_1_alg».proof.Proof.KI.Region6
import proofs.«141437_j50036368998564_1_alg».proof.Proof.KI.Region7
import proofs.«141437_j50036368998564_1_alg».proof.Proof.KI.Region8
import proofs.«141437_j50036368998564_1_alg».proof.Proof.KI.Region9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev V0 : (c : Dev nD) → (b : Ref sig .tc) → Buf (Elt F) ((c : Thread nD τ).loc b) := fun c b => W0 m c b

abbrev W1 : Dev nD → Valuation τ sig (Elt F) := fun c => StableHlo.after hostOps0 (W0 m c)
abbrev V1 : (c : Dev nD) → (b : Ref sig .tc) → Buf (Elt F) ((c : Thread nD τ).loc b) := fun c b => W1 m c b
theorem W1_of (c : Dev nD) (r : Ref sig .tc) (h : r ∉ hostOps0_W) : W1 m c r = W0 m c r :=
  StableHlo.after_of_writes_sub hostOps0 _ hostOps0_writes h

abbrev W2 : Dev nD → Valuation τ sig (Elt F) := fun c => StableHlo.after hostOps0_1 (W1 m c)
abbrev V2 : (c : Dev nD) → (b : Ref sig .tc) → Buf (Elt F) ((c : Thread nD τ).loc b) := fun c b => W2 m c b
theorem W2_of (c : Dev nD) (r : Ref sig .tc) (h : r ∉ hostOps0_1_W) : W2 m c r = W1 m c r :=
  StableHlo.after_of_writes_sub hostOps0_1 _ hostOps0_1_writes h

abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
theorem W3_of (c : Dev nD) (r : Ref sig .tc) (h : r ∉ hostOps0_2_W) : W3 m c r = W2 m c r :=
  StableHlo.after_of_writes_sub hostOps0_2 _ hostOps0_2_writes h

def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

abbrev W5 : Dev nD → Valuation τ sig (Elt F) := fun c => StableHlo.after hostOps1 (W4 m c)
abbrev V5 : (c : Dev nD) → (b : Ref sig .tc) → Buf (Elt F) ((c : Thread nD τ).loc b) := fun c b => W5 m c b
theorem W5_of (c : Dev nD) (r : Ref sig .tc) (h : r ∉ hostOps1_W) : W5 m c r = W4 m c r :=
  StableHlo.after_of_writes_sub hostOps1 _ hostOps1_writes h

def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

abbrev W8 : Dev nD → Valuation τ sig (Elt F) := fun c => StableHlo.after hostOps3 (W7 m c)
abbrev V8 : (c : Dev nD) → (b : Ref sig .tc) → Buf (Elt F) ((c : Thread nD τ).loc b) := fun c b => W8 m c b
theorem W8_of (c : Dev nD) (r : Ref sig .tc) (h : r ∉ hostOps3_W) : W8 m c r = W7 m c r :=
  StableHlo.after_of_writes_sub hostOps3 _ hostOps3_writes h

def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)

def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

abbrev W11 : Dev nD → Valuation τ sig (Elt F) := fun c => StableHlo.after hostOps5 (W10 m c)
abbrev V11 : (c : Dev nD) → (b : Ref sig .tc) → Buf (Elt F) ((c : Thread nD τ).loc b) := fun c b => W11 m c b
theorem W11_of (c : Dev nD) (r : Ref sig .tc) (h : r ∉ hostOps5_W) : W11 m c r = W10 m c r :=
  StableHlo.after_of_writes_sub hostOps5 _ hostOps5_writes h

def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev V12 : (c : Dev nD) → (b : Ref sig .tc) → Buf (Elt F) ((c : Thread nD τ).loc b) := fun c b => W12 m c b
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => W12_of_ne m c b fun w e => hb (Finset.mem_image.mpr ⟨w, Finset.mem_univ _, e⟩)

def W13 (c : Dev nD) : Valuation τ sig (Elt F) :=
  Pipeline.withArrays spec6 c (W12 m c) fun w => (dat6 (V12 m) c).arrAt w cfg6.N
theorem W13_arr (c : Dev nD) (w : Fin cfg6.W) :
    W13 m c (Proc.devRef .tc (Pipeline.arrRef spec6 w)) = (dat6 (V12 m) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m c (Proc.devRef .tc b) = W12 m c (Proc.devRef .tc b) := by
  unfold W13; exact Pipeline.withArrays_of_ne spec6 c _ _ b hb
abbrev V13 : (c : Dev nD) → (b : Ref sig .tc) → Buf (Elt F) ((c : Thread nD τ).loc b) := fun c b => W13 m c b
theorem hF6 (c : Dev nD) (w : Fin cfg6.W) : (dat6 (V12 m) c).arrAt w cfg6.N = V13 m c (Pipeline.arrRef spec6 w) :=
  (W13_arr m c w).symm
theorem hrest6 (c : Dev nD) : ∀ b, b ∉ Finset.univ.image (Pipeline.arrRef spec6) → V13 m c b = V12 m c b :=
  fun b hb => W13_of_ne m c b fun w e => hb (Finset.mem_image.mpr ⟨w, Finset.mem_univ _, e⟩)

abbrev W14 : Dev nD → Valuation τ sig (Elt F) := fun c => StableHlo.after hostOps7 (W13 m c)
abbrev V14 : (c : Dev nD) → (b : Ref sig .tc) → Buf (Elt F) ((c : Thread nD τ).loc b) := fun c b => W14 m c b
theorem W14_of (c : Dev nD) (r : Ref sig .tc) (h : r ∉ hostOps7_W) : W14 m c r = W13 m c r :=
  StableHlo.after_of_writes_sub hostOps7 _ hostOps7_writes h

def W15 (c : Dev nD) : Valuation τ sig (Elt F) :=
  Pipeline.withArrays spec7 c (W14 m c) fun w => (dat7 (V14 m) c).arrAt w cfg7.N
theorem W15_arr (c : Dev nD) (w : Fin cfg7.W) :
    W15 m c (Proc.devRef .tc (Pipeline.arrRef spec7 w)) = (dat7 (V14 m) c).arrAt w cfg7.N := by
  unfold W15; exact Pipeline.withArrays_arr spec7 launch7.win.arr_inj c _ _ w
theorem W15_of_ne (c : Dev nD) (b : Ref sig .tc) (hb : ∀ w, Pipeline.arrRef spec7 w ≠ b) :
    W15 m c (Proc.devRef .tc b) = W14 m c (Proc.devRef .tc b) := by
  unfold W15; exact Pipeline.withArrays_of_ne spec7 c _ _ b hb
abbrev V15 : (c : Dev nD) → (b : Ref sig .tc) → Buf (Elt F) ((c : Thread nD τ).loc b) := fun c b => W15 m c b
theorem hF7 (c : Dev nD) (w : Fin cfg7.W) : (dat7 (V14 m) c).arrAt w cfg7.N = V15 m c (Pipeline.arrRef spec7 w) :=
  (W15_arr m c w).symm
theorem hrest7 (c : Dev nD) : ∀ b, b ∉ Finset.univ.image (Pipeline.arrRef spec7) → V15 m c b = V14 m c b :=
  fun b hb => W15_of_ne m c b fun w e => hb (Finset.mem_image.mpr ⟨w, Finset.mem_univ _, e⟩)

def W16 (c : Dev nD) : Valuation τ sig (Elt F) :=
  Pipeline.withArrays spec8 c (W15 m c) fun w => (dat8 (V15 m) c).arrAt w cfg8.N
theorem W16_arr (c : Dev nD) (w : Fin cfg8.W) :
    W16 m c (Proc.devRef .tc (Pipeline.arrRef spec8 w)) = (dat8 (V15 m) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m c (Proc.devRef .tc b) = W15 m c (Proc.devRef .tc b) := by
  unfold W16; exact Pipeline.withArrays_of_ne spec8 c _ _ b hb
abbrev V16 : (c : Dev nD) → (b : Ref sig .tc) → Buf (Elt F) ((c : Thread nD τ).loc b) := fun c b => W16 m c b
theorem hF8 (c : Dev nD) (w : Fin cfg8.W) : (dat8 (V15 m) c).arrAt w cfg8.N = V16 m c (Pipeline.arrRef spec8 w) :=
  (W16_arr m c w).symm
theorem hrest8 (c : Dev nD) : ∀ b, b ∉ Finset.univ.image (Pipeline.arrRef spec8) → V16 m c b = V15 m c b :=
  fun b hb => W16_of_ne m c b fun w e => hb (Finset.mem_image.mpr ⟨w, Finset.mem_univ _, e⟩)

abbrev W17 : Dev nD → Valuation τ sig (Elt F) := fun c => StableHlo.after hostOps9 (W16 m c)
abbrev V17 : (c : Dev nD) → (b : Ref sig .tc) → Buf (Elt F) ((c : Thread nD τ).loc b) := fun c b => W17 m c b
theorem W17_of (c : Dev nD) (r : Ref sig .tc) (h : r ∉ hostOps9_W) : W17 m c r = W16 m c r :=
  StableHlo.after_of_writes_sub hostOps9 _ hostOps9_writes h

def W18 (c : Dev nD) : Valuation τ sig (Elt F) :=
  Pipeline.withArrays spec9 c (W17 m c) fun w => (dat9 (V17 m) c).arrAt w cfg9.N
theorem W18_arr (c : Dev nD) (w : Fin cfg9.W) :
    W18 m c (Proc.devRef .tc (Pipeline.arrRef spec9 w)) = (dat9 (V17 m) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m c (Proc.devRef .tc b) = W17 m c (Proc.devRef .tc b) := by
  unfold W18; exact Pipeline.withArrays_of_ne spec9 c _ _ b hb
abbrev V18 : (c : Dev nD) → (b : Ref sig .tc) → Buf (Elt F) ((c : Thread nD τ).loc b) := fun c b => W18 m c b
theorem hF9 (c : Dev nD) (w : Fin cfg9.W) : (dat9 (V17 m) c).arrAt w cfg9.N = V18 m c (Pipeline.arrRef spec9 w) :=
  (W18_arr m c w).symm
theorem hrest9 (c : Dev nD) : ∀ b, b ∉ Finset.univ.image (Pipeline.arrRef spec9) → V18 m c b = V17 m c b :=
  fun b hb => W18_of_ne m c b fun w e => hb (Finset.mem_image.mpr ⟨w, Finset.mem_univ _, e⟩)

-- a region leaves an array that is none of its outputs as it found it
theorem W4_keep (c : Dev nD) (b : Ref sig .tc) (h : ∀ w, Pipeline.arrRef spec0 w = b → (cfg0.win w).isOut = false) :
    W4 m c (Proc.devRef .tc b) = W3 m c (Proc.devRef .tc b) :=
  (em (∃ w, Pipeline.arrRef spec0 w = b)).elim
    (fun ⟨w, e⟩ => e ▸ (W4_arr m c w).trans (((dat0 (V3 m) c).arrAt_in w (h w e) _).trans (A_eq0 (V3 m) c w)))
    fun hb => W4_of_ne m c b fun w e => hb ⟨w, e⟩
theorem W6_keep (c : Dev nD) (b : Ref sig .tc) (h : ∀ w, Pipeline.arrRef spec1 w = b → (cfg1.win w).isOut = false) :
    W6 m c (Proc.devRef .tc b) = W5 m c (Proc.devRef .tc b) :=
  (em (∃ w, Pipeline.arrRef spec1 w = b)).elim
    (fun ⟨w, e⟩ => e ▸ (W6_arr m c w).trans (((dat1 (V5 m) c).arrAt_in w (h w e) _).trans (A_eq1 (V5 m) c w)))
    fun hb => W6_of_ne m c b fun w e => hb ⟨w, e⟩
theorem W7_keep (c : Dev nD) (b : Ref sig .tc) (h : ∀ w, Pipeline.arrRef spec2 w = b → (cfg2.win w).isOut = false) :
    W7 m c (Proc.devRef .tc b) = W6 m c (Proc.devRef .tc b) :=
  (em (∃ w, Pipeline.arrRef spec2 w = b)).elim
    (fun ⟨w, e⟩ => e ▸ (W7_arr m c w).trans (((dat2 (V6 m) c).arrAt_in w (h w e) _).trans (A_eq2 (V6 m) c w)))
    fun hb => W7_of_ne m c b fun w e => hb ⟨w, e⟩
theorem W9_keep (c : Dev nD) (b : Ref sig .tc) (h : ∀ w, Pipeline.arrRef spec3 w = b → (cfg3.win w).isOut = false) :
    W9 m c (Proc.devRef .tc b) = W8 m c (Proc.devRef .tc b) :=
  (em (∃ w, Pipeline.arrRef spec3 w = b)).elim
    (fun ⟨w, e⟩ => e ▸ (W9_arr m c w).trans (((dat3 (V8 m) c).arrAt_in w (h w e) _).trans (A_eq3 (V8 m) c w)))
    fun hb => W9_of_ne m c b fun w e => hb ⟨w, e⟩
theorem W10_keep (c : Dev nD) (b : Ref sig .tc) (h : ∀ w, Pipeline.arrRef spec4 w = b → (cfg4.win w).isOut = false) :
    W10 m c (Proc.devRef .tc b) = W9 m c (Proc.devRef .tc b) :=
  (em (∃ w, Pipeline.arrRef spec4 w = b)).elim
    (fun ⟨w, e⟩ => e ▸ (W10_arr m c w).trans (((dat4 (V9 m) c).arrAt_in w (h w e) _).trans (A_eq4 (V9 m) c w)))
    fun hb => W10_of_ne m c b fun w e => hb ⟨w, e⟩
theorem W12_keep (c : Dev nD) (b : Ref sig .tc) (h : ∀ w, Pipeline.arrRef spec5 w = b → (cfg5.win w).isOut = false) :
    W12 m c (Proc.devRef .tc b) = W11 m c (Proc.devRef .tc b) :=
  (em (∃ w, Pipeline.arrRef spec5 w = b)).elim
    (fun ⟨w, e⟩ => e ▸ (W12_arr m c w).trans (((dat5 (V11 m) c).arrAt_in w (h w e) _).trans (A_eq5 (V11 m) c w)))
    fun hb => W12_of_ne m c b fun w e => hb ⟨w, e⟩
theorem W13_keep (c : Dev nD) (b : Ref sig .tc) (h : ∀ w, Pipeline.arrRef spec6 w = b → (cfg6.win w).isOut = false) :
    W13 m c (Proc.devRef .tc b) = W12 m c (Proc.devRef .tc b) :=
  (em (∃ w, Pipeline.arrRef spec6 w = b)).elim
    (fun ⟨w, e⟩ => e ▸ (W13_arr m c w).trans (((dat6 (V12 m) c).arrAt_in w (h w e) _).trans (A_eq6 (V12 m) c w)))
    fun hb => W13_of_ne m c b fun w e => hb ⟨w, e⟩
theorem W15_keep (c : Dev nD) (b : Ref sig .tc) (h : ∀ w, Pipeline.arrRef spec7 w = b → (cfg7.win w).isOut = false) :
    W15 m c (Proc.devRef .tc b) = W14 m c (Proc.devRef .tc b) :=
  (em (∃ w, Pipeline.arrRef spec7 w = b)).elim
    (fun ⟨w, e⟩ => e ▸ (W15_arr m c w).trans (((dat7 (V14 m) c).arrAt_in w (h w e) _).trans (A_eq7 (V14 m) c w)))
    fun hb => W15_of_ne m c b fun w e => hb ⟨w, e⟩
theorem W16_keep (c : Dev nD) (b : Ref sig .tc) (h : ∀ w, Pipeline.arrRef spec8 w = b → (cfg8.win w).isOut = false) :
    W16 m c (Proc.devRef .tc b) = W15 m c (Proc.devRef .tc b) :=
  (em (∃ w, Pipeline.arrRef spec8 w = b)).elim
    (fun ⟨w, e⟩ => e ▸ (W16_arr m c w).trans (((dat8 (V15 m) c).arrAt_in w (h w e) _).trans (A_eq8 (V15 m) c w)))
    fun hb => W16_of_ne m c b fun w e => hb ⟨w, e⟩
theorem W18_keep (c : Dev nD) (b : Ref sig .tc) (h : ∀ w, Pipeline.arrRef spec9 w = b → (cfg9.win w).isOut = false) :
    W18 m c (Proc.devRef .tc b) = W17 m c (Proc.devRef .tc b) :=
  (em (∃ w, Pipeline.arrRef spec9 w = b)).elim
    (fun ⟨w, e⟩ => e ▸ (W18_arr m c w).trans (((dat9 (V17 m) c).arrAt_in w (h w e) _).trans (A_eq9 (V17 m) c w)))
    fun hb => W18_of_ne m c b fun w e => hb ⟨w, e⟩

/-- No host stretch writes `b` and no region writes it back. -/
def Kept (b : Ref sig .tc) : Prop :=
  b ∉ hostOps0_W ∧ b ∉ hostOps0_1_W ∧ b ∉ hostOps0_2_W ∧ b ∉ hostOps1_W ∧ b ∉ hostOps3_W ∧ b ∉ hostOps5_W
    ∧ b ∉ hostOps7_W ∧ b ∉ hostOps9_W
    ∧ (∀ w, Pipeline.arrRef spec0 w = b → (cfg0.win w).isOut = false)
    ∧ (∀ w, Pipeline.arrRef spec1 w = b → (cfg1.win w).isOut = false)
    ∧ (∀ w, Pipeline.arrRef spec2 w = b → (cfg2.win w).isOut = false)
    ∧ (∀ w, Pipeline.arrRef spec3 w = b → (cfg3.win w).isOut = false)
    ∧ (∀ w, Pipeline.arrRef spec4 w = b → (cfg4.win w).isOut = false)
    ∧ (∀ w, Pipeline.arrRef spec5 w = b → (cfg5.win w).isOut = false)
    ∧ (∀ w, Pipeline.arrRef spec6 w = b → (cfg6.win w).isOut = false)
    ∧ (∀ w, Pipeline.arrRef spec7 w = b → (cfg7.win w).isOut = false)
    ∧ (∀ w, Pipeline.arrRef spec8 w = b → (cfg8.win w).isOut = false)
    ∧ (∀ w, Pipeline.arrRef spec9 w = b → (cfg9.win w).isOut = false)

instance (b : Ref sig .tc) : Decidable (Kept b) := by unfold Kept; infer_instance

theorem W18_kept (c : Dev nD) (b : Ref sig .tc) (h : Kept b) :
    W18 m c (Proc.devRef .tc b) = m ((c : Thread nD τ).loc b) := by
  obtain ⟨h0, h1, h2, h3, h4, h5, h6, h7, r0, r1, r2, r3, r4, r5, r6, r7, r8, r9⟩ := h
  exact (W18_keep m c b r9).trans <| (W17_of m c b h7).trans <| (W16_keep m c b r8).trans <| (W15_keep m c b r7).trans <|
    (W14_of m c b h6).trans <| (W13_keep m c b r6).trans <| (W12_keep m c b r5).trans <| (W11_of m c b h5).trans <|
    (W10_keep m c b r4).trans <| (W9_keep m c b r3).trans <| (W8_of m c b h4).trans <| (W7_keep m c b r2).trans <|
    (W6_keep m c b r1).trans <| (W5_of m c b h3).trans <| (W4_keep m c b r0).trans <| (W3_of m c b h2).trans <|
    (W2_of m c b h1).trans <| (W1_of m c b h0).trans rfl

abbrev adm : (p : Fin 10) → (pcfgs (F := F) p).Adm := fun p => (cfgs p).toPCfg_adm

def pdats : (p : Fin 10) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
  | ⟨4, _⟩ => fun c => dat4 (V9 m) c
  | ⟨5, _⟩ => fun c => dat5 (V11 m) c
  | ⟨6, _⟩ => fun c => dat6 (V12 m) c
  | ⟨7, _⟩ => fun c => dat7 (V14 m) c
  | ⟨8, _⟩ => fun c => dat8 (V15 m) c
  | ⟨9, _⟩ => fun c => dat9 (V17 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m c) ∗ ∃ r, prngReg c r)

section Reg

variable (p : Fin 10) (ln : Pipeline.LaunchFacts (nD := nD) (τ := τ) cfgs p)
  (Vi Vo : (c : Dev nD) → (b : Ref sig .tc) → Buf (Elt F) ((c : Thread nD τ).loc b))
  (Wi Wo : Dev nD → Valuation τ sig (Elt F)) (hWi : ∀ c, Vi c = fun (b : Ref sig .tc) => Wi c b) (hWo : ∀ c, Vo c = fun (b : Ref sig .tc) => Wo c b)
  (hb : ∀ c, Pipeline.BodyObligationLoose (pdats m p c) defs₀ 𝒱₀ () Set.univ)
  (howed : ∀ c t, (pdats m p c).owed t = 0)
  (hq : ∀ c w, (pdats m p c).q w = fullShare) (hrec : ∀ c, (pdats m p c).recorded 0 = Set.univ)
  (hA : ∀ c w, (pdats m p c).A w = Vi c (Pipeline.arrRef (cfgs p).spec w))
  (hin : ∀ c, Pipeline.ΦA (cfgs p).spec c ⊢ (pdats m p c).Φ 0)
  (hout : ∀ c, (pdats m p c).Φ (Fin.last (cfgs p).N) ⊢ Pipeline.ΦA (cfgs p).spec c)
  (hF : ∀ c w, (pdats m p c).arrAt w (cfgs p).N = Vo c (Pipeline.arrRef (cfgs p).spec w))
  (hrest : ∀ c, ∀ b, b ∉ Finset.univ.image (Pipeline.arrRef (cfgs p).spec) → Vo c b = Vi c b)

set_option backward.isDefEq.respectTransparency.types false in
def mkReg : Pipeline.RegionSeg (pcfgs (F := F)) adm (pdats m) () defs₀ 𝒱₀ L lv p where
  win := ln.win.to₀
  block_pos := ln.block_pos
  stage_whole := ln.stage_whole
  K := PEmpty
  osem k := k.elim
  ho := Pipeline.OwnSemFacts.none _
  hbody := hb
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (Vi c)
  hentry c := by
    rw [Pipeline.ownSems0_none]
    have hsplit := Pipeline.arrays_of_unscopedBufs (p := p) (pcfgs (F := F)) adm (pdats m) ln.win ln.arr_whole c
      ((pdats m p c).share_full (hq c)) (Vi c) (hA c)
    rw [hWi c, Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; trivial)
      iexact HO
    isplitl [Hp]; · iexact Hp
    rw [hWi c]; iexact Hrest
  hin c := by
    refine (?_ : (_ : sProp 𝕄) ⊢ Pipeline.ΦA (cfgs p).spec c).trans (hin c)
    unfold Pipeline.ΦA
    iintro ⟨Hp, -, Hr⟩
    isplitl [Hr]; · iexact Hr
    iexact Hp
  hout c := by
    rw [Pipeline.ownSems0_none]
    refine (hout c).trans (?_ : Pipeline.ΦA (cfgs p).spec c ⊢ (_ : sProp 𝕄))
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      ln.win ln.arr_whole c (pdats m) ((pdats m p c).share_full (hq c))
      (Vi c) (Vo c) ((pdats m p c).arrAt · (cfgs p).N) (hF c) (hrest c)
    rw [hWo c, Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Reg

set_option backward.isDefEq.respectTransparency.types false in
def reg0 : Pipeline.RegionSeg (pcfgs (F := F)) adm (pdats m) () defs₀ 𝒱₀ L lv 0 :=
  mkReg m 0 launch0 (V3 m) (V4 m) (W3 m) (W4 m) (fun _ => rfl) (fun _ => rfl)
    (fun c => (body_obligation0 (V3 m) c).loose) (fun _ _ => rfl) (fun _ _ => rfl) (fun _ => rfl) (fun _ _ => rfl)
    (fun _ => .rfl) (fun _ => .rfl) (hF0 m) (hrest0 m)

set_option backward.isDefEq.respectTransparency.types false in
def reg1 : Pipeline.RegionSeg (pcfgs (F := F)) adm (pdats m) () defs₀ 𝒱₀ L lv 1 :=
  mkReg m 1 launch1 (V5 m) (V6 m) (W5 m) (W6 m) (fun _ => rfl) (fun _ => rfl)
    (fun c => (body_obligation1 (V5 m) c).loose) (fun _ _ => rfl) (fun _ _ => rfl) (fun _ => rfl) (fun _ _ => rfl)
    (fun _ => .rfl) (fun _ => .rfl) (hF1 m) (hrest1 m)

set_option backward.isDefEq.respectTransparency.types false in
def reg2 : Pipeline.RegionSeg (pcfgs (F := F)) adm (pdats m) () defs₀ 𝒱₀ L lv 2 :=
  mkReg m 2 launch2 (V6 m) (V7 m) (W6 m) (W7 m) (fun _ => rfl) (fun _ => rfl)
    (fun c => (body_obligation2 (V6 m) c).loose) (fun _ _ => rfl) (fun _ _ => rfl) (fun _ => rfl) (fun _ _ => rfl)
    (hin2 (V6 m)) (hout2 (V6 m)) (hF2 m) (hrest2 m)

set_option backward.isDefEq.respectTransparency.types false in
def reg3 : Pipeline.RegionSeg (pcfgs (F := F)) adm (pdats m) () defs₀ 𝒱₀ L lv 3 :=
  mkReg m 3 launch3 (V8 m) (V9 m) (W8 m) (W9 m) (fun _ => rfl) (fun _ => rfl)
    (fun c => (body_obligation3 (V8 m) c).loose) (fun _ _ => rfl) (fun _ _ => rfl) (fun _ => rfl) (fun _ _ => rfl)
    (fun _ => .rfl) (fun _ => .rfl) (hF3 m) (hrest3 m)

set_option backward.isDefEq.respectTransparency.types false in
def reg4 : Pipeline.RegionSeg (pcfgs (F := F)) adm (pdats m) () defs₀ 𝒱₀ L lv 4 :=
  mkReg m 4 launch4 (V9 m) (V10 m) (W9 m) (W10 m) (fun _ => rfl) (fun _ => rfl)
    (fun c => (body_obligation4 (V9 m) c).loose) (fun _ _ => rfl) (fun _ _ => rfl) (fun _ => rfl) (fun _ _ => rfl)
    (fun _ => .rfl) (fun _ => .rfl) (hF4 m) (hrest4 m)

set_option backward.isDefEq.respectTransparency.types false in
def reg5 : Pipeline.RegionSeg (pcfgs (F := F)) adm (pdats m) () defs₀ 𝒱₀ L lv 5 :=
  mkReg m 5 launch5 (V11 m) (V12 m) (W11 m) (W12 m) (fun _ => rfl) (fun _ => rfl)
    (fun c => (body_obligation5 (V11 m) c).loose) (fun _ _ => rfl) (fun _ _ => rfl) (fun _ => rfl) (fun _ _ => rfl)
    (fun _ => .rfl) (fun _ => .rfl) (hF5 m) (hrest5 m)

set_option backward.isDefEq.respectTransparency.types false in
def reg6 : Pipeline.RegionSeg (pcfgs (F := F)) adm (pdats m) () defs₀ 𝒱₀ L lv 6 :=
  mkReg m 6 launch6 (V12 m) (V13 m) (W12 m) (W13 m) (fun _ => rfl) (fun _ => rfl)
    (fun c => (body_obligation6 (V12 m) c).loose) (fun _ _ => rfl) (fun _ _ => rfl) (fun _ => rfl) (fun _ _ => rfl)
    (hin6 (V12 m)) (hout6 (V12 m)) (hF6 m) (hrest6 m)

set_option backward.isDefEq.respectTransparency.types false in
def reg7 : Pipeline.RegionSeg (pcfgs (F := F)) adm (pdats m) () defs₀ 𝒱₀ L lv 7 :=
  mkReg m 7 launch7 (V14 m) (V15 m) (W14 m) (W15 m) (fun _ => rfl) (fun _ => rfl)
    (fun c => (body_obligation7 (V14 m) c).loose) (fun _ _ => rfl) (fun _ _ => rfl) (fun _ => rfl) (fun _ _ => rfl)
    (fun _ => .rfl) (fun _ => .rfl) (hF7 m) (hrest7 m)

set_option backward.isDefEq.respectTransparency.types false in
def reg8 : Pipeline.RegionSeg (pcfgs (F := F)) adm (pdats m) () defs₀ 𝒱₀ L lv 8 :=
  mkReg m 8 launch8 (V15 m) (V16 m) (W15 m) (W16 m) (fun _ => rfl) (fun _ => rfl)
    (fun c => (body_obligation8 (V15 m) c).loose) (fun _ _ => rfl) (fun _ _ => rfl) (fun _ => rfl) (fun _ _ => rfl)
    (fun _ => .rfl) (fun _ => .rfl) (hF8 m) (hrest8 m)

set_option backward.isDefEq.respectTransparency.types false in

def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V17 m) c).loose
  hwaits := Pipeline.hwaits_of_owed_zero _ _ _ _ L lv 9 fun _ _ => rfl
  pre c := iprop(StableHlo.held (c : Thread nD τ) (Pipeline.ucRefs τ sig) (W17 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (V17 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (V17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (V17 m c) (V18 m c) ((pdats m 9 c).arrAt · cfg9.N) (hF9 m c) (hrest9 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .region (reg4 m),
    .host (hseg hostOps5 hostOps5_sub hostOps5_fresh (W10 m)),
    .region (reg5 m),
    .region (reg6 m),
    .host (hseg hostOps7 hostOps7_sub hostOps7_fresh (W13 m)),
    .region (reg7 m),
    .region (reg8 m),
    .host (hseg hostOps9 hostOps9_sub hostOps9_fresh (W16 m)),
    .region (reg9 m) ]
theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h c => h c)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c _ (mem_uc main_arg0 (by decide))).trans (W18_kept m c main_arg0 (by decide)),
    (h c _ (mem_uc main_arg1 (by decide))).trans (W18_kept m c main_arg1 (by decide)),
    (h c _ (mem_uc main_arg2 (by decide))).trans (W18_kept m c main_arg2 (by decide)),
    (h c _ (mem_uc main_arg3 (by decide))).trans (W18_kept m c main_arg3 (by decide)),
    (h c _ (mem_uc main_arg4 (by decide))).trans (W18_kept m c main_arg4 (by decide)),
    (h c _ (mem_uc main_arg5 (by decide))).trans (W18_kept m c main_arg5 (by decide)),
    (h c _ (mem_uc main_arg6 (by decide))).trans (W18_kept m c main_arg6 (by decide)),
    (h c _ (mem_uc main_arg7 (by decide))).trans (W18_kept m c main_arg7 (by decide)),
    (h c _ (mem_uc main_arg8 (by decide))).trans (W18_kept m c main_arg8 (by decide)),
    (h c _ (mem_uc main_arg9 (by decide))).trans (W18_kept m c main_arg9 (by decide)),
    (h c _ (mem_uc main_arg10 (by decide))).trans (W18_kept m c main_arg10 (by decide)),
    (h c _ (mem_uc main_arg11 (by decide))).trans (W18_kept m c main_arg11 (by decide)),
    (h c _ (mem_uc main_arg12 (by decide))).trans (W18_kept m c main_arg12 (by decide)),
    (h c _ (mem_uc main_arg13 (by decide))).trans (W18_kept m c main_arg13 (by decide))⟩) (run_all m ρ)

end Cert.KernelIdeal.GenP

end
-- ==== Proof.Ref.Run.lean ====
import proofs.«141437_j50036368998564_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev opsL1 : List (HloOp τ sig (Elt F)) :=
  [ binary main_arg0 main_arg4 main_v0 (fun (l : FVec F S50000x64 .f32) (r : FVec F S64x128 .f32) => Host.dotGeneral dot_S50000x64_S64x128_S50000x128_1_0_0_1_n_n none l r),
    nullary main_cst (constant S_ .f32 0x00000000#32),
    unary main_cst main_v1 (broadcastInDim S50000 ![] bcast_S_S50000),
    unary main_arg2 main_v2 (broadcastInDim S800000x1 ![0] bcast_S800000_S800000x1_0),
    ternary main_v1 main_v2 main_arg3 main_v3 (fun (x : FVec F S50000 .f32) (i : IVec S800000x1 32) (u : FVec F S800000 .f32) => Host.scatterAdd scatter_S50000_S800000x1_S800000_n_0_0_1 x i u),
    nullary main_cst_0 (constant S_ .f32 0x3F800000#32),
    unary main_cst_0 main_v4 (broadcastInDim S50000 ![] bcast_S_S50000),
    binary main_v3 main_v4 main_v5 addf,
    nullary main_cst_1 (constant S_ .f32 0x00000000#32),
    unary main_cst_1 main_v6 (broadcastInDim S50000 ![] bcast_S_S50000),
    binary main_v5 main_v6 main_v7 (cmpf .ogt),
    unary main_v5 main_v8 Host.rsqrt,
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v7) (TRef.of (T := ⟨S50000, .f32⟩) main_v8) (TRef.of (T := ⟨S50000, .f32⟩) main_call0_v1) (TRef.of (T := ⟨S50000, .f32⟩) main_v9) select,
    nullary main_c (constantI S_ 32 0#32),
    unary main_c main_v10 (broadcastInDim S800000 ![] bcast_S_S800000),
    binary main_arg1 main_v10 main_v11 (cmpi .slt),
    nullary main_c_3 (constantI S_ 32 50000#32),
    unary main_c_3 main_v12 (broadcastInDim S800000 ![] bcast_S_S800000),
    binary main_arg1 main_v12 main_v13 addi,
    ternary main_v11 main_v13 main_arg1 main_v14 select,
    unary main_v14 main_v15 (broadcastInDim S800000x1 ![0] bcast_S800000_S800000x1_0),
    binary main_v9 main_v15 main_v16 (fun (x : FVec F S50000 .f32) (i : IVec S800000x1 32) => Host.gather gather_S50000_S800000x1_S800000_n_0_n_n_0_1_1 x i),
    binary main_v16 main_arg3 main_v17 mulf,
    nullary main_c_4 (constantI S_ 32 0#32),
    unary main_c_4 main_v18 (broadcastInDim S800000 ![] bcast_S_S800000),
    binary main_arg2 main_v18 main_v19 (cmpi .slt),
    nullary main_c_5 (constantI S_ 32 50000#32),
    unary main_c_5 main_v20 (broadcastInDim S800000 ![] bcast_S_S800000),
    binary main_arg2 main_v20 main_v21 addi,
    ternary main_v19 main_v21 main_arg2 main_v22 select,
    unary main_v22 main_v23 (broadcastInDim S800000x1 ![0] bcast_S800000_S800000x1_0),
    binary main_v9 main_v23 main_v24 (fun (x : FVec F S50000 .f32) (i : IVec S800000x1 32) => Host.gather gather_S50000_S800000x1_S800000_n_0_n_n_0_1_1 x i),
    binary main_v17 main_v24 main_v25 mulf,
    nullary main_c_6 (constantI S_ 32 0#32),
    unary main_c_6 main_v26 (broadcastInDim S800000 ![] bcast_S_S800000),
    binary main_arg1 main_v26 main_v27 (cmpi .slt),
    nullary main_c_7 (constantI S_ 32 50000#32),
    unary main_c_7 main_v28 (broadcastInDim S800000 ![] bcast_S_S800000),
    binary main_arg1 main_v28 main_v29 addi,
    ternary main_v27 main_v29 main_arg1 main_v30 select,
    unary main_v30 main_v31 (broadcastInDim S800000x1 ![0] bcast_S800000_S800000x1_0),
    binary main_v0 main_v31 main_v32 (fun (x : FVec F S50000x128 .f32) (i : IVec S800000x1 32) => Host.gather gather_S50000x128_S800000x1_S800000x128_1_0_n_n_0_1_1128 x i),
    unary main_v25 main_v33 (broadcastInDim S800000x1 ![0] bcast_S800000_S800000x1_0),
    unary main_v33 main_v34 (broadcastInDim S800000x128 ![0, 1] bcast_S800000x1_S800000x128_0_1),
    binary main_v32 main_v34 main_v35 mulf,
    nullary main_cst_8 (constant S_ .f32 0x00000000#32),
    unary main_cst_8 main_v36 (broadcastInDim S50000x128 ![] bcast_S_S50000x128),
    unary main_arg2 main_v37 (broadcastInDim S800000x1 ![0] bcast_S800000_S800000x1_0),
    ternary main_v36 main_v37 main_v35 main_v38 (fun (x : FVec F S50000x128 .f32) (i : IVec S800000x1 32) (u : FVec F S800000x128 .f32) => Host.scatterAdd scatter_S50000x128_S800000x1_S800000x128_1_0_0_1 x i u),
    binary main_v9 main_v9 main_v39 mulf,
    unary main_v39 main_v40 (broadcastInDim S50000x1 ![0] bcast_S50000_S50000x1_0),
    unary main_v40 main_v41 (broadcastInDim S50000x128 ![0, 1] bcast_S50000x1_S50000x128_0_1),
    binary main_v0 main_v41 main_v42 mulf,
    binary main_v38 main_v42 main_v43 addf,
    unary main_arg5 main_v44 (broadcastInDim S1x128 ![1] bcast_S128_S1x128_1),
    unary main_v44 main_v45 (broadcastInDim S50000x128 ![0, 1] bcast_S1x128_S50000x128_0_1),
    binary main_v43 main_v45 main_v46 addf ]

abbrev opsB1 : List (HloOp τ sig (Elt F)) :=
  [ nullary main_cst_9 (constant S_ .f32 0x00000000#32),
    binary main_v46 main_cst_9 main_v47 (fun (x : FVec F S50000x128 .f32) (v : FVec F S_ .f32) => Host.reduceAdd x v reducesTo_S50000x128_S128_d0 h_S_),
    nullary main_cst_10 (constant S_ .f32 0x47435000#32),
    unary main_cst_10 main_v48 (broadcastInDim S128 ![] bcast_S_S128),
    binary main_v47 main_v48 main_v49 Host.divf,
    nullary main_c_11 (constantI S_ 32 0#32),
    TRef.nullary (TRef.of (T := ⟨S_, .f32⟩) main_call1_cst) (constant S_ .f32 0x00000000#32),
    TRef.binary (TRef.of (T := ⟨S50000x128, .f32⟩) main_v46) (TRef.of (T := ⟨S_, .f32⟩) main_call1_cst) (TRef.of (T := ⟨S128, .f32⟩) main_call1_v0) (fun x v => Host.reduceAdd x v reducesTo_S50000x128_S128_d0 h_S_),
    TRef.unary (TRef.of (T := ⟨S128, .f32⟩) main_call1_v0) (TRef.of (T := ⟨S1x128, .f32⟩) main_call1_v1) (broadcastInDim S1x128 ![1] bcast_S128_S1x128_1),
    TRef.nullary (TRef.of (T := ⟨S_, .f32⟩) main_call1_cst_0) (constant S_ .f32 0x47435000#32),
    TRef.unary (TRef.of (T := ⟨S_, .f32⟩) main_call1_cst_0) (TRef.of (T := ⟨S1x128, .f32⟩) main_call1_v2) (broadcastInDim S1x128 ![] bcast_S_S1x128),
    TRef.binary (TRef.of (T := ⟨S1x128, .f32⟩) main_call1_v1) (TRef.of (T := ⟨S1x128, .f32⟩) main_call1_v2) (TRef.of (T := ⟨S1x128, .f32⟩) main_call1_v3) Host.divf,
    TRef.unary (TRef.of (T := ⟨S1x128, .f32⟩) main_call1_v3) (TRef.of (T := ⟨S50000x128, .f32⟩) main_call1_v4) (broadcastInDim S50000x128 ![0, 1] bcast_S1x128_S50000x128_0_1),
    TRef.binary (TRef.of (T := ⟨S50000x128, .f32⟩) main_v46) (TRef.of (T := ⟨S50000x128, .f32⟩) main_call1_v4) (TRef.of (T := ⟨S50000x128, .f32⟩) main_call1_v5) subf,
    TRef.binary (TRef.of (T := ⟨S50000x128, .f32⟩) main_call1_v5) (TRef.of (T := ⟨S50000x128, .f32⟩) main_call1_v5) (TRef.of (T := ⟨S50000x128, .f32⟩) main_call1_v6) mulf,
    TRef.unary (TRef.of (T := ⟨S_, .i32⟩) main_c_11) (TRef.of (T := ⟨S_, .f32⟩) main_call1_v7) (sitofp .f32),
    TRef.nullary (TRef.of (T := ⟨S_, .f32⟩) main_call1_cst_1) (constant S_ .f32 0x47435000#32),
    TRef.binary (TRef.of (T := ⟨S_, .f32⟩) main_call1_cst_1) (TRef.of (T := ⟨S_, .f32⟩) main_call1_v7) (TRef.of (T := ⟨S_, .f32⟩) main_call1_v8) subf,
    TRef.nullary (TRef.of (T := ⟨S_, .f32⟩) main_call1_cst_2) (constant S_ .f32 0x00000000#32),
    TRef.binary (TRef.of (T := ⟨S50000x128, .f32⟩) main_call1_v6) (TRef.of (T := ⟨S_, .f32⟩) main_call1_cst_2) (TRef.of (T := ⟨S128, .f32⟩) main_call1_v9) (fun x v => Host.reduceAdd x v reducesTo_S50000x128_S128_d0 h_S_),
    TRef.unary (TRef.of (T := ⟨S_, .f32⟩) main_call1_v8) (TRef.of (T := ⟨S128, .f32⟩) main_call1_v10) (broadcastInDim S128 ![] bcast_S_S128),
    TRef.binary (TRef.of (T := ⟨S128, .f32⟩) main_call1_v9) (TRef.of (T := ⟨S128, .f32⟩) main_call1_v10) (TRef.of (T := ⟨S128, .f32⟩) main_call1_v11) Host.divf,
    TRef.nullary (TRef.of (T := ⟨S_, .f32⟩) main_call1_cst_3) (constant S_ .f32 0x00000000#32),
    TRef.binary (TRef.of (T := ⟨S_, .f32⟩) main_call1_v8) (TRef.of (T := ⟨S_, .f32⟩) main_call1_cst_3) (TRef.of (T := ⟨S_, .i1⟩) main_call1_v12) (cmpf .ogt),
    TRef.nullary (TRef.of (T := ⟨S_, .f32⟩) main_call1_cst_4) (constant S_ .f32 0x7FC00000#32),
    TRef.unary (TRef.of (T := ⟨S_, .f32⟩) main_call1_cst_4) (TRef.of (T := ⟨S_, .f32⟩) main_call1_call0_v0) id,
    TRef.unary (TRef.of (T := ⟨S_, .f32⟩) main_call1_call0_v0) (TRef.of (T := ⟨S128, .f32⟩) main_call1_call0_v1) (broadcastInDim S128 ![] bcast_S_S128),
    TRef.ternary (TRef.of (T := ⟨S_, .i1⟩) main_call1_v12) (TRef.of (T := ⟨S128, .f32⟩) main_call1_v11) (TRef.of (T := ⟨S128, .f32⟩) main_call1_call0_v1) (TRef.of (T := ⟨S128, .f32⟩) main_v50) (fun p a b => select (broadcastInDim S128 ![] bcast_S_S128 p) a b),
    unary main_v49 main_v51 (broadcastInDim S1x128 ![1] bcast_S128_S1x128_1),
    unary main_v51 main_v52 (broadcastInDim S50000x128 ![0, 1] bcast_S1x128_S50000x128_0_1),
    binary main_v46 main_v52 main_v53 subf,
    nullary main_cst_12 (constant S_ .f32 0x3727C5AC#32),
    unary main_cst_12 main_v54 (broadcastInDim S128 ![] bcast_S_S128),
    binary main_v50 main_v54 main_v55 addf,
    unary main_v55 main_v56 Host.rsqrt,
    unary main_v56 main_v57 (broadcastInDim S1x128 ![1] bcast_S128_S1x128_1),
    unary main_v57 main_v58 (broadcastInDim S50000x128 ![0, 1] bcast_S1x128_S50000x128_0_1),
    binary main_v53 main_v58 main_v59 mulf,
    unary main_arg10 main_v60 (broadcastInDim S1x128 ![1] bcast_S128_S1x128_1),
    unary main_v60 main_v61 (broadcastInDim S50000x128 ![0, 1] bcast_S1x128_S50000x128_0_1),
    binary main_v59 main_v61 main_v62 mulf,
    unary main_arg11 main_v63 (broadcastInDim S1x128 ![1] bcast_S128_S1x128_1),
    unary main_v63 main_v64 (broadcastInDim S50000x128 ![0, 1] bcast_S1x128_S50000x128_0_1),
    binary main_v62 main_v64 main_v65 addf,
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v65) (TRef.of (T := ⟨S50000x128, .f32⟩) main_call2_v0) (TRef.of (T := ⟨S50000x128, .f32⟩) main_v66) maximumf ]

abbrev opsL2 : List (HloOp τ sig (Elt F)) :=
  [ binary main_v66 main_arg6 main_v67 (fun (l : FVec F S50000x128 .f32) (r : FVec F S128x128 .f32) => Host.dotGeneral dot_S50000x128_S128x128_S50000x128_1_0_0_1_n_n none l r),
    nullary main_cst_13 (constant S_ .f32 0x00000000#32),
    unary main_cst_13 main_v68 (broadcastInDim S50000 ![] bcast_S_S50000),
    unary main_arg2 main_v69 (broadcastInDim S800000x1 ![0] bcast_S800000_S800000x1_0),
    ternary main_v68 main_v69 main_arg3 main_v70 (fun (x : FVec F S50000 .f32) (i : IVec S800000x1 32) (u : FVec F S800000 .f32) => Host.scatterAdd scatter_S50000_S800000x1_S800000_n_0_0_1 x i u),
    nullary main_cst_14 (constant S_ .f32 0x3F800000#32),
    unary main_cst_14 main_v71 (broadcastInDim S50000 ![] bcast_S_S50000),
    binary main_v70 main_v71 main_v72 addf,
    nullary main_cst_15 (constant S_ .f32 0x00000000#32),
    unary main_cst_15 main_v73 (broadcastInDim S50000 ![] bcast_S_S50000),
    binary main_v72 main_v73 main_v74 (cmpf .ogt),
    unary main_v72 main_v75 Host.rsqrt,
    nullary main_cst_16 (constant S_ .f32 0x00000000#32),
    TRef.unary (TRef.of (T := ⟨S_, .f32⟩) main_cst_16) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v74) (TRef.of (T := ⟨S50000, .f32⟩) main_v75) (TRef.of (T := ⟨S50000, .f32⟩) main_call3_v1) (TRef.of (T := ⟨S50000, .f32⟩) main_v76) select,
    nullary main_c_17 (constantI S_ 32 0#32),
    unary main_c_17 main_v77 (broadcastInDim S800000 ![] bcast_S_S800000),
    binary main_arg1 main_v77 main_v78 (cmpi .slt),
    nullary main_c_18 (constantI S_ 32 50000#32),
    unary main_c_18 main_v79 (broadcastInDim S800000 ![] bcast_S_S800000),
    binary main_arg1 main_v79 main_v80 addi,
    ternary main_v78 main_v80 main_arg1 main_v81 select,
    unary main_v81 main_v82 (broadcastInDim S800000x1 ![0] bcast_S800000_S800000x1_0),
    binary main_v76 main_v82 main_v83 (fun (x : FVec F S50000 .f32) (i : IVec S800000x1 32) => Host.gather gather_S50000_S800000x1_S800000_n_0_n_n_0_1_1 x i),
    binary main_v83 main_arg3 main_v84 mulf,
    nullary main_c_19 (constantI S_ 32 0#32),
    unary main_c_19 main_v85 (broadcastInDim S800000 ![] bcast_S_S800000),
    binary main_arg2 main_v85 main_v86 (cmpi .slt),
    nullary main_c_20 (constantI S_ 32 50000#32),
    unary main_c_20 main_v87 (broadcastInDim S800000 ![] bcast_S_S800000),
    binary main_arg2 main_v87 main_v88 addi,
    ternary main_v86 main_v88 main_arg2 main_v89 select,
    unary main_v89 main_v90 (broadcastInDim S800000x1 ![0] bcast_S800000_S800000x1_0),
    binary main_v76 main_v90 main_v91 (fun (x : FVec F S50000 .f32) (i : IVec S800000x1 32) => Host.gather gather_S50000_S800000x1_S800000_n_0_n_n_0_1_1 x i),
    binary main_v84 main_v91 main_v92 mulf,
    nullary main_c_21 (constantI S_ 32 0#32),
    unary main_c_21 main_v93 (broadcastInDim S800000 ![] bcast_S_S800000),
    binary main_arg1 main_v93 main_v94 (cmpi .slt),
    nullary main_c_22 (constantI S_ 32 50000#32),
    unary main_c_22 main_v95 (broadcastInDim S800000 ![] bcast_S_S800000),
    binary main_arg1 main_v95 main_v96 addi,
    ternary main_v94 main_v96 main_arg1 main_v97 select,
    unary main_v97 main_v98 (broadcastInDim S800000x1 ![0] bcast_S800000_S800000x1_0),
    binary main_v67 main_v98 main_v99 (fun (x : FVec F S50000x128 .f32) (i : IVec S800000x1 32) => Host.gather gather_S50000x128_S800000x1_S800000x128_1_0_n_n_0_1_1128 x i),
    unary main_v92 main_v100 (broadcastInDim S800000x1 ![0] bcast_S800000_S800000x1_0),
    unary main_v100 main_v101 (broadcastInDim S800000x128 ![0, 1] bcast_S800000x1_S800000x128_0_1),
    binary main_v99 main_v101 main_v102 mulf,
    nullary main_cst_23 (constant S_ .f32 0x00000000#32),
    unary main_cst_23 main_v103 (broadcastInDim S50000x128 ![] bcast_S_S50000x128),
    unary main_arg2 main_v104 (broadcastInDim S800000x1 ![0] bcast_S800000_S800000x1_0),
    ternary main_v103 main_v104 main_v102 main_v105 (fun (x : FVec F S50000x128 .f32) (i : IVec S800000x1 32) (u : FVec F S800000x128 .f32) => Host.scatterAdd scatter_S50000x128_S800000x1_S800000x128_1_0_0_1 x i u),
    binary main_v76 main_v76 main_v106 mulf,
    unary main_v106 main_v107 (broadcastInDim S50000x1 ![0] bcast_S50000_S50000x1_0),
    unary main_v107 main_v108 (broadcastInDim S50000x128 ![0, 1] bcast_S50000x1_S50000x128_0_1),
    binary main_v67 main_v108 main_v109 mulf,
    binary main_v105 main_v109 main_v110 addf,
    unary main_arg7 main_v111 (broadcastInDim S1x128 ![1] bcast_S128_S1x128_1),
    unary main_v111 main_v112 (broadcastInDim S50000x128 ![0, 1] bcast_S1x128_S50000x128_0_1),
    binary main_v110 main_v112 main_v113 addf ]

abbrev opsB2 : List (HloOp τ sig (Elt F)) :=
  [ nullary main_cst_24 (constant S_ .f32 0x00000000#32),
    binary main_v113 main_cst_24 main_v114 (fun (x : FVec F S50000x128 .f32) (v : FVec F S_ .f32) => Host.reduceAdd x v reducesTo_S50000x128_S128_d0 h_S_),
    nullary main_cst_25 (constant S_ .f32 0x47435000#32),
    unary main_cst_25 main_v115 (broadcastInDim S128 ![] bcast_S_S128),
    binary main_v114 main_v115 main_v116 Host.divf,
    nullary main_c_26 (constantI S_ 32 0#32),
    TRef.nullary (TRef.of (T := ⟨S_, .f32⟩) main_call4_cst) (constant S_ .f32 0x00000000#32),
    TRef.binary (TRef.of (T := ⟨S50000x128, .f32⟩) main_v113) (TRef.of (T := ⟨S_, .f32⟩) main_call4_cst) (TRef.of (T := ⟨S128, .f32⟩) main_call4_v0) (fun x v => Host.reduceAdd x v reducesTo_S50000x128_S128_d0 h_S_),
    TRef.unary (TRef.of (T := ⟨S128, .f32⟩) main_call4_v0) (TRef.of (T := ⟨S1x128, .f32⟩) main_call4_v1) (broadcastInDim S1x128 ![1] bcast_S128_S1x128_1),
    TRef.nullary (TRef.of (T := ⟨S_, .f32⟩) main_call4_cst_0) (constant S_ .f32 0x47435000#32),
    TRef.unary (TRef.of (T := ⟨S_, .f32⟩) main_call4_cst_0) (TRef.of (T := ⟨S1x128, .f32⟩) main_call4_v2) (broadcastInDim S1x128 ![] bcast_S_S1x128),
    TRef.binary (TRef.of (T := ⟨S1x128, .f32⟩) main_call4_v1) (TRef.of (T := ⟨S1x128, .f32⟩) main_call4_v2) (TRef.of (T := ⟨S1x128, .f32⟩) main_call4_v3) Host.divf,
    TRef.unary (TRef.of (T := ⟨S1x128, .f32⟩) main_call4_v3) (TRef.of (T := ⟨S50000x128, .f32⟩) main_call4_v4) (broadcastInDim S50000x128 ![0, 1] bcast_S1x128_S50000x128_0_1),
    TRef.binary (TRef.of (T := ⟨S50000x128, .f32⟩) main_v113) (TRef.of (T := ⟨S50000x128, .f32⟩) main_call4_v4) (TRef.of (T := ⟨S50000x128, .f32⟩) main_call4_v5) subf,
    TRef.binary (TRef.of (T := ⟨S50000x128, .f32⟩) main_call4_v5) (TRef.of (T := ⟨S50000x128, .f32⟩) main_call4_v5) (TRef.of (T := ⟨S50000x128, .f32⟩) main_call4_v6) mulf,
    TRef.unary (TRef.of (T := ⟨S_, .i32⟩) main_c_26) (TRef.of (T := ⟨S_, .f32⟩) main_call4_v7) (sitofp .f32),
    TRef.nullary (TRef.of (T := ⟨S_, .f32⟩) main_call4_cst_1) (constant S_ .f32 0x47435000#32),
    TRef.binary (TRef.of (T := ⟨S_, .f32⟩) main_call4_cst_1) (TRef.of (T := ⟨S_, .f32⟩) main_call4_v7) (TRef.of (T := ⟨S_, .f32⟩) main_call4_v8) subf,
    TRef.nullary (TRef.of (T := ⟨S_, .f32⟩) main_call4_cst_2) (constant S_ .f32 0x00000000#32),
    TRef.binary (TRef.of (T := ⟨S50000x128, .f32⟩) main_call4_v6) (TRef.of (T := ⟨S_, .f32⟩) main_call4_cst_2) (TRef.of (T := ⟨S128, .f32⟩) main_call4_v9) (fun x v => Host.reduceAdd x v reducesTo_S50000x128_S128_d0 h_S_),
    TRef.unary (TRef.of (T := ⟨S_, .f32⟩) main_call4_v8) (TRef.of (T := ⟨S128, .f32⟩) main_call4_v10) (broadcastInDim S128 ![] bcast_S_S128),
    TRef.binary (TRef.of (T := ⟨S128, .f32⟩) main_call4_v9) (TRef.of (T := ⟨S128, .f32⟩) main_call4_v10) (TRef.of (T := ⟨S128, .f32⟩) main_call4_v11) Host.divf,
    TRef.nullary (TRef.of (T := ⟨S_, .f32⟩) main_call4_cst_3) (constant S_ .f32 0x00000000#32),
    TRef.binary (TRef.of (T := ⟨S_, .f32⟩) main_call4_v8) (TRef.of (T := ⟨S_, .f32⟩) main_call4_cst_3) (TRef.of (T := ⟨S_, .i1⟩) main_call4_v12) (cmpf .ogt),
    TRef.nullary (TRef.of (T := ⟨S_, .f32⟩) main_call4_cst_4) (constant S_ .f32 0x7FC00000#32),
    TRef.unary (TRef.of (T := ⟨S_, .f32⟩) main_call4_cst_4) (TRef.of (T := ⟨S_, .f32⟩) main_call4_call0_v0) id,
    TRef.unary (TRef.of (T := ⟨S_, .f32⟩) main_call4_call0_v0) (TRef.of (T := ⟨S128, .f32⟩) main_call4_call0_v1) (broadcastInDim S128 ![] bcast_S_S128),
    TRef.ternary (TRef.of (T := ⟨S_, .i1⟩) main_call4_v12) (TRef.of (T := ⟨S128, .f32⟩) main_call4_v11) (TRef.of (T := ⟨S128, .f32⟩) main_call4_call0_v1) (TRef.of (T := ⟨S128, .f32⟩) main_v117) (fun p a b => select (broadcastInDim S128 ![] bcast_S_S128 p) a b),
    unary main_v116 main_v118 (broadcastInDim S1x128 ![1] bcast_S128_S1x128_1),
    unary main_v118 main_v119 (broadcastInDim S50000x128 ![0, 1] bcast_S1x128_S50000x128_0_1),
    binary main_v113 main_v119 main_v120 subf,
    nullary main_cst_27 (constant S_ .f32 0x3727C5AC#32),
    unary main_cst_27 main_v121 (broadcastInDim S128 ![] bcast_S_S128),
    binary main_v117 main_v121 main_v122 addf,
    unary main_v122 main_v123 Host.rsqrt,
    unary main_v123 main_v124 (broadcastInDim S1x128 ![1] bcast_S128_S1x128_1),
    unary main_v124 main_v125 (broadcastInDim S50000x128 ![0, 1] bcast_S1x128_S50000x128_0_1),
    binary main_v120 main_v125 main_v126 mulf,
    unary main_arg12 main_v127 (broadcastInDim S1x128 ![1] bcast_S128_S1x128_1),
    unary main_v127 main_v128 (broadcastInDim S50000x128 ![0, 1] bcast_S1x128_S50000x128_0_1),
    binary main_v126 main_v128 main_v129 mulf,
    unary main_arg13 main_v130 (broadcastInDim S1x128 ![1] bcast_S128_S1x128_1),
    unary main_v130 main_v131 (broadcastInDim S50000x128 ![0, 1] bcast_S1x128_S50000x128_0_1),
    binary main_v129 main_v131 main_v132 addf,
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v132) (TRef.of (T := ⟨S50000x128, .f32⟩) main_call5_v0) (TRef.of (T := ⟨S50000x128, .f32⟩) main_v133) maximumf ]

abbrev opsL3 : List (HloOp τ sig (Elt F)) :=
  [ binary main_v133 main_arg8 main_v134 (fun (l : FVec F S50000x128 .f32) (r : FVec F S128x64 .f32) => Host.dotGeneral dot_S50000x128_S128x64_S50000x64_1_0_0_1_n_n none l r),
    nullary main_cst_28 (constant S_ .f32 0x00000000#32),
    unary main_cst_28 main_v135 (broadcastInDim S50000 ![] bcast_S_S50000),
    unary main_arg2 main_v136 (broadcastInDim S800000x1 ![0] bcast_S800000_S800000x1_0),
    ternary main_v135 main_v136 main_arg3 main_v137 (fun (x : FVec F S50000 .f32) (i : IVec S800000x1 32) (u : FVec F S800000 .f32) => Host.scatterAdd scatter_S50000_S800000x1_S800000_n_0_0_1 x i u),
    nullary main_cst_29 (constant S_ .f32 0x3F800000#32),
    unary main_cst_29 main_v138 (broadcastInDim S50000 ![] bcast_S_S50000),
    binary main_v137 main_v138 main_v139 addf,
    nullary main_cst_30 (constant S_ .f32 0x00000000#32),
    unary main_cst_30 main_v140 (broadcastInDim S50000 ![] bcast_S_S50000),
    binary main_v139 main_v140 main_v141 (cmpf .ogt),
    unary main_v139 main_v142 Host.rsqrt,
    nullary main_cst_31 (constant S_ .f32 0x00000000#32),
    TRef.unary (TRef.of (T := ⟨S_, .f32⟩) main_cst_31) (TRef.of (T := ⟨S_, .f32⟩) main_call6_v0) id,
    TRef.unary (TRef.of (T := ⟨S_, .f32⟩) main_call6_v0) (TRef.of (T := ⟨S50000, .f32⟩) main_call6_v1) (broadcastInDim S50000 ![] bcast_S_S50000),
    TRef.ternary (TRef.of (T := ⟨S50000, .i1⟩) main_v141) (TRef.of (T := ⟨S50000, .f32⟩) main_v142) (TRef.of (T := ⟨S50000, .f32⟩) main_call6_v1) (TRef.of (T := ⟨S50000, .f32⟩) main_v143) select,
    nullary main_c_32 (constantI S_ 32 0#32),
    unary main_c_32 main_v144 (broadcastInDim S800000 ![] bcast_S_S800000),
    binary main_arg1 main_v144 main_v145 (cmpi .slt),
    nullary main_c_33 (constantI S_ 32 50000#32),
    unary main_c_33 main_v146 (broadcastInDim S800000 ![] bcast_S_S800000),
    binary main_arg1 main_v146 main_v147 addi,
    ternary main_v145 main_v147 main_arg1 main_v148 select,
    unary main_v148 main_v149 (broadcastInDim S800000x1 ![0] bcast_S800000_S800000x1_0),
    binary main_v143 main_v149 main_v150 (fun (x : FVec F S50000 .f32) (i : IVec S800000x1 32) => Host.gather gather_S50000_S800000x1_S800000_n_0_n_n_0_1_1 x i),
    binary main_v150 main_arg3 main_v151 mulf,
    nullary main_c_34 (constantI S_ 32 0#32),
    unary main_c_34 main_v152 (broadcastInDim S800000 ![] bcast_S_S800000),
    binary main_arg2 main_v152 main_v153 (cmpi .slt),
    nullary main_c_35 (constantI S_ 32 50000#32),
    unary main_c_35 main_v154 (broadcastInDim S800000 ![] bcast_S_S800000),
    binary main_arg2 main_v154 main_v155 addi,
    ternary main_v153 main_v155 main_arg2 main_v156 select,
    unary main_v156 main_v157 (broadcastInDim S800000x1 ![0] bcast_S800000_S800000x1_0),
    binary main_v143 main_v157 main_v158 (fun (x : FVec F S50000 .f32) (i : IVec S800000x1 32) => Host.gather gather_S50000_S800000x1_S800000_n_0_n_n_0_1_1 x i),
    binary main_v151 main_v158 main_v159 mulf,
    nullary main_c_36 (constantI S_ 32 0#32),
    unary main_c_36 main_v160 (broadcastInDim S800000 ![] bcast_S_S800000),
    binary main_arg1 main_v160 main_v161 (cmpi .slt),
    nullary main_c_37 (constantI S_ 32 50000#32),
    unary main_c_37 main_v162 (broadcastInDim S800000 ![] bcast_S_S800000),
    binary main_arg1 main_v162 main_v163 addi,
    ternary main_v161 main_v163 main_arg1 main_v164 select,
    unary main_v164 main_v165 (broadcastInDim S800000x1 ![0] bcast_S800000_S800000x1_0),
    binary main_v134 main_v165 main_v166 (fun (x : FVec F S50000x64 .f32) (i : IVec S800000x1 32) => Host.gather gather_S50000x64_S800000x1_S800000x64_1_0_n_n_0_1_164 x i),
    unary main_v159 main_v167 (broadcastInDim S800000x1 ![0] bcast_S800000_S800000x1_0),
    unary main_v167 main_v168 (broadcastInDim S800000x64 ![0, 1] bcast_S800000x1_S800000x64_0_1),
    binary main_v166 main_v168 main_v169 mulf,
    nullary main_cst_38 (constant S_ .f32 0x00000000#32),
    unary main_cst_38 main_v170 (broadcastInDim S50000x64 ![] bcast_S_S50000x64),
    unary main_arg2 main_v171 (broadcastInDim S800000x1 ![0] bcast_S800000_S800000x1_0),
    ternary main_v170 main_v171 main_v169 main_v172 (fun (x : FVec F S50000x64 .f32) (i : IVec S800000x1 32) (u : FVec F S800000x64 .f32) => Host.scatterAdd scatter_S50000x64_S800000x1_S800000x64_1_0_0_1 x i u),
    binary main_v143 main_v143 main_v173 mulf,
    unary main_v173 main_v174 (broadcastInDim S50000x1 ![0] bcast_S50000_S50000x1_0),
    unary main_v174 main_v175 (broadcastInDim S50000x64 ![0, 1] bcast_S50000x1_S50000x64_0_1),
    binary main_v134 main_v175 main_v176 mulf,
    binary main_v172 main_v176 main_v177 addf,
    unary main_arg9 main_v178 (broadcastInDim S1x64 ![1] bcast_S64_S1x64_1),
    unary main_v178 main_v179 (broadcastInDim S50000x64 ![0, 1] bcast_S1x64_S50000x64_0_1),
    binary main_v177 main_v179 main_v180 addf ]

abbrev ops : List (HloOp τ sig (Elt F)) := opsL1 ++ opsB1 ++ opsL2 ++ opsB2 ++ opsL3

set_option maxRecDepth 16384 in
set_option maxHeartbeats 4000000 in
theorem main_part0_eq (c : Dev nD) : main_part0 (F := F) c = seq (opsL1 ++ (opsB1.take 2)) := rfl
set_option maxRecDepth 16384 in
set_option maxHeartbeats 4000000 in
theorem main_part1_eq (c : Dev nD) : main_part1 (F := F) c = seq ((opsB1.drop 2) ++ (opsL2.take 40)) := rfl
set_option maxRecDepth 16384 in
set_option maxHeartbeats 4000000 in
theorem main_part2_eq (c : Dev nD) : main_part2 (F := F) c = seq ((opsL2.drop 40) ++ opsB2 ++ (opsL3.take 18)) := rfl
set_option maxRecDepth 16384 in
set_option maxHeartbeats 4000000 in
theorem main_part3_eq (c : Dev nD) : main_part3 (F := F) c = seq ((opsL3.drop 18)) := rfl

theorem ops_cut : (ops : List (HloOp τ sig (Elt F))) = (opsL1 ++ (opsB1.take 2)) ++ (((opsB1.drop 2) ++ (opsL2.take 40)) ++ (((opsL2.drop 40) ++ opsB2 ++ (opsL3.take 18)) ++ (((opsL3.drop 18))))) := by
  show opsL1 ++ opsB1 ++ opsL2 ++ opsB2 ++ opsL3 = _
  conv_lhs => rw [← List.take_append_drop 2 opsB1, ← List.take_append_drop 40 opsL2, ← List.take_append_drop 18 opsL3]
  simp only [List.append_assoc]

theorem main_eq (c : Dev nD) : main (F := F) c = seq ops := by
  rw [ops_cut, seq_append (opsL1 ++ (opsB1.take 2)), seq_append ((opsB1.drop 2) ++ (opsL2.take 40)), seq_append ((opsL2.drop 40) ++ opsB2 ++ (opsL3.take 18)),
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  repeat' rw [List.forall_append]
  repeat' apply And.intro
  all_goals
    show HloOp.bufs _ ⊆ _
    with_reducible first | exact nullary_bufs_sub .. | exact unary_bufs_sub .. | exact binary_bufs_sub .. | exact ternary_bufs_sub ..

theorem ops_fresh : ∀ op ∈ (ops : List (HloOp τ sig (Elt F))), op.fresh = ∅ := by
  refine List.forall_iff_forall_mem.1 ?_
  repeat' rw [List.forall_append]
  repeat' apply And.intro
  all_goals rfl

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.Ref.Keep.lean ====
import proofs.«141437_j50036368998564_1_alg».proof.Proof.Ref.Run
import Idealize.ShloMosaic.Lib.Pipeline.Frame

set_option maxRecDepth 4000

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

theorem wr {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

abbrev opsL1_W : List (Ref sig .tc) :=
  [main_v0, main_cst, main_v1, main_v2, main_v3, main_cst_0, main_v4, main_v5, main_cst_1, main_v6, main_v7, main_v8,
   main_cst_2, main_call0_v0, main_call0_v1, main_v9, main_c, main_v10, main_v11, main_c_3, main_v12, main_v13, main_v14,
   main_v15, main_v16, main_v17, main_c_4, main_v18, main_v19, main_c_5, main_v20, main_v21, main_v22, main_v23, main_v24,
   main_v25, main_c_6, main_v26, main_v27, main_c_7, main_v28, main_v29, main_v30, main_v31, main_v32, main_v33, main_v34,
   main_v35, main_cst_8, main_v36, main_v37, main_v38, main_v39, main_v40, main_v41, main_v42, main_v43, main_v44,
   main_v45, main_v46]
theorem opsL1_writes : (opsL1 : List (HloOp τ sig (Elt F))).Forall fun op => op.writes ⊆ (opsL1_W.map (Proc.devRef (τ := τ) .tc)).toFinset := by
  and_intros <;> exact wr (by decide)

abbrev opsB1_W : List (Ref sig .tc) :=
  [main_cst_9, main_v47, main_cst_10, main_v48, main_v49, main_c_11, main_call1_cst, main_call1_v0, main_call1_v1,
   main_call1_cst_0, main_call1_v2, main_call1_v3, main_call1_v4, main_call1_v5, main_call1_v6, main_call1_v7,
   main_call1_cst_1, main_call1_v8, main_call1_cst_2, main_call1_v9, main_call1_v10, main_call1_v11, main_call1_cst_3,
   main_call1_v12, main_call1_cst_4, main_call1_call0_v0, main_call1_call0_v1, main_v50, main_v51, main_v52, main_v53,
   main_cst_12, main_v54, main_v55, main_v56, main_v57, main_v58, main_v59, main_v60, main_v61, main_v62, main_v63,
   main_v64, main_v65, main_call2_cst, main_call2_v0, main_v66]
theorem opsB1_writes : (opsB1 : List (HloOp τ sig (Elt F))).Forall fun op => op.writes ⊆ (opsB1_W.map (Proc.devRef (τ := τ) .tc)).toFinset := by
  and_intros <;> exact wr (by decide)

abbrev opsL2_W : List (Ref sig .tc) :=
  [main_v67, main_cst_13, main_v68, main_v69, main_v70, main_cst_14, main_v71, main_v72, main_cst_15, main_v73, main_v74,
   main_v75, main_cst_16, main_call3_v0, main_call3_v1, main_v76, main_c_17, main_v77, main_v78, main_c_18, main_v79,
   main_v80, main_v81, main_v82, main_v83, main_v84, main_c_19, main_v85, main_v86, main_c_20, main_v87, main_v88,
   main_v89, main_v90, main_v91, main_v92, main_c_21, main_v93, main_v94, main_c_22, main_v95, main_v96, main_v97,
   main_v98, main_v99, main_v100, main_v101, main_v102, main_cst_23, main_v103, main_v104, main_v105, main_v106,
   main_v107, main_v108, main_v109, main_v110, main_v111, main_v112, main_v113]
theorem opsL2_writes : (opsL2 : List (HloOp τ sig (Elt F))).Forall fun op => op.writes ⊆ (opsL2_W.map (Proc.devRef (τ := τ) .tc)).toFinset := by
  and_intros <;> exact wr (by decide)

abbrev opsB2_W : List (Ref sig .tc) :=
  [main_cst_24, main_v114, main_cst_25, main_v115, main_v116, main_c_26, main_call4_cst, main_call4_v0, main_call4_v1,
   main_call4_cst_0, main_call4_v2, main_call4_v3, main_call4_v4, main_call4_v5, main_call4_v6, main_call4_v7,
   main_call4_cst_1, main_call4_v8, main_call4_cst_2, main_call4_v9, main_call4_v10, main_call4_v11, main_call4_cst_3,
   main_call4_v12, main_call4_cst_4, main_call4_call0_v0, main_call4_call0_v1, main_v117, main_v118, main_v119, main_v120,
   main_cst_27, main_v121, main_v122, main_v123, main_v124, main_v125, main_v126, main_v127, main_v128, main_v129,
   main_v130, main_v131, main_v132, main_call5_cst, main_call5_v0, main_v133]
theorem opsB2_writes : (opsB2 : List (HloOp τ sig (Elt F))).Forall fun op => op.writes ⊆ (opsB2_W.map (Proc.devRef (τ := τ) .tc)).toFinset := by
  and_intros <;> exact wr (by decide)

abbrev opsL3_W : List (Ref sig .tc) :=
  [main_v134, main_cst_28, main_v135, main_v136, main_v137, main_cst_29, main_v138, main_v139, main_cst_30, main_v140,
   main_v141, main_v142, main_cst_31, main_call6_v0, main_call6_v1, main_v143, main_c_32, main_v144, main_v145, main_c_33,
   main_v146, main_v147, main_v148, main_v149, main_v150, main_v151, main_c_34, main_v152, main_v153, main_c_35,
   main_v154, main_v155, main_v156, main_v157, main_v158, main_v159, main_c_36, main_v160, main_v161, main_c_37,
   main_v162, main_v163, main_v164, main_v165, main_v166, main_v167, main_v168, main_v169, main_cst_38, main_v170,
   main_v171, main_v172, main_v173, main_v174, main_v175, main_v176, main_v177, main_v178, main_v179, main_v180]
theorem opsL3_writes : (opsL3 : List (HloOp τ sig (Elt F))).Forall fun op => op.writes ⊆ (opsL3_W.map (Proc.devRef (τ := τ) .tc)).toFinset := by
  and_intros <;> exact wr (by decide)

theorem ops_eq (V : Valuation τ sig (Elt F)) :
    after ops V = after opsL3 (after opsB2 (after opsL2 (after opsB1 (after opsL1 V)))) := by
  show after (opsL1 ++ opsB1 ++ opsL2 ++ opsB2 ++ opsL3) V = _
  rw [after_append, after_append, after_append, after_append]

-- A reference that is the result of no operation: none of the five stretches writes it.
abbrev Kept (r : Ref sig .tc) : Prop := r ∉ opsL1_W ∧ r ∉ opsB1_W ∧ r ∉ opsL2_W ∧ r ∉ opsB2_W ∧ r ∉ opsL3_W

variable {r : Ref sig .tc} (h : Kept r) (V : Valuation τ sig (Elt F))
include h

theorem keep1 : after opsL1 V r = V r := after_of_writes_sub _ _ opsL1_writes h.1
theorem keep2 : after opsB1 (after opsL1 V) r = V r := (after_of_writes_sub _ _ opsB1_writes h.2.1).trans (keep1 h V)
theorem keep3 : after opsL2 (after opsB1 (after opsL1 V)) r = V r := (after_of_writes_sub _ _ opsL2_writes h.2.2.1).trans (keep2 h V)
theorem keep4 : after opsB2 (after opsL2 (after opsB1 (after opsL1 V))) r = V r :=
  (after_of_writes_sub _ _ opsB2_writes h.2.2.2.1).trans (keep3 h V)
theorem ops_of : after ops V r = V r := by
  rw [ops_eq, after_of_writes_sub _ _ opsL3_writes h.2.2.2.2, keep4 h V]

end Cert.ReferenceIdeal.RefVal

end
-- ==== Proof.Spec.lean ====
import Idealize.ShloMosaic.PureOps.Ideal

noncomputable section

namespace Cert.Spec

open Idealize.ShloMosaic

abbrev M (n d : Nat) : Type := Fin n → Fin d → EReal

def mm {n a b : Nat} (x : M n a) (w : M a b) : M n b := fun i j => ∑ k : Fin a, x i k * w k j

def conv {n e a b : Nat} (G : M n b → M e b) (Sc : M e b → M n b) (norm : Fin e → EReal) (dsq : Fin n → EReal)
    (x : M n a) (W : M a b) (bias : Fin b → EReal) : M n b :=
  fun i j => Sc (fun ed k => G (mm x W) ed k * norm ed) i j + mm x W i j * dsq i + bias j

def colsum {n d : Nat} (h : M n d) : Fin d → EReal := fun j => ∑ i : Fin n, h i j

def colsumsq {n d : Nat} (h : M n d) : Fin d → EReal := fun j => ∑ i : Fin n, h i j * h i j

def meanOf {n d : Nat} (cN : EReal) (h : M n d) : Fin d → EReal := fun j => Ideal.div (colsum h j) cN

def varK {n d : Nat} (cN : EReal) (h : M n d) : Fin d → EReal :=
  fun j => Ideal.div (colsumsq h j) cN - meanOf cN h j * meanOf cN h j

def varR {n d : Nat} (cN : EReal) (h : M n d) : Fin d → EReal :=
  fun j => Ideal.div (∑ i : Fin n, (h i j - meanOf cN h j) * (h i j - meanOf cN h j)) cN

def bnWith {n d : Nat} (var : Fin d → EReal) (cN ceps : EReal) (h : M n d) (gamma beta : Fin d → EReal) : M n d :=
  fun i j => max ((h i j - meanOf cN h j) * Ideal.rsqrt (var j + ceps) * gamma j + beta j) 0

def bnK {n d : Nat} (cN ceps : EReal) (h : M n d) (gamma beta : Fin d → EReal) : M n d :=
  bnWith (varK cN h) cN ceps h gamma beta
def bnR {n d : Nat} (cN ceps : EReal) (h : M n d) (gamma beta : Fin d → EReal) : M n d :=
  bnWith (varR cN h) cN ceps h gamma beta

def net {n e a b c : Nat} (bn : M n b → (Fin b → EReal) → (Fin b → EReal) → M n b)
    (G : M n b → M e b) (Sc : M e b → M n b) (G' : M n c → M e c) (Sc' : M e c → M n c)
    (norm : Fin e → EReal) (dsq : Fin n → EReal)
    (x : M n a) (W0 : M a b) (b0 : Fin b → EReal) (W1 : M b b) (b1 : Fin b → EReal) (W2 : M b c) (b2 : Fin c → EReal)
    (g0 be0 g1 be1 : Fin b → EReal) : M n c :=
  conv G' Sc' norm dsq (bn (conv G Sc norm dsq (bn (conv G Sc norm dsq x W0 b0) g0 be0) W1 b1) g1 be1) W2 b2

end Cert.Spec

end
-- ==== Proof.KI.Keep.lean ====
import proofs.«141437_j50036368998564_1_alg».proof.Proof.KI.Run

set_option maxRecDepth 16384

noncomputable section

namespace Cert.KernelIdeal.GenP

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

-- The contents at the boundary after the first `k` items of the program.
def Wn : ℕ → Valuation τ sig (Elt F)
  | 0 => W0 m c | 1 => W1 m c | 2 => W2 m c | 3 => W3 m c | 4 => W4 m c | 5 => W5 m c | 6 => W6 m c | 7 => W7 m c
  | 8 => W8 m c | 9 => W9 m c | 10 => W10 m c | 11 => W11 m c | 12 => W12 m c | 13 => W13 m c | 14 => W14 m c
  | 15 => W15 m c | 16 => W16 m c | _ => W17 m c

-- Item `k` does not write `b`.
def skips : ℕ → Ref sig .tc → Bool
  | 0, b => b ∉ hostOps0_W
  | 1, b => b ∉ hostOps0_1_W
  | 2, b => b ∉ hostOps0_2_W
  | 3, b => ∀ w, Pipeline.arrRef spec0 w ≠ b
  | 4, b => b ∉ hostOps1_W
  | 5, b => ∀ w, Pipeline.arrRef spec1 w ≠ b
  | 6, b => ∀ w, Pipeline.arrRef spec2 w ≠ b
  | 7, b => b ∉ hostOps3_W
  | 8, b => ∀ w, Pipeline.arrRef spec3 w ≠ b
  | 9, b => ∀ w, Pipeline.arrRef spec4 w ≠ b
  | 10, b => b ∉ hostOps5_W
  | 11, b => ∀ w, Pipeline.arrRef spec5 w ≠ b
  | 12, b => ∀ w, Pipeline.arrRef spec6 w ≠ b
  | 13, b => b ∉ hostOps7_W
  | 14, b => ∀ w, Pipeline.arrRef spec7 w ≠ b
  | 15, b => ∀ w, Pipeline.arrRef spec8 w ≠ b
  | 16, b => b ∉ hostOps9_W
  | _, _ => false

theorem Wn_succ (b : Ref sig .tc) : ∀ k, skips k b → Wn m c (k + 1) b = Wn m c k b
  | 0, h => W1_of m c b (of_decide_eq_true h)
  | 1, h => W2_of m c b (of_decide_eq_true h)
  | 2, h => W3_of m c b (of_decide_eq_true h)
  | 3, h => W4_of_ne m c b (of_decide_eq_true h)
  | 4, h => W5_of m c b (of_decide_eq_true h)
  | 5, h => W6_of_ne m c b (of_decide_eq_true h)
  | 6, h => W7_of_ne m c b (of_decide_eq_true h)
  | 7, h => W8_of m c b (of_decide_eq_true h)
  | 8, h => W9_of_ne m c b (of_decide_eq_true h)
  | 9, h => W10_of_ne m c b (of_decide_eq_true h)
  | 10, h => W11_of m c b (of_decide_eq_true h)
  | 11, h => W12_of_ne m c b (of_decide_eq_true h)
  | 12, h => W13_of_ne m c b (of_decide_eq_true h)
  | 13, h => W14_of m c b (of_decide_eq_true h)
  | 14, h => W15_of_ne m c b (of_decide_eq_true h)
  | 15, h => W16_of_ne m c b (of_decide_eq_true h)
  | 16, h => W17_of m c b (of_decide_eq_true h)
  | _ + 17, h => nomatch h

abbrev Skips (b : Ref sig .tc) (i n : ℕ) : Prop := ∀ k < n, skips (i + k) b

-- An array none of the items `i`, …, `i + n - 1` writes holds after them what it held before them.
theorem keep (b : Ref sig .tc) (i : ℕ) : ∀ n, Skips b i n → Wn m c (i + n) b = Wn m c i b
  | 0, _ => rfl
  | n + 1, h => (Wn_succ m c b (i + n) (h n n.lt_succ_self)).trans (keep b i n fun k hk => h k (Nat.lt_succ_of_lt hk))

variable (b : Ref sig .tc)
theorem W3_arg (h : Skips b 0 3) : W3 m c b = m ((c : Thread nD τ).loc b) := keep m c b 0 3 h
theorem W4_arg (h : Skips b 0 4) : W4 m c b = m ((c : Thread nD τ).loc b) := keep m c b 0 4 h
theorem W7_arg (h : Skips b 0 7) : W7 m c b = m ((c : Thread nD τ).loc b) := keep m c b 0 7 h
theorem W9_arg (h : Skips b 0 9) : W9 m c b = m ((c : Thread nD τ).loc b) := keep m c b 0 9 h
theorem W10_arg (h : Skips b 0 10) : W10 m c b = m ((c : Thread nD τ).loc b) := keep m c b 0 10 h
theorem W13_arg (h : Skips b 0 13) : W13 m c b = m ((c : Thread nD τ).loc b) := keep m c b 0 13 h
theorem W15_arg (h : Skips b 0 15) : W15 m c b = m ((c : Thread nD τ).loc b) := keep m c b 0 15 h
theorem W16_arg (h : Skips b 0 16) : W16 m c b = m ((c : Thread nD τ).loc b) := keep m c b 0 16 h
theorem W10_W3 (h : Skips b 3 7) : W10 m c b = W3 m c b := keep m c b 3 7 h
theorem W16_W3 (h : Skips b 3 13) : W16 m c b = W3 m c b := keep m c b 3 13 h

theorem W8_main_v42 : W8 m c main_v42 = W6 m c main_v42 :=
  (W8_of m c main_v42 (by decide)).trans ((W7_arr m c 0).trans (((dat2 (V6 m) c).arrAt_in 0 rfl _).trans (A_eq2 (V6 m) c 0)))
theorem W14_main_v72 : W14 m c main_v72 = W12 m c main_v72 :=
  (W14_of m c main_v72 (by decide)).trans ((W13_arr m c 0).trans (((dat6 (V12 m) c).arrAt_in 0 rfl _).trans (A_eq6 (V12 m) c 0)))

end Cert.KernelIdeal.GenP

end
-- ==== Proof.KI.LibTile.lean ====
import Idealize.ShloMosaic.Lib.ValueIdx
import Idealize.ShloMosaic.Lib.ValueLayout
import Idealize.ShloMosaic.Lib.Pipeline.Value
import Idealize.ShloMosaic.PureOps.Ideal.Laws

noncomputable section

namespace Cert.Tile

open Idealize.ShloMosaic Idealize.ShloMosaic.ValueIdx

theorem zero2 : (![0, 0] : Fin 2 → ℕ) = fun _ => 0 := funext fun a => by fin_cases a <;> rfl

-- A plain M×K by K×N product into a zero accumulator is, entry by entry, the sum over the contraction coordinate.
theorem mm_apply {M K N : ℕ} {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (p : Fin M) (q : Fin N) :
    FloatOps.matmul D none l r (constant (F := Ideal) ⟨2, ![M, N]⟩ .f32 0x00000000#32) (ix2 p q) = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  rw [show (DotDims.plain M K N).lhsIdx (ix2 p q) ((contrEquiv1 (DotDims.plain M K N) K rfl rfl).symm k) = ix2 p k from Shape.idx_ext₂ rfl hk,
    show (DotDims.plain M K N).rhsIdx (ix2 p q) ((contrEquiv1 (DotDims.plain M K N) K rfl rfl).symm k) = ix2 k q from Shape.idx_ext₂ hk rfl]

-- A column broadcast along the rows reads, at (p, c), the column's entry at row p.
theorem broadcastTo_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- Row r of an array lies in the block of B full-width rows that starts at row (r / B) * B.
theorem mem_rowBlock {n W B : ℕ} (hB : 0 < B) (i : (⟨2, ![n, W]⟩ : Shape).Idx) {off size : Fin 2 → ℕ} {inb}
    (h0 : off 0 = (i 0).val / B * B) (s0 : size 0 = B) (h1 : off 1 = 0) (s1 : size 1 = W) :
    i ∈ (Rect.unit (s := ⟨2, ![n, W]⟩) off size inb).set :=
  Rect.mem_set_unit.2 fun a => match a with
    | ⟨0, _⟩ => by
      show off 0 ≤ (i 0).val ∧ (i 0).val < off 0 + size 0
      rw [h0, s0]; exact ⟨Nat.div_mul_le_self _ _, Nat.lt_div_mul_add hB⟩
    | ⟨1, _⟩ => by
      show off 1 ≤ (i 1).val ∧ (i 1).val < off 1 + size 1
      rw [h1, s1]; exact ⟨Nat.zero_le _, by have := idx2_lt1 i; omega⟩

end Cert.Tile
-- ==== Proof.KI.Val0.lean ====
import proofs.«141437_j50036368998564_1_alg».proof.Proof.KI.Region0
import proofs.«141437_j50036368998564_1_alg».proof.Proof.KI.LibTile

set_option maxRecDepth 16384

noncomputable section

namespace Cert.KernelIdeal.GenP

open Cert.KernelIdeal Cert.KernelIdeal.Gen Idealize.ShloMosaic Idealize.ShloMosaic.TcCoe Idealize.SL.Sem
open Idealize.ShloMosaic.Pipeline (Dat)
open Idealize.ShloMosaic.ValueIdx Cert.Tile

variable (V : (c : Dev nD) → (b : Ref sig .tc) → Buf (Elt Ideal) ((c : Thread nD τ).loc b))

abbrev G0 (a0 : S50000x64.Idx → EReal) (a1 : S64x128.Idx → EReal) : S50000x128.Idx → EReal :=
  fun i => ∑ k : Fin 64, a0 (ix2 (i 0) k) * a1 (ix2 k (i 1))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- The block of point t is block t of the product of the two arrays.
theorem flushed_eq0 (c : Dev nD) (t : Fin cfg0.N) :
    (dat0 (F := Ideal) V c).flushed 2 t = ((cfg0.win 2).blk t).view.read (Elt Ideal) (G0 (V c main_arg0) (V c main_arg4)) := by
  show (cfg0.win 2).cut (grid0.coords t) ((dat0 (F := Ideal) V c).after 2 t) = _
  rw [after0_2]
  unfold out0_2
  rw [View.canon_unit_zero zero2]
  simp only [View.ld_unit_zero (S := S10000x64) zero2, View.ld_unit_zero (S := S64x128) zero2]
  obtain ⟨e0, e1, e2, e3, e4, e5⟩ := idx_facts0 t
  funext j
  obtain ⟨p, q, rfl⟩ : ∃ (p : Fin 10000) (q : Fin 128), j = ix2 p q := ⟨j 0, j 1, eq_ix2 j⟩
  show k0_pay1 (F := Ideal) _ _ _ = G0 (V c main_arg0) (V c main_arg4) (((cfg0.win 2).blk t).view.emb (ix2 p q))
  unfold k0_pay1
  refine (mm_apply _ rfl _ _ p q).trans (Finset.sum_congr rfl fun k _ => ?_)
  simp only [shapeCast_self, truncf_apply]
  have h0 : ((cfg0.win 0).blk t).view.emb (ix2 p k) = ix2 ((((cfg0.win 2).blk t).view.emb (ix2 p q)) 0) k :=
    Shape.idx_ext₂ (show win0_0.index t (0 : Fin 2) * 10000 + 1 * p.val = win0_2.index t (0 : Fin 2) * 10000 + 1 * p.val by omega)
      (show win0_0.index t (1 : Fin 2) * 64 + 1 * k.val = k.val by omega)
  have h1 : ((cfg0.win 1).blk t).view.emb (ix2 k q) = ix2 k ((((cfg0.win 2).blk t).view.emb (ix2 p q)) 1) :=
    Shape.idx_ext₂ (show win0_1.index t (0 : Fin 2) * 64 + 1 * k.val = k.val by omega)
      (show win0_1.index t (1 : Fin 2) * 128 + 1 * q.val = win0_2.index t (1 : Fin 2) * 128 + 1 * q.val by omega)
  exact congrArg₂ (fun a b : EReal => a * b) (congrArg (V c main_arg0) h0) (congrArg (V c main_arg4) h1)

-- Row r lies in the block of point r / 10000.
theorem cover0 (i : S50000x128.Idx) : ∃ t : Fin cfg0.N, (cfg0.win 2).flush t = true ∧ i ∈ ((cfg0.win 2).blk t).view.set := by
  have hN : cfg0.N = 5 := N_0
  have hi := idx2_lt0 i
  let t : Fin cfg0.N := ⟨(i 0).val / 10000, by omega⟩
  obtain ⟨-, -, -, -, e4, e5⟩ := idx_facts0 t
  refine ⟨t, flush0_2 t, ?_⟩
  show i ∈ ((View.whole main_v26).slice (win0_2.rect t)).set
  rw [View.set_slice_whole]
  exact mem_rowBlock (B := 10000) (by decide) i (congrArg (· * 10000) e4) rfl (by show win0_2.index t (1 : Fin 2) * 128 = 0; omega) rfl

theorem val0 (V : (c : Dev nD) → (b : Ref sig .tc) → Buf (Elt Ideal) ((c : Thread nD τ).loc b)) (c : Dev nD) (i : Fin 50000) (j : Fin 128) :
    (dat0 (F := Ideal) V c).arrAt 2 cfg0.N (ValueIdx.ix2 i j)
      = ∑ k : Fin 64, @HMul.hMul EReal EReal EReal _ (V c main_arg0 (ValueIdx.ix2 i k)) (V c main_arg4 (ValueIdx.ix2 k j)) :=
  congrFun ((dat0 (F := Ideal) V c).arrAt_eq_of_cover 2 (G0 (V c main_arg0) (V c main_arg4)) (fun t _ => flushed_eq0 V c t) cover0) (ix2 i j)

end Cert.KernelIdeal.GenP
-- ==== Proof.KI.Val1.lean ====
import proofs.«141437_j50036368998564_1_alg».proof.Proof.KI.Region1
import proofs.«141437_j50036368998564_1_alg».proof.Proof.KI.LibTile

noncomputable section

namespace Cert.KernelIdeal.GenP

open Cert.KernelIdeal Cert.KernelIdeal.Gen Idealize.ShloMosaic Idealize.ShloMosaic.TcCoe Idealize.SL.Sem
open Idealize.ShloMosaic.Pipeline (Dat)
open Idealize.ShloMosaic.ValueIdx Cert.Tile

variable (V : (c : Dev nD) → (b : Ref sig .tc) → Buf (Elt Ideal) ((c : Thread nD τ).loc b))

abbrev G1 (a0 a1 : S50000x128.Idx → Ideal .f32) (a2 : S50000x1.Idx → Ideal .f32) (a3 : S1x128.Idx → Ideal .f32) : S50000x128.Idx → Ideal .f32 :=
  fun i => a0 i + a1 i * a2 (ix2 (i 0) (0 : Fin 1)) + a3 (ix2 (0 : Fin 1) (i 1))

theorem G1_apply (a0 a1 : S50000x128.Idx → Ideal .f32) (a2 : S50000x1.Idx → Ideal .f32) (a3 : S1x128.Idx → Ideal .f32) (i : Fin 50000) (j : Fin 128) :
    G1 a0 a1 a2 a3 (ix2 i j) = a0 (ix2 i j) + a1 (ix2 i j) * a2 (ix2 i (0 : Fin 1)) + a3 (ix2 (0 : Fin 1) j) := rfl

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

-- The block of point t is block t of G1 of the four arrays.
theorem flushed1_4_eq (c : Dev nD) (t : Fin cfg1.N) :
    (dat1 (F := Ideal) V c).flushed 4 t = ((cfg1.win 4).blk t).view.read (Elt Ideal) (G1 (V c main_v39) (V c main_v26) (V c main_v40) (V c main_v41)) := by
  show (cfg1.win 4).cut (grid1.coords t) ((dat1 V c).after 4 t) = _
  rw [after1_4]
  unfold out1_4
  rw [View.canon_unit_zero zero2]
  simp only [View.ld_unit_zero (S := S10000x128) zero2, View.ld_unit_zero (S := S10000x1) zero2, View.ld_unit_zero (S := S1x128) zero2]
  obtain ⟨e00, e01, e10, e11, e20, e21, e30, e31, e40, e41⟩ := idx_facts1 t
  funext y
  obtain ⟨p, q, rfl⟩ : ∃ (p : Fin 10000) (q : Fin 128), y = ix2 p q := ⟨y 0, y 1, eq_ix2 y⟩
  show k1_pay1 (F := Ideal) _ _ _ _ (ix2 p q) = G1 (V c main_v39) (V c main_v26) (V c main_v40) (V c main_v41) (((cfg1.win 4).blk t).view.emb (ix2 p q))
  unfold k1_pay1
  simp only [addf_apply, mulf_apply, shapeCast_self]
  rw [broadcastTo_col_apply, broadcastTo_1b_ab_apply]
  have h0 : ((cfg1.win 0).blk t).view.emb (ix2 p q) = ((cfg1.win 4).blk t).view.emb (ix2 p q) :=
    Shape.idx_ext₂ (show win1_0.index t (0 : Fin 2) * 10000 + 1 * p.val = win1_4.index t (0 : Fin 2) * 10000 + 1 * p.val by omega)
      (show win1_0.index t (1 : Fin 2) * 128 + 1 * q.val = win1_4.index t (1 : Fin 2) * 128 + 1 * q.val by omega)
  have h1 : ((cfg1.win 1).blk t).view.emb (ix2 p q) = ((cfg1.win 4).blk t).view.emb (ix2 p q) :=
    Shape.idx_ext₂ (show win1_1.index t (0 : Fin 2) * 10000 + 1 * p.val = win1_4.index t (0 : Fin 2) * 10000 + 1 * p.val by omega)
      (show win1_1.index t (1 : Fin 2) * 128 + 1 * q.val = win1_4.index t (1 : Fin 2) * 128 + 1 * q.val by omega)
  have h2 : ((cfg1.win 2).blk t).view.emb (ix2 p (0 : Fin 1)) = ix2 ((((cfg1.win 4).blk t).view.emb (ix2 p q)) 0) (0 : Fin 1) :=
    Shape.idx_ext₂ (show win1_2.index t (0 : Fin 2) * 10000 + 1 * p.val = win1_4.index t (0 : Fin 2) * 10000 + 1 * p.val by omega)
      (show win1_2.index t (1 : Fin 2) * 1 + 1 * 0 = 0 by omega)
  have h3 : ((cfg1.win 3).blk t).view.emb (ix2 (0 : Fin 1) q) = ix2 (0 : Fin 1) ((((cfg1.win 4).blk t).view.emb (ix2 p q)) 1) :=
    Shape.idx_ext₂ (show win1_3.index t (0 : Fin 2) * 1 + 1 * 0 = 0 by omega)
      (show win1_3.index t (1 : Fin 2) * 128 + 1 * q.val = win1_4.index t (1 : Fin 2) * 128 + 1 * q.val by omega)
  exact congrArg₂ (· + ·) (congrArg₂ (· + ·) (congrArg (V c main_v39) h0) (congrArg₂ (· * ·) (congrArg (V c main_v26) h1) (congrArg (V c main_v40) h2)))
    (congrArg (V c main_v41) h3)

-- Row r lies in the block of point r / 10000.
theorem cover1_4_arr (i : S50000x128.Idx) : ∃ t : Fin cfg1.N, (cfg1.win 4).flush t = true ∧ i ∈ ((cfg1.win 4).blk t).view.set := by
  have hN : cfg1.N = 5 := rfl
  have hi := idx2_lt0 i
  let t : Fin cfg1.N := ⟨(i 0).val / 10000, by omega⟩
  obtain ⟨-, -, -, -, -, -, -, -, e40, e41⟩ := idx_facts1 t
  refine ⟨t, flush1_4 t, ?_⟩
  show i ∈ ((View.whole main_v42).slice (win1_4.rect t)).set
  rw [View.set_slice_whole]
  exact mem_rowBlock (B := 10000) (by decide) i (congrArg (· * 10000) e40) rfl (by show win1_4.index t (1 : Fin 2) * 128 = 0; omega) rfl

theorem val1 (c : Dev nD) (i : Fin 50000) (j : Fin 128) :
    (dat1 (F := Ideal) V c).arrAt 4 cfg1.N (ValueIdx.ix2 i j)
      = G1 (V c main_v39) (V c main_v26) (V c main_v40) (V c main_v41) (ValueIdx.ix2 i j) :=
  congrFun ((dat1 V c).arrAt_eq_of_cover 4 _ (fun t _ => flushed1_4_eq V c t) cover1_4_arr) (ix2 i j)

end Cert.KernelIdeal.GenP
-- ==== Proof.LibBlockSum.lean ====
import Mathlib.Algebra.BigOperators.Fin
import Mathlib.Logic.Equiv.Fin.Basic

namespace Cert.BlockSum

open scoped BigOperators

variable {M : Type*} [AddCommMonoid M]

def pos {N : ℕ} (n b : ℕ) (h : N = n * b) (t : Fin n) (r : Fin b) : Fin N :=
  ⟨t.val * b + r.val, by
    subst h
    calc t.val * b + r.val < t.val * b + b := Nat.add_lt_add_left r.isLt _
      _ = (t.val + 1) * b := (Nat.succ_mul _ _).symm
      _ ≤ n * b := Nat.mul_le_mul_right _ t.isLt⟩

@[simp] theorem pos_val {N : ℕ} (n b : ℕ) (h : N = n * b) (t : Fin n) (r : Fin b) :
    (pos n b h t r).val = t.val * b + r.val := rfl

theorem sum_blocks {N : ℕ} (n b : ℕ) (h : N = n * b) (f : Fin N → M) :
    ∑ i : Fin N, f i = ∑ t : Fin n, ∑ r : Fin b, f (pos n b h t r) := by
  subst h
  rw [← Fintype.sum_prod_type']
  refine (Fintype.sum_equiv finProdFinEquiv _ _ fun x => ?_).symm
  congr 1
  apply Fin.ext
  show x.1.val * b + x.2.val = x.2.val + b * x.1.val
  rw [Nat.mul_comm, Nat.add_comm]

theorem chain_eq_sum (N : ℕ) (a g : (k : ℕ) → k < N → M)
    (h0 : ∀ h, a 0 h = 0 + g 0 h)
    (hs : ∀ (k : ℕ) (h : k + 1 < N), a (k + 1) h = a k (Nat.lt_of_succ_lt h) + g (k + 1) h) :
    ∀ (k : ℕ) (h : k < N), a k h = ∑ t : Fin (k + 1), g t.val (Nat.lt_of_lt_of_le t.isLt h)
  | 0, h => by
    rw [h0, zero_add, Fin.sum_univ_castSucc, Fin.sum_univ_zero, zero_add]
    rfl
  | k + 1, h => by
    rw [hs, chain_eq_sum N a g h0 hs k, Fin.sum_univ_castSucc (n := k + 1)]
    rfl

theorem chain_last (n : ℕ) (a g : (k : ℕ) → k < n + 1 → M)
    (h0 : ∀ h, a 0 h = 0 + g 0 h)
    (hs : ∀ (k : ℕ) (h : k + 1 < n + 1), a (k + 1) h = a k (Nat.lt_of_succ_lt h) + g (k + 1) h) :
    a n (Nat.lt_succ_self n) = ∑ t : Fin (n + 1), g t.val t.isLt :=
  chain_eq_sum (n + 1) a g h0 hs n (Nat.lt_succ_self n)

theorem chain_blocks_eq_sum {N : ℕ} (n b : ℕ) (hN : N = (n + 1) * b) (f : Fin N → M)
    (a : (k : ℕ) → k < n + 1 → M)
    (h0 : ∀ h, a 0 h = 0 + ∑ r : Fin b, f (pos (n + 1) b hN ⟨0, h⟩ r))
    (hs : ∀ (k : ℕ) (h : k + 1 < n + 1),
      a (k + 1) h = a k (Nat.lt_of_succ_lt h) + ∑ r : Fin b, f (pos (n + 1) b hN ⟨k + 1, h⟩ r)) :
    a n (Nat.lt_succ_self n) = ∑ i : Fin N, f i := by
  rw [sum_blocks (n + 1) b hN f]
  exact chain_last n a (fun k hk => ∑ r : Fin b, f (pos (n + 1) b hN ⟨k, hk⟩ r)) h0 hs

end Cert.BlockSum
-- ==== Proof.KI.Val2.lean ====
import proofs.«141437_j50036368998564_1_alg».proof.Proof.KI.Region2
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import proofs.«141437_j50036368998564_1_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.GenP

open Cert.KernelIdeal Cert.KernelIdeal.Gen Idealize.ShloMosaic Idealize.ShloMosaic.TcCoe Idealize.SL.Sem
open Idealize.ShloMosaic.Pipeline (Dat)
open Idealize.ShloMosaic.ValueIdx

section
variable {F : FTy → Type} [FloatOps F]

theorem hzR2 : (![0, 0] : Fin 2 → Nat) = fun _ => 0 := funext fun a => by fin_cases a <;> rfl

theorem readCovR2 {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

variable (c : Dev nD) (i : grid2.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (x0 : Vec F S10000x128 .f32)

theorem rows2_A_eq (hc0 : cond2_0 i) :
    rows2 (kernelRun2_A c i arg1 harg1 arg2 harg2 arg3 harg3 arg4 harg4 arg5 harg5 hc0 x0) = (k2_pay4 x0 (k2_pay1 (F := F)), k2_pay5 x0 (k2_pay2 (F := F)), k2_pay4 x0 (k2_pay1 (F := F)), k2_pay5 x0 (k2_pay2 (F := F))) := by
  unfold rows2 rb2
  simp only [View.read_writes_junk_eq_canon]
  unfold kernelRun2_A
  dsimp only
  sl_unfold_words
  simp only [View.canon_cons_unit_zero (S := S1x128) hzR2, View.readAt_eq_ld, harg1.read_unread, harg4.read_unread, harg5.read_unread, View.ld_unit_zero (S := S10000x128) hzR2, View.ld_unit_zero (S := S1x128) hzR2, readCovR2 (S := S1x128) _ hzR2]

theorem rows2_B_eq (hc0 : ¬cond2_0 i) (xs0 xs1 : Vec F S1x128 .f32) :
    rows2 (kernelRun2_B c i arg1 harg1 arg2 harg2 arg3 harg3 arg4 harg4 arg5 harg5 hc0 x0 xs0 xs1) = (k2_pay4 x0 xs0, k2_pay5 x0 xs1, k2_pay4 x0 xs0, k2_pay5 x0 xs1) := by
  unfold rows2 rb2
  simp only [View.read_writes_junk_eq_canon]
  unfold kernelRun2_B
  dsimp only
  sl_unfold_words
  simp only [View.canon_cons_unit_zero (S := S1x128) hzR2, View.readAt_eq_ld, harg1.read_unread, harg4.read_unread, harg5.read_unread, View.ld_unit_zero (S := S10000x128) hzR2, View.ld_unit_zero (S := S1x128) hzR2, readCovR2 (S := S1x128) _ hzR2]
end

theorem pay2_zero (j : Fin 128) : k2_pay1 (F := Ideal) (ix2 0 j) = 0 ∧ k2_pay2 (F := Ideal) (ix2 0 j) = 0 := by
  constructor <;>
  · show shapeCast S1x128 (broadcast S1x128 (Scalar.ofBits .f32 0x00000000#32 : Ideal .f32)) shapeCasts_S1x128_S1x128 (ix2 0 j) = 0
    rw [shapeCast_self]
    exact Ideal.ofBits_zero_f32

theorem row_cast2_apply (v : FVec Ideal S128 .f32) (j : Fin 128) :
    shapeCast S1x128 v shapeCasts_S128_S1x128 (ix2 0 j) = v (ix1 j) := by
  refine shapeCast_apply v shapeCasts_S128_S1x128 (ix2 0 j) (ix1 j) ?_
  rw [Shape.rowMajor_val_one, Shape.rowMajor_val_two]
  show j.val = (0 : Fin 1).val * 128 + j.val
  simp

theorem colsum2_apply (y : FVec Ideal S10000x128 .f32) (j : Fin 128) :
    multiReduction .add [0] S128 y 0x00000000#32 reduces_S10000x128_S128 (.inl rfl) rfl (ix1 j) = ∑ r : Fin 10000, y (ix2 r j) := by
  refine (Ideal.multiReduction_add_single y 0x00000000#32 reduces_S10000x128_S128 (.inl rfl) rfl (ix1 j)).trans ?_
  refine Finset.sum_congr rfl fun r _ => ?_
  congr 1
  funext a
  match a with
  | ⟨0, _⟩ => rfl
  | ⟨1, _⟩ => rfl

/-- Each update adds to the carried row the column sums of the tile, or of its squares. -/
theorem pay2_45_apply (x : Vec Ideal S10000x128 .f32) (acc : Vec Ideal S1x128 .f32) (j : Fin 128) :
    k2_pay4 (F := Ideal) x acc (ix2 0 j) = acc (ix2 0 j) + ∑ r : Fin 10000, x (ix2 r j)
    ∧ k2_pay5 (F := Ideal) x acc (ix2 0 j) = acc (ix2 0 j) + ∑ r : Fin 10000, x (ix2 r j) * x (ix2 r j) := by
  constructor <;>
  · first | unfold k2_pay4 k2_pay3 | unfold k2_pay5 k2_pay3
    dsimp only
    simp only [shapeCast_self]
    show acc (ix2 0 j) + _ = acc (ix2 0 j) + _
    exact congrArg (acc (ix2 0 j) + ·) ((row_cast2_apply _ j).trans (colsum2_apply _ j))

variable (V : (c : Dev nD) → (b : Ref sig .tc) → Buf (Elt Ideal) ((c : Thread nD τ).loc b))

theorem outsAt2_zero_eq (c : Dev nD) (h : 0 < cfg2.N) :
    outsAt2 V c 0 h = (k2_pay4 (iblk2 V c 0 ⟨0, h⟩) (k2_pay1 (F := Ideal)), k2_pay5 (iblk2 V c 0 ⟨0, h⟩) (k2_pay2 (F := Ideal)), k2_pay4 (iblk2 V c 0 ⟨0, h⟩) (k2_pay1 (F := Ideal)), k2_pay5 (iblk2 V c 0 ⟨0, h⟩) (k2_pay2 (F := Ideal))) :=
  rows2_A_eq ..

theorem outsAt2_succ_eq (c : Dev nD) (n : ℕ) (h : n + 1 < cfg2.N) :
    outsAt2 V c (n + 1) h = (k2_pay4 (iblk2 V c 0 ⟨n + 1, h⟩) (outsAt2 V c n (Nat.lt_of_succ_lt h)).2.2.1, k2_pay5 (iblk2 V c 0 ⟨n + 1, h⟩) (outsAt2 V c n (Nat.lt_of_succ_lt h)).2.2.2, k2_pay4 (iblk2 V c 0 ⟨n + 1, h⟩) (outsAt2 V c n (Nat.lt_of_succ_lt h)).2.2.1, k2_pay5 (iblk2 V c 0 ⟨n + 1, h⟩) (outsAt2 V c n (Nat.lt_of_succ_lt h)).2.2.2) :=
  rows2_B_eq ..

theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0 :=
  (by decide +kernel : ∀ t : Fin grid2.N, _)

abbrev xarr2 (c : Dev nD) : Vec Ideal S50000x128 .f32 := V c main_v42

abbrev xblk2 (c : Dev nD) (t : Fin cfg2.N) : Vec Ideal S10000x128 .f32 := iblk2 V c 0 t

theorem xblk2_apply (c : Dev nD) (t : Fin cfg2.N) (r : Fin 10000) (j : Fin 128) (i : Fin 50000) (hi : i.val = t.val * 10000 + r.val) :
    xblk2 V c t (ix2 r j) = xarr2 V c (ix2 i j) := by
  show V c main_v42 (((cfg2.win 0).blk t).view.emb (ix2 r j)) = V c main_v42 (ix2 i j)
  obtain ⟨e0, e1, -⟩ := idx_facts2 t
  refine congrArg (V c main_v42) (funext fun a => Fin.ext ?_)
  match a with
  | ⟨0, _⟩ => show win2_0.index t (0 : Fin 2) * 10000 + 1 * r.val = i.val; omega
  | ⟨1, _⟩ => show win2_0.index t (1 : Fin 2) * 128 + 1 * j.val = j.val; omega

theorem N2_eq : cfg2.N = 5 := N_2

/-- The tiles partition the rows: a row that adds each tile's sums of g in turn to 0 ends with the sums of g over all rows. -/
theorem acc2_gen (c : Dev nD) (j : Fin 128) (g : Elt Ideal .f32 → Elt Ideal .f32) (a : (n : ℕ) → n < cfg2.N → Elt Ideal .f32)
    (h0 : ∀ h, a 0 h = 0 + ∑ r : Fin 10000, g (xblk2 V c ⟨0, h⟩ (ix2 r j)))
    (hs : ∀ k h, a (k + 1) h = a k (Nat.lt_of_succ_lt h) + ∑ r : Fin 10000, g (xblk2 V c ⟨k + 1, h⟩ (ix2 r j)))
    (h4 : 4 < cfg2.N) : a 4 h4 = ∑ i : Fin 50000, g (xarr2 V c (ix2 i j)) := by
  have hN : (4 + 1 : ℕ) = cfg2.N := N2_eq.symm
  have h5 : (50000 : ℕ) = (4 + 1) * 10000 := by norm_num
  refine Cert.BlockSum.chain_blocks_eq_sum (M := Elt Ideal .f32) 4 10000 h5 (fun i => g (xarr2 V c (ix2 i j)))
    (fun k hk => a k (lt_of_lt_of_eq hk hN)) (fun h => ?_) (fun k h => ?_)
  · exact (h0 _).trans (congrArg (0 + ·) (Finset.sum_congr rfl fun r _ => congrArg g (xblk2_apply V c _ r j _ rfl)))
  · exact (hs k _).trans (congrArg (_ + ·) (Finset.sum_congr rfl fun r _ => congrArg g (xblk2_apply V c _ r j _ rfl)))

theorem acc2_sum (c : Dev nD) (j : Fin 128) (h4 : 4 < cfg2.N) :
    (outsAt2 (F := Ideal) V c 4 h4).2.2.1 (ix2 0 j) = ∑ i : Fin 50000, xarr2 V c (ix2 i j) :=
  acc2_gen V c j (fun v => v) (fun n h => (outsAt2 (F := Ideal) V c n h).2.2.1 (ix2 0 j))
    (fun h => by rw [outsAt2_zero_eq V c h]; exact (pay2_45_apply _ _ j).1.trans (by rw [(pay2_zero j).1]))
    (fun k h => by rw [outsAt2_succ_eq V c k h]; exact (pay2_45_apply _ _ j).1) h4

theorem acc2_sumsq (c : Dev nD) (j : Fin 128) (h4 : 4 < cfg2.N) :
    (outsAt2 (F := Ideal) V c 4 h4).2.2.2 (ix2 0 j) = ∑ i : Fin 50000, xarr2 V c (ix2 i j) * xarr2 V c (ix2 i j) :=
  acc2_gen V c j (fun v => v * v) (fun n h => (outsAt2 (F := Ideal) V c n h).2.2.2 (ix2 0 j))
    (fun h => by rw [outsAt2_zero_eq V c h]; exact (pay2_45_apply _ _ j).2.trans (by rw [(pay2_zero j).2]))
    (fun k h => by rw [outsAt2_succ_eq V c k h]; exact (pay2_45_apply _ _ j).2) h4

theorem outs2_eq_scratch (c : Dev nD) : ∀ (n : ℕ) (h : n < cfg2.N),
    (outsAt2 (F := Ideal) V c n h).1 = (outsAt2 (F := Ideal) V c n h).2.2.1
    ∧ (outsAt2 (F := Ideal) V c n h).2.1 = (outsAt2 (F := Ideal) V c n h).2.2.2
  | 0, h => by rw [outsAt2_zero_eq V c h]; exact ⟨rfl, rfl⟩
  | n + 1, h => by rw [outsAt2_succ_eq V c n h]; exact ⟨rfl, rfl⟩

abbrev G2_1 (a : S50000x128.Idx → Elt Ideal .f32) : S1x128.Idx → Elt Ideal .f32 :=
  fun i => ∑ r : Fin 50000, a (ix2 r (i 1))

abbrev G2_2 (a : S50000x128.Idx → Elt Ideal .f32) : S1x128.Idx → Elt Ideal .f32 :=
  fun i => ∑ r : Fin 50000, a (ix2 r (i 1)) * a (ix2 r (i 1))

theorem flushed_eq2_1 (c : Dev nD) (t : Fin cfg2.N) (hf : (cfg2.win 1).flush t = true) :
    (dat2 (F := Ideal) V c).flushed 1 t = ((cfg2.win 1).blk t).view.read (Elt Ideal) (G2_1 (xarr2 V c)) := by
  have hN : cfg2.N = 5 := N2_eq
  have h4 : t.val = 4 := by have := (flush2_1 t).mp hf; have := t.isLt; omega
  obtain ⟨n, ht⟩ := t
  obtain rfl : n = 4 := h4
  show (cfg2.win 1).cut (grid2.coords ⟨4, ht⟩) ((dat2 (F := Ideal) V c).after 1 ⟨4, ht⟩) = _
  rw [after2_1]
  have hz' : (fun a => win2_1.index ⟨4, ht⟩ a * main_v43_0.ty.shape.size a) = fun _ => 0 := funext fun a => by
    obtain ⟨-, -, e0, e1, -, -⟩ := idx_facts2 ⟨4, ht⟩
    match a with
    | ⟨0, _⟩ => show win2_1.index ⟨4, ht⟩ (0 : Fin 2) * _ = 0; rw [e0, Nat.zero_mul]
    | ⟨1, _⟩ => show win2_1.index ⟨4, ht⟩ (1 : Fin 2) * _ = 0; rw [e1, Nat.zero_mul]
  refine Eq.trans ?_ (Memref.read_access_unit_zero (Elt Ideal) main_v43_0 hz' (fun a => by rw [congrFun hz' a]; simp) (G2_1 (xarr2 V c))).symm
  show (outsAt2 (F := Ideal) V c 4 ht).1 = G2_1 (xarr2 V c)
  funext i
  obtain ⟨p, q, rfl⟩ : ∃ (p : Fin 1) (q : Fin 128), i = ix2 p q := ⟨i 0, i 1, eq_ix2 i⟩
  obtain rfl : p = 0 := Subsingleton.elim _ _
  show (outsAt2 (F := Ideal) V c 4 ht).1 (ix2 0 q) = ∑ r : Fin 50000, xarr2 V c (ix2 r q)
  rw [(outs2_eq_scratch V c 4 ht).1, acc2_sum V c q ht]

theorem flushed_eq2_2 (c : Dev nD) (t : Fin cfg2.N) (hf : (cfg2.win 2).flush t = true) :
    (dat2 (F := Ideal) V c).flushed 2 t = ((cfg2.win 2).blk t).view.read (Elt Ideal) (G2_2 (xarr2 V c)) := by
  have hN : cfg2.N = 5 := N2_eq
  have h4 : t.val = 4 := by have := (flush2_2 t).mp hf; have := t.isLt; omega
  obtain ⟨n, ht⟩ := t
  obtain rfl : n = 4 := h4
  show (cfg2.win 2).cut (grid2.coords ⟨4, ht⟩) ((dat2 (F := Ideal) V c).after 2 ⟨4, ht⟩) = _
  rw [after2_2]
  have hz' : (fun a => win2_2.index ⟨4, ht⟩ a * main_v43_1.ty.shape.size a) = fun _ => 0 := funext fun a => by
    obtain ⟨-, -, -, -, e0, e1⟩ := idx_facts2 ⟨4, ht⟩
    match a with
    | ⟨0, _⟩ => show win2_2.index ⟨4, ht⟩ (0 : Fin 2) * _ = 0; rw [e0, Nat.zero_mul]
    | ⟨1, _⟩ => show win2_2.index ⟨4, ht⟩ (1 : Fin 2) * _ = 0; rw [e1, Nat.zero_mul]
  refine Eq.trans ?_ (Memref.read_access_unit_zero (Elt Ideal) main_v43_1 hz' (fun a => by rw [congrFun hz' a]; simp) (G2_2 (xarr2 V c))).symm
  show (outsAt2 (F := Ideal) V c 4 ht).2.1 = G2_2 (xarr2 V c)
  funext i
  obtain ⟨p, q, rfl⟩ : ∃ (p : Fin 1) (q : Fin 128), i = ix2 p q := ⟨i 0, i 1, eq_ix2 i⟩
  obtain rfl : p = 0 := Subsingleton.elim _ _
  show (outsAt2 (F := Ideal) V c 4 ht).2.1 (ix2 0 q) = ∑ r : Fin 50000, xarr2 V c (ix2 r q) * xarr2 V c (ix2 r q)
  rw [(outs2_eq_scratch V c 4 ht).2, acc2_sumsq V c q ht]

theorem cover2_1 (i : S1x128.Idx) : ∃ t : Fin cfg2.N, (cfg2.win 1).flush t = true ∧ i ∈ ((cfg2.win 1).blk t).view.set := by
  have hi0 : (i 0).val < 1 := (i 0).isLt
  have hi1 : (i 1).val < 128 := (i 1).isLt
  have hN : cfg2.N = 5 := N2_eq
  let t : Fin cfg2.N := ⟨4, by rw [hN]; decide⟩
  obtain ⟨-, -, e2, e3, -, -⟩ := idx_facts2 t
  refine ⟨t, (flush2_1 t).mpr rfl, ?_⟩
  show i ∈ ((View.whole main_v43_0).slice (win2_1.rect t)).set
  rw [View.set_slice_whole, Rect.mem_set_unit]
  intro a
  match a with
  | ⟨0, _⟩ => show win2_1.index t (0 : Fin 2) * 1 ≤ (i 0).val ∧ (i 0).val < win2_1.index t (0 : Fin 2) * 1 + 1; omega
  | ⟨1, _⟩ => show win2_1.index t (1 : Fin 2) * 128 ≤ (i 1).val ∧ (i 1).val < win2_1.index t (1 : Fin 2) * 128 + 128; omega

theorem cover2_2 (i : S1x128.Idx) : ∃ t : Fin cfg2.N, (cfg2.win 2).flush t = true ∧ i ∈ ((cfg2.win 2).blk t).view.set := by
  have hi0 : (i 0).val < 1 := (i 0).isLt
  have hi1 : (i 1).val < 128 := (i 1).isLt
  have hN : cfg2.N = 5 := N2_eq
  let t : Fin cfg2.N := ⟨4, by rw [hN]; decide⟩
  obtain ⟨-, -, -, -, e4, e5⟩ := idx_facts2 t
  refine ⟨t, (flush2_2 t).mpr rfl, ?_⟩
  show i ∈ ((View.whole main_v43_1).slice (win2_2.rect t)).set
  rw [View.set_slice_whole, Rect.mem_set_unit]
  intro a
  match a with
  | ⟨0, _⟩ => show win2_2.index t (0 : Fin 2) * 1 ≤ (i 0).val ∧ (i 0).val < win2_2.index t (0 : Fin 2) * 1 + 1; omega
  | ⟨1, _⟩ => show win2_2.index t (1 : Fin 2) * 128 ≤ (i 1).val ∧ (i 1).val < win2_2.index t (1 : Fin 2) * 128 + 128; omega

theorem val2_sum (c : Dev nD) (j : Fin 128) :
    (dat2 (F := Ideal) V c).arrAt 1 cfg2.N (ValueIdx.ix2 0 j) = ∑ i : Fin 50000, xarr2 V c (ValueIdx.ix2 i j) :=
  congrFun ((dat2 (F := Ideal) V c).arrAt_eq_of_cover 1 (G2_1 (xarr2 V c)) (flushed_eq2_1 V c) cover2_1) _

theorem val2_sumsq (c : Dev nD) (j : Fin 128) :
    (dat2 (F := Ideal) V c).arrAt 2 cfg2.N (ValueIdx.ix2 0 j) = ∑ i : Fin 50000, xarr2 V c (ValueIdx.ix2 i j) * xarr2 V c (ValueIdx.ix2 i j) :=
  congrFun ((dat2 (F := Ideal) V c).arrAt_eq_of_cover 2 (G2_2 (xarr2 V c)) (flushed_eq2_2 V c) cover2_2) _

end Cert.KernelIdeal.GenP
-- ==== Proof.KI.Val3.lean ====
import proofs.«141437_j50036368998564_1_alg».proof.Proof.KI.Region3
import proofs.«141437_j50036368998564_1_alg».proof.Proof.KI.LibTile

set_option maxRecDepth 16384

noncomputable section

namespace Cert.KernelIdeal.GenP

open Cert.KernelIdeal Cert.KernelIdeal.Gen Idealize.ShloMosaic Idealize.ShloMosaic.TcCoe Idealize.SL.Sem
open Idealize.ShloMosaic.Pipeline (Dat)
open Idealize.ShloMosaic.ValueIdx Cert.Tile

variable (V : (c : Dev nD) → (b : Ref sig .tc) → Buf (Elt Ideal) ((c : Thread nD τ).loc b))

abbrev bn3 (x m r g b : Ideal .f32) : Ideal .f32 := max ((x - m) * r * g + b) 0

def G3 (a0 : S50000x128.Idx → Ideal .f32) (a1 a2 a3 a4 : S1x128.Idx → Ideal .f32) : S50000x128.Idx → Ideal .f32 :=
  fun i => bn3 (a0 i) (a1 (ix2 (0 : Fin 1) (i 1))) (a2 (ix2 (0 : Fin 1) (i 1))) (a3 (ix2 (0 : Fin 1) (i 1))) (a4 (ix2 (0 : Fin 1) (i 1)))

theorem G3_ix2 (a0 : S50000x128.Idx → Ideal .f32) (a1 a2 a3 a4 : S1x128.Idx → Ideal .f32) (i : Fin 50000) (j : Fin 128) :
    G3 a0 a1 a2 a3 a4 (ix2 i j) = max ((a0 (ix2 i j) - a1 (ix2 0 j)) * a2 (ix2 0 j) * a3 (ix2 0 j) + a4 (ix2 0 j)) 0 := rfl

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem pay3_apply (x0 : Vec Ideal S10000x128 .f32) (x1 x2 x3 x4 : Vec Ideal S1x128 .f32) (p : Fin 10000) (q : Fin 128) :
    k3_pay1 (F := Ideal) x0 x1 x2 x3 x4 (ix2 p q) = bn3 (x0 (ix2 p q)) (x1 (ix2 0 q)) (x2 (ix2 0 q)) (x3 (ix2 0 q)) (x4 (ix2 0 q)) := by
  unfold k3_pay1
  simp only [maximumf_apply, addf_apply, mulf_apply, subf_apply, broadcast_apply, shapeCast_self]
  rw [broadcastTo_1b_ab_apply, broadcastTo_1b_ab_apply, broadcastTo_1b_ab_apply, broadcastTo_1b_ab_apply]
  show max _ (Ideal.ofBits .f32 0x00000000#32) = _
  rw [Ideal.ofBits_zero_f32]

-- The block of point t is block t of G3 of the five arrays.
theorem flushed3_eq (c : Dev nD) (t : Fin cfg3.N) :
    (dat3 V c).flushed 5 t = ((cfg3.win 5).blk t).view.read (Elt Ideal) (G3 (V c main_v42) (V c main_v45) (V c main_v52) (V c main_v53) (V c main_v54)) := by
  show (cfg3.win 5).cut (grid3.coords t) ((dat3 V c).after 5 t) = _
  rw [after3_5]
  unfold out3_5
  rw [View.canon_unit_zero zero2]
  simp only [View.ld_unit_zero (S := S10000x128) zero2, View.ld_unit_zero (S := S1x128) zero2]
  obtain ⟨e0, e1, e2, e3, e4, e5, e6, e7, e8, e9, e10, e11⟩ := idx_facts3 t
  funext j
  obtain ⟨p, q, rfl⟩ : ∃ (p : Fin 10000) (q : Fin 128), j = ix2 p q := ⟨j 0, j 1, eq_ix2 j⟩
  refine (pay3_apply _ _ _ _ _ p q).trans ?_
  show bn3 (V c main_v42 (((cfg3.win 0).blk t).view.emb (ix2 p q))) (V c main_v45 (((cfg3.win 1).blk t).view.emb (ix2 (0 : Fin 1) q))) (V c main_v52 (((cfg3.win 2).blk t).view.emb (ix2 (0 : Fin 1) q)))
      (V c main_v53 (((cfg3.win 3).blk t).view.emb (ix2 (0 : Fin 1) q))) (V c main_v54 (((cfg3.win 4).blk t).view.emb (ix2 (0 : Fin 1) q)))
    = G3 (V c main_v42) (V c main_v45) (V c main_v52) (V c main_v53) (V c main_v54) (((cfg3.win 5).blk t).view.emb (ix2 p q))
  have h0 : ((cfg3.win 0).blk t).view.emb (ix2 p q) = ((cfg3.win 5).blk t).view.emb (ix2 p q) :=
    Shape.idx_ext₂ (show win3_0.index t (0 : Fin 2) * 10000 + 1 * p.val = win3_5.index t (0 : Fin 2) * 10000 + 1 * p.val by omega)
      (show win3_0.index t (1 : Fin 2) * 128 + 1 * q.val = win3_5.index t (1 : Fin 2) * 128 + 1 * q.val by omega)
  have h1 : ((cfg3.win 1).blk t).view.emb (ix2 (0 : Fin 1) q) = ix2 (0 : Fin 1) ((((cfg3.win 5).blk t).view.emb (ix2 p q)) 1) :=
    Shape.idx_ext₂ (show win3_1.index t (0 : Fin 2) * 1 + 1 * 0 = 0 by omega)
      (show win3_1.index t (1 : Fin 2) * 128 + 1 * q.val = win3_5.index t (1 : Fin 2) * 128 + 1 * q.val by omega)
  have h2 : ((cfg3.win 2).blk t).view.emb (ix2 (0 : Fin 1) q) = ix2 (0 : Fin 1) ((((cfg3.win 5).blk t).view.emb (ix2 p q)) 1) :=
    Shape.idx_ext₂ (show win3_2.index t (0 : Fin 2) * 1 + 1 * 0 = 0 by omega)
      (show win3_2.index t (1 : Fin 2) * 128 + 1 * q.val = win3_5.index t (1 : Fin 2) * 128 + 1 * q.val by omega)
  have h3 : ((cfg3.win 3).blk t).view.emb (ix2 (0 : Fin 1) q) = ix2 (0 : Fin 1) ((((cfg3.win 5).blk t).view.emb (ix2 p q)) 1) :=
    Shape.idx_ext₂ (show win3_3.index t (0 : Fin 2) * 1 + 1 * 0 = 0 by omega)
      (show win3_3.index t (1 : Fin 2) * 128 + 1 * q.val = win3_5.index t (1 : Fin 2) * 128 + 1 * q.val by omega)
  have h4 : ((cfg3.win 4).blk t).view.emb (ix2 (0 : Fin 1) q) = ix2 (0 : Fin 1) ((((cfg3.win 5).blk t).view.emb (ix2 p q)) 1) :=
    Shape.idx_ext₂ (show win3_4.index t (0 : Fin 2) * 1 + 1 * 0 = 0 by omega)
      (show win3_4.index t (1 : Fin 2) * 128 + 1 * q.val = win3_5.index t (1 : Fin 2) * 128 + 1 * q.val by omega)
  rw [h0, h1, h2, h3, h4]
  rfl

-- Row r lies in the block of point r / 10000.
theorem cover3 (i : S50000x128.Idx) : ∃ t : Fin cfg3.N, (cfg3.win 5).flush t = true ∧ i ∈ ((cfg3.win 5).blk t).view.set := by
  have hN : cfg3.N = 5 := rfl
  have hi := idx2_lt0 i
  let t : Fin cfg3.N := ⟨(i 0).val / 10000, by omega⟩
  obtain ⟨-, -, -, -, -, -, -, -, -, -, e10, e11⟩ := idx_facts3 t
  refine ⟨t, flush3_5 t, ?_⟩
  show i ∈ ((View.whole main_v55).slice (win3_5.rect t)).set
  rw [View.set_slice_whole]
  exact mem_rowBlock (B := 10000) (by decide) i (congrArg (· * 10000) e10) rfl (by show win3_5.index t (1 : Fin 2) * 128 = 0; omega) rfl

theorem val3 (c : Dev nD) (i : Fin 50000) (j : Fin 128) :
    (dat3 V c).arrAt 5 cfg3.N (ix2 i j) = G3 (V c main_v42) (V c main_v45) (V c main_v52) (V c main_v53) (V c main_v54) (ix2 i j) :=
  congrFun ((dat3 V c).arrAt_eq_of_cover 5 _ (fun t _ => flushed3_eq V c t) cover3) (ix2 i j)

end Cert.KernelIdeal.GenP
-- ==== Proof.KI.Val4.lean ====
import proofs.«141437_j50036368998564_1_alg».proof.Proof.KI.Region4
import proofs.«141437_j50036368998564_1_alg».proof.Proof.KI.LibTile

set_option maxRecDepth 16384

noncomputable section

namespace Cert.KernelIdeal.GenP

open Cert.KernelIdeal Cert.KernelIdeal.Gen Idealize.ShloMosaic Idealize.ShloMosaic.TcCoe Idealize.SL.Sem
open Idealize.ShloMosaic.Pipeline (Dat)
open Idealize.ShloMosaic.ValueIdx Cert.Tile

variable (V : (c : Dev nD) → (b : Ref sig .tc) → Buf (Elt Ideal) ((c : Thread nD τ).loc b))

abbrev G4 (a0 : S50000x128.Idx → EReal) (a1 : S128x128.Idx → EReal) : S50000x128.Idx → EReal :=
  fun i => ∑ k : Fin 128, a0 (ix2 (i 0) k) * a1 (ix2 k (i 1))

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

-- The block of point t is block t of the product of the two arrays.
theorem flushed_eq4 (c : Dev nD) (t : Fin cfg4.N) :
    (dat4 (F := Ideal) V c).flushed 2 t = ((cfg4.win 2).blk t).view.read (Elt Ideal) (G4 (V c main_v55) (V c main_arg6)) := by
  show (cfg4.win 2).cut (grid4.coords t) ((dat4 (F := Ideal) V c).after 2 t) = _
  rw [after4_2]
  unfold out4_2
  rw [View.canon_unit_zero zero2]
  simp only [View.ld_unit_zero (S := S10000x128) zero2, View.ld_unit_zero (S := S128x128) zero2]
  obtain ⟨e0, e1, e2, e3, e4, e5⟩ := idx_facts4 t
  funext j
  obtain ⟨p, q, rfl⟩ : ∃ (p : Fin 10000) (q : Fin 128), j = ix2 p q := ⟨j 0, j 1, eq_ix2 j⟩
  show k4_pay1 (F := Ideal) _ _ _ = G4 (V c main_v55) (V c main_arg6) (((cfg4.win 2).blk t).view.emb (ix2 p q))
  unfold k4_pay1
  refine (mm_apply _ rfl _ _ p q).trans (Finset.sum_congr rfl fun k _ => ?_)
  simp only [shapeCast_self, truncf_apply]
  have h0 : ((cfg4.win 0).blk t).view.emb (ix2 p k) = ix2 ((((cfg4.win 2).blk t).view.emb (ix2 p q)) 0) k :=
    Shape.idx_ext₂ (show win4_0.index t (0 : Fin 2) * 10000 + 1 * p.val = win4_2.index t (0 : Fin 2) * 10000 + 1 * p.val by omega)
      (show win4_0.index t (1 : Fin 2) * 128 + 1 * k.val = k.val by omega)
  have h1 : ((cfg4.win 1).blk t).view.emb (ix2 k q) = ix2 k ((((cfg4.win 2).blk t).view.emb (ix2 p q)) 1) :=
    Shape.idx_ext₂ (show win4_1.index t (0 : Fin 2) * 128 + 1 * k.val = k.val by omega)
      (show win4_1.index t (1 : Fin 2) * 128 + 1 * q.val = win4_2.index t (1 : Fin 2) * 128 + 1 * q.val by omega)
  exact congrArg₂ (fun a b : EReal => a * b) (congrArg (V c main_v55) h0) (congrArg (V c main_arg6) h1)

-- Row r lies in the block of point r / 10000.
theorem cover4 (i : S50000x128.Idx) : ∃ t : Fin cfg4.N, (cfg4.win 2).flush t = true ∧ i ∈ ((cfg4.win 2).blk t).view.set := by
  have hN : cfg4.N = 5 := N_4
  have hi := idx2_lt0 i
  let t : Fin cfg4.N := ⟨(i 0).val / 10000, by omega⟩
  obtain ⟨-, -, -, -, e4, e5⟩ := idx_facts4 t
  refine ⟨t, flush4_2 t, ?_⟩
  show i ∈ ((View.whole main_v56).slice (win4_2.rect t)).set
  rw [View.set_slice_whole]
  exact mem_rowBlock (B := 10000) (by decide) i (congrArg (· * 10000) e4) rfl (by show win4_2.index t (1 : Fin 2) * 128 = 0; omega) rfl

theorem val4 (V : (c : Dev nD) → (b : Ref sig .tc) → Buf (Elt Ideal) ((c : Thread nD τ).loc b)) (c : Dev nD) (i : Fin 50000) (j : Fin 128) :
    (dat4 (F := Ideal) V c).arrAt 2 cfg4.N (ValueIdx.ix2 i j)
      = ∑ k : Fin 128, @HMul.hMul EReal EReal EReal _ (V c main_v55 (ValueIdx.ix2 i k)) (V c main_arg6 (ValueIdx.ix2 k j)) :=
  congrFun ((dat4 (F := Ideal) V c).arrAt_eq_of_cover 2 (G4 (V c main_v55) (V c main_arg6)) (fun t _ => flushed_eq4 V c t) cover4) (ix2 i j)

end Cert.KernelIdeal.GenP
-- ==== Proof.KI.Val5.lean ====
import proofs.«141437_j50036368998564_1_alg».proof.Proof.KI.Region5
import proofs.«141437_j50036368998564_1_alg».proof.Proof.KI.LibTile

noncomputable section

namespace Cert.KernelIdeal.GenP

open Cert.KernelIdeal Cert.KernelIdeal.Gen Idealize.ShloMosaic Idealize.ShloMosaic.TcCoe Idealize.SL.Sem
open Idealize.ShloMosaic.Pipeline (Dat)
open Idealize.ShloMosaic.ValueIdx Cert.Tile

variable (V : (c : Dev nD) → (b : Ref sig .tc) → Buf (Elt Ideal) ((c : Thread nD τ).loc b))

abbrev G5 (a0 a1 : S50000x128.Idx → Ideal .f32) (a2 : S50000x1.Idx → Ideal .f32) (a3 : S1x128.Idx → Ideal .f32) : S50000x128.Idx → Ideal .f32 :=
  fun i => a0 i + a1 i * a2 (ix2 (i 0) (0 : Fin 1)) + a3 (ix2 (0 : Fin 1) (i 1))

theorem G5_apply (a0 a1 : S50000x128.Idx → Ideal .f32) (a2 : S50000x1.Idx → Ideal .f32) (a3 : S1x128.Idx → Ideal .f32) (i : Fin 50000) (j : Fin 128) :
    G5 a0 a1 a2 a3 (ix2 i j) = a0 (ix2 i j) + a1 (ix2 i j) * a2 (ix2 i (0 : Fin 1)) + a3 (ix2 (0 : Fin 1) j) := rfl

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

-- The block of point t is block t of G5 of the four arrays.
theorem flushed5_4_eq (c : Dev nD) (t : Fin cfg5.N) :
    (dat5 (F := Ideal) V c).flushed 4 t = ((cfg5.win 4).blk t).view.read (Elt Ideal) (G5 (V c main_v69) (V c main_v56) (V c main_v70) (V c main_v71)) := by
  show (cfg5.win 4).cut (grid5.coords t) ((dat5 V c).after 4 t) = _
  rw [after5_4]
  unfold out5_4
  rw [View.canon_unit_zero zero2]
  simp only [View.ld_unit_zero (S := S10000x128) zero2, View.ld_unit_zero (S := S10000x1) zero2, View.ld_unit_zero (S := S1x128) zero2]
  obtain ⟨e00, e01, e10, e11, e20, e21, e30, e31, e40, e41⟩ := idx_facts5 t
  funext y
  obtain ⟨p, q, rfl⟩ : ∃ (p : Fin 10000) (q : Fin 128), y = ix2 p q := ⟨y 0, y 1, eq_ix2 y⟩
  show k5_pay1 (F := Ideal) _ _ _ _ (ix2 p q) = G5 (V c main_v69) (V c main_v56) (V c main_v70) (V c main_v71) (((cfg5.win 4).blk t).view.emb (ix2 p q))
  unfold k5_pay1
  simp only [addf_apply, mulf_apply, shapeCast_self]
  rw [broadcastTo_col_apply, broadcastTo_1b_ab_apply]
  have h0 : ((cfg5.win 0).blk t).view.emb (ix2 p q) = ((cfg5.win 4).blk t).view.emb (ix2 p q) :=
    Shape.idx_ext₂ (show win5_0.index t (0 : Fin 2) * 10000 + 1 * p.val = win5_4.index t (0 : Fin 2) * 10000 + 1 * p.val by omega)
      (show win5_0.index t (1 : Fin 2) * 128 + 1 * q.val = win5_4.index t (1 : Fin 2) * 128 + 1 * q.val by omega)
  have h1 : ((cfg5.win 1).blk t).view.emb (ix2 p q) = ((cfg5.win 4).blk t).view.emb (ix2 p q) :=
    Shape.idx_ext₂ (show win5_1.index t (0 : Fin 2) * 10000 + 1 * p.val = win5_4.index t (0 : Fin 2) * 10000 + 1 * p.val by omega)
      (show win5_1.index t (1 : Fin 2) * 128 + 1 * q.val = win5_4.index t (1 : Fin 2) * 128 + 1 * q.val by omega)
  have h2 : ((cfg5.win 2).blk t).view.emb (ix2 p (0 : Fin 1)) = ix2 ((((cfg5.win 4).blk t).view.emb (ix2 p q)) 0) (0 : Fin 1) :=
    Shape.idx_ext₂ (show win5_2.index t (0 : Fin 2) * 10000 + 1 * p.val = win5_4.index t (0 : Fin 2) * 10000 + 1 * p.val by omega)
      (show win5_2.index t (1 : Fin 2) * 1 + 1 * 0 = 0 by omega)
  have h3 : ((cfg5.win 3).blk t).view.emb (ix2 (0 : Fin 1) q) = ix2 (0 : Fin 1) ((((cfg5.win 4).blk t).view.emb (ix2 p q)) 1) :=
    Shape.idx_ext₂ (show win5_3.index t (0 : Fin 2) * 1 + 1 * 0 = 0 by omega)
      (show win5_3.index t (1 : Fin 2) * 128 + 1 * q.val = win5_4.index t (1 : Fin 2) * 128 + 1 * q.val by omega)
  exact congrArg₂ (· + ·) (congrArg₂ (· + ·) (congrArg (V c main_v69) h0) (congrArg₂ (· * ·) (congrArg (V c main_v56) h1) (congrArg (V c main_v70) h2)))
    (congrArg (V c main_v71) h3)

-- Row r lies in the block of point r / 10000.
theorem cover5_4_arr (i : S50000x128.Idx) : ∃ t : Fin cfg5.N, (cfg5.win 4).flush t = true ∧ i ∈ ((cfg5.win 4).blk t).view.set := by
  have hN : cfg5.N = 5 := rfl
  have hi := idx2_lt0 i
  let t : Fin cfg5.N := ⟨(i 0).val / 10000, by omega⟩
  obtain ⟨-, -, -, -, -, -, -, -, e40, e41⟩ := idx_facts5 t
  refine ⟨t, flush5_4 t, ?_⟩
  show i ∈ ((View.whole main_v72).slice (win5_4.rect t)).set
  rw [View.set_slice_whole]
  exact mem_rowBlock (B := 10000) (by decide) i (congrArg (· * 10000) e40) rfl (by show win5_4.index t (1 : Fin 2) * 128 = 0; omega) rfl

theorem val5 (c : Dev nD) (i : Fin 50000) (j : Fin 128) :
    (dat5 (F := Ideal) V c).arrAt 4 cfg5.N (ValueIdx.ix2 i j)
      = G5 (V c main_v69) (V c main_v56) (V c main_v70) (V c main_v71) (ValueIdx.ix2 i j) :=
  congrFun ((dat5 V c).arrAt_eq_of_cover 4 _ (fun t _ => flushed5_4_eq V c t) cover5_4_arr) (ix2 i j)

end Cert.KernelIdeal.GenP
-- ==== Proof.KI.Val6.lean ====
import proofs.«141437_j50036368998564_1_alg».proof.Proof.KI.Region6
import proofs.«141437_j50036368998564_1_alg».proof.Proof.Gen.KernelIdeal.Launch
import proofs.«141437_j50036368998564_1_alg».proof.Proof.Gen.KernelIdeal.Skeleton
import proofs.«141437_j50036368998564_1_alg».proof.Proof.Gen.KernelIdeal.Points
import proofs.«141437_j50036368998564_1_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.GenP

open Cert.KernelIdeal Cert.KernelIdeal.Gen Idealize.ShloMosaic Idealize.ShloMosaic.TcCoe Idealize.SL.Sem
open Idealize.ShloMosaic.Pipeline (Dat)
open Idealize.ShloMosaic.ValueIdx

section
variable {F : FTy → Type} [FloatOps F]

theorem hzR6 : (![0, 0] : Fin 2 → Nat) = fun _ => 0 := funext fun a => by fin_cases a <;> rfl

theorem readCovR6 {sig' : RefSig} {κ : Kind} {sp : Space} {S : Shape} {e : EltTy}
    (v : View sig' κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

variable (c : Dev nD) (i : grid6.Coords) (arg1 : Memref sig .tc .vmem S10000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (x0 : Vec F S10000x128 .f32)

theorem rows6_A_eq (hc0 : cond6_0 i) :
    rows6 (kernelRun6_A c i arg1 harg1 arg2 harg2 arg3 harg3 arg4 harg4 arg5 harg5 hc0 x0) = (k6_pay4 x0 (k6_pay1 (F := F)), k6_pay5 x0 (k6_pay2 (F := F)), k6_pay4 x0 (k6_pay1 (F := F)), k6_pay5 x0 (k6_pay2 (F := F))) := by
  unfold rows6 rb6
  simp only [View.read_writes_junk_eq_canon]
  unfold kernelRun6_A
  dsimp only
  sl_unfold_words
  simp only [View.canon_cons_unit_zero (S := S1x128) hzR6, View.readAt_eq_ld, harg1.read_unread, harg4.read_unread, harg5.read_unread, View.ld_unit_zero (S := S10000x128) hzR6, View.ld_unit_zero (S := S1x128) hzR6, readCovR6 (S := S1x128) _ hzR6]

theorem rows6_B_eq (hc0 : ¬cond6_0 i) (xs0 xs1 : Vec F S1x128 .f32) :
    rows6 (kernelRun6_B c i arg1 harg1 arg2 harg2 arg3 harg3 arg4 harg4 arg5 harg5 hc0 x0 xs0 xs1) = (k6_pay4 x0 xs0, k6_pay5 x0 xs1, k6_pay4 x0 xs0, k6_pay5 x0 xs1) := by
  unfold rows6 rb6
  simp only [View.read_writes_junk_eq_canon]
  unfold kernelRun6_B
  dsimp only
  sl_unfold_words
  simp only [View.canon_cons_unit_zero (S := S1x128) hzR6, View.readAt_eq_ld, harg1.read_unread, harg4.read_unread, harg5.read_unread, View.ld_unit_zero (S := S10000x128) hzR6, View.ld_unit_zero (S := S1x128) hzR6, readCovR6 (S := S1x128) _ hzR6]
end

theorem pay6_zero (j : Fin 128) : k6_pay1 (F := Ideal) (ix2 0 j) = 0 ∧ k6_pay2 (F := Ideal) (ix2 0 j) = 0 := by
  constructor <;>
  · show shapeCast S1x128 (broadcast S1x128 (Scalar.ofBits .f32 0x00000000#32 : Ideal .f32)) shapeCasts_S1x128_S1x128 (ix2 0 j) = 0
    rw [shapeCast_self]
    exact Ideal.ofBits_zero_f32

theorem row_cast6_apply (v : FVec Ideal S128 .f32) (j : Fin 128) :
    shapeCast S1x128 v shapeCasts_S128_S1x128 (ix2 0 j) = v (ix1 j) := by
  refine shapeCast_apply v shapeCasts_S128_S1x128 (ix2 0 j) (ix1 j) ?_
  rw [Shape.rowMajor_val_one, Shape.rowMajor_val_two]
  show j.val = (0 : Fin 1).val * 128 + j.val
  simp

theorem colsum6_apply (y : FVec Ideal S10000x128 .f32) (j : Fin 128) :
    multiReduction .add [0] S128 y 0x00000000#32 reduces_S10000x128_S128 (.inl rfl) rfl (ix1 j) = ∑ r : Fin 10000, y (ix2 r j) := by
  refine (Ideal.multiReduction_add_single y 0x00000000#32 reduces_S10000x128_S128 (.inl rfl) rfl (ix1 j)).trans ?_
  refine Finset.sum_congr rfl fun r _ => ?_
  congr 1
  funext a
  match a with
  | ⟨0, _⟩ => rfl
  | ⟨1, _⟩ => rfl

/-- Each update adds to the carried row the column sums of the tile, or of its squares. -/
theorem pay6_45_apply (x : Vec Ideal S10000x128 .f32) (acc : Vec Ideal S1x128 .f32) (j : Fin 128) :
    k6_pay4 (F := Ideal) x acc (ix2 0 j) = acc (ix2 0 j) + ∑ r : Fin 10000, x (ix2 r j)
    ∧ k6_pay5 (F := Ideal) x acc (ix2 0 j) = acc (ix2 0 j) + ∑ r : Fin 10000, x (ix2 r j) * x (ix2 r j) := by
  constructor <;>
  · first | unfold k6_pay4 k6_pay3 | unfold k6_pay5 k6_pay3
    dsimp only
    simp only [shapeCast_self]
    show acc (ix2 0 j) + _ = acc (ix2 0 j) + _
    exact congrArg (acc (ix2 0 j) + ·) ((row_cast6_apply _ j).trans (colsum6_apply _ j))

variable (V : (c : Dev nD) → (b : Ref sig .tc) → Buf (Elt Ideal) ((c : Thread nD τ).loc b))

theorem outsAt6_zero_eq (c : Dev nD) (h : 0 < cfg6.N) :
    outsAt6 V c 0 h = (k6_pay4 (iblk6 V c 0 ⟨0, h⟩) (k6_pay1 (F := Ideal)), k6_pay5 (iblk6 V c 0 ⟨0, h⟩) (k6_pay2 (F := Ideal)), k6_pay4 (iblk6 V c 0 ⟨0, h⟩) (k6_pay1 (F := Ideal)), k6_pay5 (iblk6 V c 0 ⟨0, h⟩) (k6_pay2 (F := Ideal))) :=
  rows6_A_eq ..

theorem outsAt6_succ_eq (c : Dev nD) (n : ℕ) (h : n + 1 < cfg6.N) :
    outsAt6 V c (n + 1) h = (k6_pay4 (iblk6 V c 0 ⟨n + 1, h⟩) (outsAt6 V c n (Nat.lt_of_succ_lt h)).2.2.1, k6_pay5 (iblk6 V c 0 ⟨n + 1, h⟩) (outsAt6 V c n (Nat.lt_of_succ_lt h)).2.2.2, k6_pay4 (iblk6 V c 0 ⟨n + 1, h⟩) (outsAt6 V c n (Nat.lt_of_succ_lt h)).2.2.1, k6_pay5 (iblk6 V c 0 ⟨n + 1, h⟩) (outsAt6 V c n (Nat.lt_of_succ_lt h)).2.2.2) :=
  rows6_B_eq ..

theorem idx_facts6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0 :=
  (by decide +kernel : ∀ t : Fin grid6.N, _)

abbrev xarr6 (c : Dev nD) : Vec Ideal S50000x128 .f32 := V c main_v72

abbrev xblk6 (c : Dev nD) (t : Fin cfg6.N) : Vec Ideal S10000x128 .f32 := iblk6 V c 0 t

theorem xblk6_apply (c : Dev nD) (t : Fin cfg6.N) (r : Fin 10000) (j : Fin 128) (i : Fin 50000) (hi : i.val = t.val * 10000 + r.val) :
    xblk6 V c t (ix2 r j) = xarr6 V c (ix2 i j) := by
  show V c main_v72 (((cfg6.win 0).blk t).view.emb (ix2 r j)) = V c main_v72 (ix2 i j)
  obtain ⟨e0, e1, -⟩ := idx_facts6 t
  refine congrArg (V c main_v72) (funext fun a => Fin.ext ?_)
  match a with
  | ⟨0, _⟩ => show win6_0.index t (0 : Fin 2) * 10000 + 1 * r.val = i.val; omega
  | ⟨1, _⟩ => show win6_0.index t (1 : Fin 2) * 128 + 1 * j.val = j.val; omega

theorem N6_eq : cfg6.N = 5 := N_6

/-- The tiles partition the rows: a row that adds each tile's sums of g in turn to 0 ends with the sums of g over all rows. -/
theorem acc6_gen (c : Dev nD) (j : Fin 128) (g : Elt Ideal .f32 → Elt Ideal .f32) (a : (n : ℕ) → n < cfg6.N → Elt Ideal .f32)
    (h0 : ∀ h, a 0 h = 0 + ∑ r : Fin 10000, g (xblk6 V c ⟨0, h⟩ (ix2 r j)))
    (hs : ∀ k h, a (k + 1) h = a k (Nat.lt_of_succ_lt h) + ∑ r : Fin 10000, g (xblk6 V c ⟨k + 1, h⟩ (ix2 r j)))
    (h4 : 4 < cfg6.N) : a 4 h4 = ∑ i : Fin 50000, g (xarr6 V c (ix2 i j)) := by
  have hN : (4 + 1 : ℕ) = cfg6.N := N6_eq.symm
  have h5 : (50000 : ℕ) = (4 + 1) * 10000 := by norm_num
  refine Cert.BlockSum.chain_blocks_eq_sum (M := Elt Ideal .f32) 4 10000 h5 (fun i => g (xarr6 V c (ix2 i j)))
    (fun k hk => a k (lt_of_lt_of_eq hk hN)) (fun h => ?_) (fun k h => ?_)
  · exact (h0 _).trans (congrArg (0 + ·) (Finset.sum_congr rfl fun r _ => congrArg g (xblk6_apply V c _ r j _ rfl)))
  · exact (hs k _).trans (congrArg (_ + ·) (Finset.sum_congr rfl fun r _ => congrArg g (xblk6_apply V c _ r j _ rfl)))

theorem acc6_sum (c : Dev nD) (j : Fin 128) (h4 : 4 < cfg6.N) :
    (outsAt6 (F := Ideal) V c 4 h4).2.2.1 (ix2 0 j) = ∑ i : Fin 50000, xarr6 V c (ix2 i j) :=
  acc6_gen V c j (fun v => v) (fun n h => (outsAt6 (F := Ideal) V c n h).2.2.1 (ix2 0 j))
    (fun h => by rw [outsAt6_zero_eq V c h]; exact (pay6_45_apply _ _ j).1.trans (by rw [(pay6_zero j).1]))
    (fun k h => by rw [outsAt6_succ_eq V c k h]; exact (pay6_45_apply _ _ j).1) h4

theorem acc6_sumsq (c : Dev nD) (j : Fin 128) (h4 : 4 < cfg6.N) :
    (outsAt6 (F := Ideal) V c 4 h4).2.2.2 (ix2 0 j) = ∑ i : Fin 50000, xarr6 V c (ix2 i j) * xarr6 V c (ix2 i j) :=
  acc6_gen V c j (fun v => v * v) (fun n h => (outsAt6 (F := Ideal) V c n h).2.2.2 (ix2 0 j))
    (fun h => by rw [outsAt6_zero_eq V c h]; exact (pay6_45_apply _ _ j).2.trans (by rw [(pay6_zero j).2]))
    (fun k h => by rw [outsAt6_succ_eq V c k h]; exact (pay6_45_apply _ _ j).2) h4

theorem outs6_eq_scratch (c : Dev nD) : ∀ (n : ℕ) (h : n < cfg6.N),
    (outsAt6 (F := Ideal) V c n h).1 = (outsAt6 (F := Ideal) V c n h).2.2.1
    ∧ (outsAt6 (F := Ideal) V c n h).2.1 = (outsAt6 (F := Ideal) V c n h).2.2.2
  | 0, h => by rw [outsAt6_zero_eq V c h]; exact ⟨rfl, rfl⟩
  | n + 1, h => by rw [outsAt6_succ_eq V c n h]; exact ⟨rfl, rfl⟩

abbrev G6_1 (a : S50000x128.Idx → Elt Ideal .f32) : S1x128.Idx → Elt Ideal .f32 :=
  fun i => ∑ r : Fin 50000, a (ix2 r (i 1))

abbrev G6_2 (a : S50000x128.Idx → Elt Ideal .f32) : S1x128.Idx → Elt Ideal .f32 :=
  fun i => ∑ r : Fin 50000, a (ix2 r (i 1)) * a (ix2 r (i 1))

theorem flushed_eq6_1 (c : Dev nD) (t : Fin cfg6.N) (hf : (cfg6.win 1).flush t = true) :
    (dat6 (F := Ideal) V c).flushed 1 t = ((cfg6.win 1).blk t).view.read (Elt Ideal) (G6_1 (xarr6 V c)) := by
  have hN : cfg6.N = 5 := N6_eq
  have h4 : t.val = 4 := by have := (flush6_1 t).mp hf; have := t.isLt; omega
  obtain ⟨n, ht⟩ := t
  obtain rfl : n = 4 := h4
  show (cfg6.win 1).cut (grid6.coords ⟨4, ht⟩) ((dat6 (F := Ideal) V c).after 1 ⟨4, ht⟩) = _
  rw [after6_1]
  have hz' : (fun a => win6_1.index ⟨4, ht⟩ a * main_v73_0.ty.shape.size a) = fun _ => 0 := funext fun a => by
    obtain ⟨-, -, e0, e1, -, -⟩ := idx_facts6 ⟨4, ht⟩
    match a with
    | ⟨0, _⟩ => show win6_1.index ⟨4, ht⟩ (0 : Fin 2) * _ = 0; rw [e0, Nat.zero_mul]
    | ⟨1, _⟩ => show win6_1.index ⟨4, ht⟩ (1 : Fin 2) * _ = 0; rw [e1, Nat.zero_mul]
  refine Eq.trans ?_ (Memref.read_access_unit_zero (Elt Ideal) main_v73_0 hz' (fun a => by rw [congrFun hz' a]; simp) (G6_1 (xarr6 V c))).symm
  show (outsAt6 (F := Ideal) V c 4 ht).1 = G6_1 (xarr6 V c)
  funext i
  obtain ⟨p, q, rfl⟩ : ∃ (p : Fin 1) (q : Fin 128), i = ix2 p q := ⟨i 0, i 1, eq_ix2 i⟩
  obtain rfl : p = 0 := Subsingleton.elim _ _
  show (outsAt6 (F := Ideal) V c 4 ht).1 (ix2 0 q) = ∑ r : Fin 50000, xarr6 V c (ix2 r q)
  rw [(outs6_eq_scratch V c 4 ht).1, acc6_sum V c q ht]

theorem flushed_eq6_2 (c : Dev nD) (t : Fin cfg6.N) (hf : (cfg6.win 2).flush t = true) :
    (dat6 (F := Ideal) V c).flushed 2 t = ((cfg6.win 2).blk t).view.read (Elt Ideal) (G6_2 (xarr6 V c)) := by
  have hN : cfg6.N = 5 := N6_eq
  have h4 : t.val = 4 := by have := (flush6_2 t).mp hf; have := t.isLt; omega
  obtain ⟨n, ht⟩ := t
  obtain rfl : n = 4 := h4
  show (cfg6.win 2).cut (grid6.coords ⟨4, ht⟩) ((dat6 (F := Ideal) V c).after 2 ⟨4, ht⟩) = _
  rw [after6_2]
  have hz' : (fun a => win6_2.index ⟨4, ht⟩ a * main_v73_1.ty.shape.size a) = fun _ => 0 := funext fun a => by
    obtain ⟨-, -, -, -, e0, e1⟩ := idx_facts6 ⟨4, ht⟩
    match a with
    | ⟨0, _⟩ => show win6_2.index ⟨4, ht⟩ (0 : Fin 2) * _ = 0; rw [e0, Nat.zero_mul]
    | ⟨1, _⟩ => show win6_2.index ⟨4, ht⟩ (1 : Fin 2) * _ = 0; rw [e1, Nat.zero_mul]
  refine Eq.trans ?_ (Memref.read_access_unit_zero (Elt Ideal) main_v73_1 hz' (fun a => by rw [congrFun hz' a]; simp) (G6_2 (xarr6 V c))).symm
  show (outsAt6 (F := Ideal) V c 4 ht).2.1 = G6_2 (xarr6 V c)
  funext i
  obtain ⟨p, q, rfl⟩ : ∃ (p : Fin 1) (q : Fin 128), i = ix2 p q := ⟨i 0, i 1, eq_ix2 i⟩
  obtain rfl : p = 0 := Subsingleton.elim _ _
  show (outsAt6 (F := Ideal) V c 4 ht).2.1 (ix2 0 q) = ∑ r : Fin 50000, xarr6 V c (ix2 r q) * xarr6 V c (ix2 r q)
  rw [(outs6_eq_scratch V c 4 ht).2, acc6_sumsq V c q ht]

theorem cover6_1 (i : S1x128.Idx) : ∃ t : Fin cfg6.N, (cfg6.win 1).flush t = true ∧ i ∈ ((cfg6.win 1).blk t).view.set := by
  have hi0 : (i 0).val < 1 := (i 0).isLt
  have hi1 : (i 1).val < 128 := (i 1).isLt
  have hN : cfg6.N = 5 := N6_eq
  let t : Fin cfg6.N := ⟨4, by rw [hN]; decide⟩
  obtain ⟨-, -, e2, e3, -, -⟩ := idx_facts6 t
  refine ⟨t, (flush6_1 t).mpr rfl, ?_⟩
  show i ∈ ((View.whole main_v73_0).slice (win6_1.rect t)).set
  rw [View.set_slice_whole, Rect.mem_set_unit]
  intro a
  match a with
  | ⟨0, _⟩ => show win6_1.index t (0 : Fin 2) * 1 ≤ (i 0).val ∧ (i 0).val < win6_1.index t (0 : Fin 2) * 1 + 1; omega
  | ⟨1, _⟩ => show win6_1.index t (1 : Fin 2) * 128 ≤ (i 1).val ∧ (i 1).val < win6_1.index t (1 : Fin 2) * 128 + 128; omega

theorem cover6_2 (i : S1x128.Idx) : ∃ t : Fin cfg6.N, (cfg6.win 2).flush t = true ∧ i ∈ ((cfg6.win 2).blk t).view.set := by
  have hi0 : (i 0).val < 1 := (i 0).isLt
  have hi1 : (i 1).val < 128 := (i 1).isLt
  have hN : cfg6.N = 5 := N6_eq
  let t : Fin cfg6.N := ⟨4, by rw [hN]; decide⟩
  obtain ⟨-, -, -, -, e4, e5⟩ := idx_facts6 t
  refine ⟨t, (flush6_2 t).mpr rfl, ?_⟩
  show i ∈ ((View.whole main_v73_1).slice (win6_2.rect t)).set
  rw [View.set_slice_whole, Rect.mem_set_unit]
  intro a
  match a with
  | ⟨0, _⟩ => show win6_2.index t (0 : Fin 2) * 1 ≤ (i 0).val ∧ (i 0).val < win6_2.index t (0 : Fin 2) * 1 + 1; omega
  | ⟨1, _⟩ => show win6_2.index t (1 : Fin 2) * 128 ≤ (i 1).val ∧ (i 1).val < win6_2.index t (1 : Fin 2) * 128 + 128; omega

theorem val6_sum (c : Dev nD) (j : Fin 128) :
    (dat6 (F := Ideal) V c).arrAt 1 cfg6.N (ValueIdx.ix2 0 j) = ∑ i : Fin 50000, xarr6 V c (ValueIdx.ix2 i j) :=
  congrFun ((dat6 (F := Ideal) V c).arrAt_eq_of_cover 1 (G6_1 (xarr6 V c)) (flushed_eq6_1 V c) cover6_1) _

theorem val6_sumsq (c : Dev nD) (j : Fin 128) :
    (dat6 (F := Ideal) V c).arrAt 2 cfg6.N (ValueIdx.ix2 0 j) = ∑ i : Fin 50000, xarr6 V c (ValueIdx.ix2 i j) * xarr6 V c (ValueIdx.ix2 i j) :=
  congrFun ((dat6 (F := Ideal) V c).arrAt_eq_of_cover 2 (G6_2 (xarr6 V c)) (flushed_eq6_2 V c) cover6_2) _

end Cert.KernelIdeal.GenP
-- ==== Proof.KI.Val7.lean ====
import proofs.«141437_j50036368998564_1_alg».proof.Proof.KI.Region7
import proofs.«141437_j50036368998564_1_alg».proof.Proof.KI.LibTile

set_option maxRecDepth 16384

noncomputable section

namespace Cert.KernelIdeal.GenP

open Cert.KernelIdeal Cert.KernelIdeal.Gen Idealize.ShloMosaic Idealize.ShloMosaic.TcCoe Idealize.SL.Sem
open Idealize.ShloMosaic.Pipeline (Dat)
open Idealize.ShloMosaic.ValueIdx Cert.Tile

variable (V : (c : Dev nD) → (b : Ref sig .tc) → Buf (Elt Ideal) ((c : Thread nD τ).loc b))

abbrev bn7 (x m r g b : Ideal .f32) : Ideal .f32 := max ((x - m) * r * g + b) 0

def G7 (a0 : S50000x128.Idx → Ideal .f32) (a1 a2 a3 a4 : S1x128.Idx → Ideal .f32) : S50000x128.Idx → Ideal .f32 :=
  fun i => bn7 (a0 i) (a1 (ix2 (0 : Fin 1) (i 1))) (a2 (ix2 (0 : Fin 1) (i 1))) (a3 (ix2 (0 : Fin 1) (i 1))) (a4 (ix2 (0 : Fin 1) (i 1)))

theorem G7_ix2 (a0 : S50000x128.Idx → Ideal .f32) (a1 a2 a3 a4 : S1x128.Idx → Ideal .f32) (i : Fin 50000) (j : Fin 128) :
    G7 a0 a1 a2 a3 a4 (ix2 i j) = max ((a0 (ix2 i j) - a1 (ix2 0 j)) * a2 (ix2 0 j) * a3 (ix2 0 j) + a4 (ix2 0 j)) 0 := rfl

theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

theorem pay7_apply (x0 : Vec Ideal S10000x128 .f32) (x1 x2 x3 x4 : Vec Ideal S1x128 .f32) (p : Fin 10000) (q : Fin 128) :
    k7_pay1 (F := Ideal) x0 x1 x2 x3 x4 (ix2 p q) = bn7 (x0 (ix2 p q)) (x1 (ix2 0 q)) (x2 (ix2 0 q)) (x3 (ix2 0 q)) (x4 (ix2 0 q)) := by
  unfold k7_pay1
  simp only [maximumf_apply, addf_apply, mulf_apply, subf_apply, broadcast_apply, shapeCast_self]
  rw [broadcastTo_1b_ab_apply, broadcastTo_1b_ab_apply, broadcastTo_1b_ab_apply, broadcastTo_1b_ab_apply]
  show max _ (Ideal.ofBits .f32 0x00000000#32) = _
  rw [Ideal.ofBits_zero_f32]

-- The block of point t is block t of G7 of the five arrays.
theorem flushed7_eq (c : Dev nD) (t : Fin cfg7.N) :
    (dat7 V c).flushed 5 t = ((cfg7.win 5).blk t).view.read (Elt Ideal) (G7 (V c main_v72) (V c main_v75) (V c main_v82) (V c main_v83) (V c main_v84)) := by
  show (cfg7.win 5).cut (grid7.coords t) ((dat7 V c).after 5 t) = _
  rw [after7_5]
  unfold out7_5
  rw [View.canon_unit_zero zero2]
  simp only [View.ld_unit_zero (S := S10000x128) zero2, View.ld_unit_zero (S := S1x128) zero2]
  obtain ⟨e0, e1, e2, e3, e4, e5, e6, e7, e8, e9, e10, e11⟩ := idx_facts7 t
  funext j
  obtain ⟨p, q, rfl⟩ : ∃ (p : Fin 10000) (q : Fin 128), j = ix2 p q := ⟨j 0, j 1, eq_ix2 j⟩
  refine (pay7_apply _ _ _ _ _ p q).trans ?_
  show bn7 (V c main_v72 (((cfg7.win 0).blk t).view.emb (ix2 p q))) (V c main_v75 (((cfg7.win 1).blk t).view.emb (ix2 (0 : Fin 1) q))) (V c main_v82 (((cfg7.win 2).blk t).view.emb (ix2 (0 : Fin 1) q)))
      (V c main_v83 (((cfg7.win 3).blk t).view.emb (ix2 (0 : Fin 1) q))) (V c main_v84 (((cfg7.win 4).blk t).view.emb (ix2 (0 : Fin 1) q)))
    = G7 (V c main_v72) (V c main_v75) (V c main_v82) (V c main_v83) (V c main_v84) (((cfg7.win 5).blk t).view.emb (ix2 p q))
  have h0 : ((cfg7.win 0).blk t).view.emb (ix2 p q) = ((cfg7.win 5).blk t).view.emb (ix2 p q) :=
    Shape.idx_ext₂ (show win7_0.index t (0 : Fin 2) * 10000 + 1 * p.val = win7_5.index t (0 : Fin 2) * 10000 + 1 * p.val by omega)
      (show win7_0.index t (1 : Fin 2) * 128 + 1 * q.val = win7_5.index t (1 : Fin 2) * 128 + 1 * q.val by omega)
  have h1 : ((cfg7.win 1).blk t).view.emb (ix2 (0 : Fin 1) q) = ix2 (0 : Fin 1) ((((cfg7.win 5).blk t).view.emb (ix2 p q)) 1) :=
    Shape.idx_ext₂ (show win7_1.index t (0 : Fin 2) * 1 + 1 * 0 = 0 by omega)
      (show win7_1.index t (1 : Fin 2) * 128 + 1 * q.val = win7_5.index t (1 : Fin 2) * 128 + 1 * q.val by omega)
  have h2 : ((cfg7.win 2).blk t).view.emb (ix2 (0 : Fin 1) q) = ix2 (0 : Fin 1) ((((cfg7.win 5).blk t).view.emb (ix2 p q)) 1) :=
    Shape.idx_ext₂ (show win7_2.index t (0 : Fin 2) * 1 + 1 * 0 = 0 by omega)
      (show win7_2.index t (1 : Fin 2) * 128 + 1 * q.val = win7_5.index t (1 : Fin 2) * 128 + 1 * q.val by omega)
  have h3 : ((cfg7.win 3).blk t).view.emb (ix2 (0 : Fin 1) q) = ix2 (0 : Fin 1) ((((cfg7.win 5).blk t).view.emb (ix2 p q)) 1) :=
    Shape.idx_ext₂ (show win7_3.index t (0 : Fin 2) * 1 + 1 * 0 = 0 by omega)
      (show win7_3.index t (1 : Fin 2) * 128 + 1 * q.val = win7_5.index t (1 : Fin 2) * 128 + 1 * q.val by omega)
  have h4 : ((cfg7.win 4).blk t).view.emb (ix2 (0 : Fin 1) q) = ix2 (0 : Fin 1) ((((cfg7.win 5).blk t).view.emb (ix2 p q)) 1) :=
    Shape.idx_ext₂ (show win7_4.index t (0 : Fin 2) * 1 + 1 * 0 = 0 by omega)
      (show win7_4.index t (1 : Fin 2) * 128 + 1 * q.val = win7_5.index t (1 : Fin 2) * 128 + 1 * q.val by omega)
  rw [h0, h1, h2, h3, h4]
  rfl

-- Row r lies in the block of point r / 10000.
theorem cover7 (i : S50000x128.Idx) : ∃ t : Fin cfg7.N, (cfg7.win 5).flush t = true ∧ i ∈ ((cfg7.win 5).blk t).view.set := by
  have hN : cfg7.N = 5 := rfl
  have hi := idx2_lt0 i
  let t : Fin cfg7.N := ⟨(i 0).val / 10000, by omega⟩
  obtain ⟨-, -, -, -, -, -, -, -, -, -, e10, e11⟩ := idx_facts7 t
  refine ⟨t, flush7_5 t, ?_⟩
  show i ∈ ((View.whole main_v85).slice (win7_5.rect t)).set
  rw [View.set_slice_whole]
  exact mem_rowBlock (B := 10000) (by decide) i (congrArg (· * 10000) e10) rfl (by show win7_5.index t (1 : Fin 2) * 128 = 0; omega) rfl

theorem val7 (c : Dev nD) (i : Fin 50000) (j : Fin 128) :
    (dat7 V c).arrAt 5 cfg7.N (ix2 i j) = G7 (V c main_v72) (V c main_v75) (V c main_v82) (V c main_v83) (V c main_v84) (ix2 i j) :=
  congrFun ((dat7 V c).arrAt_eq_of_cover 5 _ (fun t _ => flushed7_eq V c t) cover7) (ix2 i j)

end Cert.KernelIdeal.GenP
-- ==== Proof.KI.Val8.lean ====
import proofs.«141437_j50036368998564_1_alg».proof.Proof.KI.Region8
import proofs.«141437_j50036368998564_1_alg».proof.Proof.KI.LibTile

set_option maxRecDepth 16384

noncomputable section

namespace Cert.KernelIdeal.GenP

open Cert.KernelIdeal Cert.KernelIdeal.Gen Idealize.ShloMosaic Idealize.ShloMosaic.TcCoe Idealize.SL.Sem
open Idealize.ShloMosaic.Pipeline (Dat)
open Idealize.ShloMosaic.ValueIdx Cert.Tile

variable (V : (c : Dev nD) → (b : Ref sig .tc) → Buf (Elt Ideal) ((c : Thread nD τ).loc b))

abbrev G8 (a0 : S50000x128.Idx → EReal) (a1 : S128x64.Idx → EReal) : S50000x64.Idx → EReal :=
  fun i => ∑ k : Fin 128, a0 (ix2 (i 0) k) * a1 (ix2 k (i 1))

theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

-- The block of point t is block t of the product of the two arrays.
theorem flushed_eq8 (c : Dev nD) (t : Fin cfg8.N) :
    (dat8 (F := Ideal) V c).flushed 2 t = ((cfg8.win 2).blk t).view.read (Elt Ideal) (G8 (V c main_v85) (V c main_arg8)) := by
  show (cfg8.win 2).cut (grid8.coords t) ((dat8 (F := Ideal) V c).after 2 t) = _
  rw [after8_2]
  unfold out8_2
  rw [View.canon_unit_zero zero2]
  simp only [View.ld_unit_zero (S := S10000x128) zero2, View.ld_unit_zero (S := S128x64) zero2]
  obtain ⟨e0, e1, e2, e3, e4, e5⟩ := idx_facts8 t
  funext j
  obtain ⟨p, q, rfl⟩ : ∃ (p : Fin 10000) (q : Fin 64), j = ix2 p q := ⟨j 0, j 1, eq_ix2 j⟩
  show k8_pay1 (F := Ideal) _ _ _ = G8 (V c main_v85) (V c main_arg8) (((cfg8.win 2).blk t).view.emb (ix2 p q))
  unfold k8_pay1
  refine (mm_apply _ rfl _ _ p q).trans (Finset.sum_congr rfl fun k _ => ?_)
  simp only [shapeCast_self, truncf_apply]
  have h0 : ((cfg8.win 0).blk t).view.emb (ix2 p k) = ix2 ((((cfg8.win 2).blk t).view.emb (ix2 p q)) 0) k :=
    Shape.idx_ext₂ (show win8_0.index t (0 : Fin 2) * 10000 + 1 * p.val = win8_2.index t (0 : Fin 2) * 10000 + 1 * p.val by omega)
      (show win8_0.index t (1 : Fin 2) * 128 + 1 * k.val = k.val by omega)
  have h1 : ((cfg8.win 1).blk t).view.emb (ix2 k q) = ix2 k ((((cfg8.win 2).blk t).view.emb (ix2 p q)) 1) :=
    Shape.idx_ext₂ (show win8_1.index t (0 : Fin 2) * 128 + 1 * k.val = k.val by omega)
      (show win8_1.index t (1 : Fin 2) * 64 + 1 * q.val = win8_2.index t (1 : Fin 2) * 64 + 1 * q.val by omega)
  exact congrArg₂ (fun a b : EReal => a * b) (congrArg (V c main_v85) h0) (congrArg (V c main_arg8) h1)

-- Row r lies in the block of point r / 10000.
theorem cover8 (i : S50000x64.Idx) : ∃ t : Fin cfg8.N, (cfg8.win 2).flush t = true ∧ i ∈ ((cfg8.win 2).blk t).view.set := by
  have hN : cfg8.N = 5 := N_8
  have hi := idx2_lt0 i
  let t : Fin cfg8.N := ⟨(i 0).val / 10000, by omega⟩
  obtain ⟨-, -, -, -, e4, e5⟩ := idx_facts8 t
  refine ⟨t, flush8_2 t, ?_⟩
  show i ∈ ((View.whole main_v86).slice (win8_2.rect t)).set
  rw [View.set_slice_whole]
  exact mem_rowBlock (B := 10000) (by decide) i (congrArg (· * 10000) e4) rfl (by show win8_2.index t (1 : Fin 2) * 64 = 0; omega) rfl

theorem val8 (V : (c : Dev nD) → (b : Ref sig .tc) → Buf (Elt Ideal) ((c : Thread nD τ).loc b)) (c : Dev nD) (i : Fin 50000) (j : Fin 64) :
    (dat8 (F := Ideal) V c).arrAt 2 cfg8.N (ValueIdx.ix2 i j)
      = ∑ k : Fin 128, @HMul.hMul EReal EReal EReal _ (V c main_v85 (ValueIdx.ix2 i k)) (V c main_arg8 (ValueIdx.ix2 k j)) :=
  congrFun ((dat8 (F := Ideal) V c).arrAt_eq_of_cover 2 (G8 (V c main_v85) (V c main_arg8)) (fun t _ => flushed_eq8 V c t) cover8) (ix2 i j)

end Cert.KernelIdeal.GenP
-- ==== Proof.KI.Val9.lean ====
import proofs.«141437_j50036368998564_1_alg».proof.Proof.KI.Region9
import proofs.«141437_j50036368998564_1_alg».proof.Proof.KI.LibTile

noncomputable section

namespace Cert.KernelIdeal.GenP

open Cert.KernelIdeal Cert.KernelIdeal.Gen Idealize.ShloMosaic Idealize.ShloMosaic.TcCoe Idealize.SL.Sem
open Idealize.ShloMosaic.Pipeline (Dat)
open Idealize.ShloMosaic.ValueIdx Cert.Tile

variable (V : (c : Dev nD) → (b : Ref sig .tc) → Buf (Elt Ideal) ((c : Thread nD τ).loc b))

abbrev G9 (a0 a1 : S50000x64.Idx → Ideal .f32) (a2 : S50000x1.Idx → Ideal .f32) (a3 : S1x64.Idx → Ideal .f32) : S50000x64.Idx → Ideal .f32 :=
  fun i => a0 i + a1 i * a2 (ix2 (i 0) (0 : Fin 1)) + a3 (ix2 (0 : Fin 1) (i 1))

theorem G9_apply (a0 a1 : S50000x64.Idx → Ideal .f32) (a2 : S50000x1.Idx → Ideal .f32) (a3 : S1x64.Idx → Ideal .f32) (i : Fin 50000) (j : Fin 64) :
    G9 a0 a1 a2 a3 (ix2 i j) = a0 (ix2 i j) + a1 (ix2 i j) * a2 (ix2 i (0 : Fin 1)) + a3 (ix2 (0 : Fin 1) j) := rfl

theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

-- The block of point t is block t of G9 of the four arrays.
theorem flushed9_4_eq (c : Dev nD) (t : Fin cfg9.N) :
    (dat9 (F := Ideal) V c).flushed 4 t = ((cfg9.win 4).blk t).view.read (Elt Ideal) (G9 (V c main_v99) (V c main_v86) (V c main_v100) (V c main_v101)) := by
  show (cfg9.win 4).cut (grid9.coords t) ((dat9 V c).after 4 t) = _
  rw [after9_4]
  unfold out9_4
  rw [View.canon_unit_zero zero2]
  simp only [View.ld_unit_zero (S := S10000x64) zero2, View.ld_unit_zero (S := S10000x1) zero2, View.ld_unit_zero (S := S1x64) zero2]
  obtain ⟨e00, e01, e10, e11, e20, e21, e30, e31, e40, e41⟩ := idx_facts9 t
  funext y
  obtain ⟨p, q, rfl⟩ : ∃ (p : Fin 10000) (q : Fin 64), y = ix2 p q := ⟨y 0, y 1, eq_ix2 y⟩
  show k9_pay1 (F := Ideal) _ _ _ _ (ix2 p q) = G9 (V c main_v99) (V c main_v86) (V c main_v100) (V c main_v101) (((cfg9.win 4).blk t).view.emb (ix2 p q))
  unfold k9_pay1
  simp only [addf_apply, mulf_apply, shapeCast_self]
  rw [broadcastTo_col_apply, broadcastTo_1b_ab_apply]
  have h0 : ((cfg9.win 0).blk t).view.emb (ix2 p q) = ((cfg9.win 4).blk t).view.emb (ix2 p q) :=
    Shape.idx_ext₂ (show win9_0.index t (0 : Fin 2) * 10000 + 1 * p.val = win9_4.index t (0 : Fin 2) * 10000 + 1 * p.val by omega)
      (show win9_0.index t (1 : Fin 2) * 64 + 1 * q.val = win9_4.index t (1 : Fin 2) * 64 + 1 * q.val by omega)
  have h1 : ((cfg9.win 1).blk t).view.emb (ix2 p q) = ((cfg9.win 4).blk t).view.emb (ix2 p q) :=
    Shape.idx_ext₂ (show win9_1.index t (0 : Fin 2) * 10000 + 1 * p.val = win9_4.index t (0 : Fin 2) * 10000 + 1 * p.val by omega)
      (show win9_1.index t (1 : Fin 2) * 64 + 1 * q.val = win9_4.index t (1 : Fin 2) * 64 + 1 * q.val by omega)
  have h2 : ((cfg9.win 2).blk t).view.emb (ix2 p (0 : Fin 1)) = ix2 ((((cfg9.win 4).blk t).view.emb (ix2 p q)) 0) (0 : Fin 1) :=
    Shape.idx_ext₂ (show win9_2.index t (0 : Fin 2) * 10000 + 1 * p.val = win9_4.index t (0 : Fin 2) * 10000 + 1 * p.val by omega)
      (show win9_2.index t (1 : Fin 2) * 1 + 1 * 0 = 0 by omega)
  have h3 : ((cfg9.win 3).blk t).view.emb (ix2 (0 : Fin 1) q) = ix2 (0 : Fin 1) ((((cfg9.win 4).blk t).view.emb (ix2 p q)) 1) :=
    Shape.idx_ext₂ (show win9_3.index t (0 : Fin 2) * 1 + 1 * 0 = 0 by omega)
      (show win9_3.index t (1 : Fin 2) * 64 + 1 * q.val = win9_4.index t (1 : Fin 2) * 64 + 1 * q.val by omega)
  exact congrArg₂ (· + ·) (congrArg₂ (· + ·) (congrArg (V c main_v99) h0) (congrArg₂ (· * ·) (congrArg (V c main_v86) h1) (congrArg (V c main_v100) h2)))
    (congrArg (V c main_v101) h3)

-- Row r lies in the block of point r / 10000.
theorem cover9_4_arr (i : S50000x64.Idx) : ∃ t : Fin cfg9.N, (cfg9.win 4).flush t = true ∧ i ∈ ((cfg9.win 4).blk t).view.set := by
  have hN : cfg9.N = 5 := rfl
  have hi := idx2_lt0 i
  let t : Fin cfg9.N := ⟨(i 0).val / 10000, by omega⟩
  obtain ⟨-, -, -, -, -, -, -, -, e40, e41⟩ := idx_facts9 t
  refine ⟨t, flush9_4 t, ?_⟩
  show i ∈ ((View.whole main_v102).slice (win9_4.rect t)).set
  rw [View.set_slice_whole]
  exact mem_rowBlock (B := 10000) (by decide) i (congrArg (· * 10000) e40) rfl (by show win9_4.index t (1 : Fin 2) * 64 = 0; omega) rfl

theorem val9 (c : Dev nD) (i : Fin 50000) (j : Fin 64) :
    (dat9 (F := Ideal) V c).arrAt 4 cfg9.N (ValueIdx.ix2 i j)
      = G9 (V c main_v99) (V c main_v86) (V c main_v100) (V c main_v101) (ValueIdx.ix2 i j) :=
  congrFun ((dat9 V c).arrAt_eq_of_cover 4 _ (fun t _ => flushed9_4_eq V c t) cover9_4_arr) (ix2 i j)

end Cert.KernelIdeal.GenP
-- ==== Proof.LibExtReal.lean ====
import Idealize.ShloMosaic.PureOps.Ideal.Laws

namespace Cert.ExtReal

open Idealize.ShloMosaic

/-- The extended real `x` is (the image of) a real number. -/
def IsFin (x : EReal) : Prop := ∃ r : ℝ, x = (r : EReal)

theorem IsFin.zero : IsFin 0 := ⟨0, EReal.coe_zero.symm⟩

theorem IsFin.one : IsFin 1 := ⟨1, EReal.coe_one.symm⟩

theorem IsFin.add {x y : EReal} (hx : IsFin x) (hy : IsFin y) : IsFin (x + y) := by
  obtain ⟨a, rfl⟩ := hx; obtain ⟨b, rfl⟩ := hy
  exact ⟨a + b, (EReal.coe_add a b).symm⟩

theorem IsFin.sub {x y : EReal} (hx : IsFin x) (hy : IsFin y) : IsFin (x - y) := by
  obtain ⟨a, rfl⟩ := hx; obtain ⟨b, rfl⟩ := hy
  exact ⟨a - b, (EReal.coe_sub a b).symm⟩

theorem IsFin.mul {x y : EReal} (hx : IsFin x) (hy : IsFin y) : IsFin (x * y) := by
  obtain ⟨a, rfl⟩ := hx; obtain ⟨b, rfl⟩ := hy
  exact ⟨a * b, (EReal.coe_mul a b).symm⟩

theorem IsFin.max {x y : EReal} (hx : IsFin x) (hy : IsFin y) : IsFin (max x y) := by
  rcases le_total x y with h | h
  · rw [max_eq_right h]; exact hy
  · rw [max_eq_left h]; exact hx

theorem IsFin.sum {ι : Type} (s : Finset ι) (f : ι → EReal) : (∀ i ∈ s, IsFin (f i)) → IsFin (∑ i ∈ s, f i) := by
  classical
  refine Finset.induction_on s (fun _ => ?_) (fun a s ha ih h => ?_)
  · rw [Finset.sum_empty]; exact IsFin.zero
  · rw [Finset.sum_insert ha]
    exact (h a (Finset.mem_insert_self a s)).add (ih fun i hi => h i (Finset.mem_insert_of_mem hi))

end Cert.ExtReal
-- ==== Proof.KI.HostNorm.lean ====
import proofs.«141437_j50036368998564_1_alg».proof.Proof.Gen.KernelIdeal.Launch
import proofs.«141437_j50036368998564_1_alg».proof.Proof.Spec
import proofs.«141437_j50036368998564_1_alg».proof.Proof.LibExtReal
import Idealize.ShloMosaic.Lib.StableHlo.Run
import Idealize.ShloMosaic.Lib.IdealHost
import Idealize.ShloMosaic.Lib.ValueLayout

noncomputable section

namespace Cert.KernelIdeal.GenP

open Cert.KernelIdeal Cert.KernelIdeal.Gen Idealize.ShloMosaic Idealize.ShloMosaic.TcCoe
open Idealize.ShloMosaic.ValueIdx Cert.ExtReal

def degT (dst : IVec S800000 32) (ew : FVec Ideal S800000 .f32) : FVec Ideal S50000 .f32 :=
  addf (Host.scatterAdd scatter_S50000_S800000x1_S800000_n_0_0_1
          (broadcastInDim S50000 ![] bcast_S_S50000 (constant (F := Ideal) S_ .f32 0x00000000#32))
          (broadcastInDim S800000x1 ![0] bcast_S800000_S800000x1_0 dst) ew)
       (broadcastInDim S50000 ![] bcast_S_S50000 (constant (F := Ideal) S_ .f32 0x3F800000#32))

def dinvT (dst : IVec S800000 32) (ew : FVec Ideal S800000 .f32) : FVec Ideal S50000 .f32 :=
  select (cmpf .ogt (degT dst ew) (broadcastInDim S50000 ![] bcast_S_S50000 (constant (F := Ideal) S_ .f32 0x00000000#32)))
    (Host.rsqrt (F := Ideal) (degT dst ew))
    (broadcastInDim S50000 ![] bcast_S_S50000 (constant (F := Ideal) S_ .f32 0x00000000#32))

def wrapT (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

def normT (src dst : IVec S800000 32) (ew : FVec Ideal S800000 .f32) : FVec Ideal S800000 .f32 :=
  mulf (mulf (Host.gather gather_S50000_S800000x1_S800000_n_0_n_n_0_1_1 (dinvT dst ew) (wrapT src)) ew)
       (Host.gather gather_S50000_S800000x1_S800000_n_0_n_n_0_1_1 (dinvT dst ew) (wrapT dst))

def dsqT (dst : IVec S800000 32) (ew : FVec Ideal S800000 .f32) : FVec Ideal S50000 .f32 :=
  mulf (dinvT dst ew) (dinvT dst ew)

theorem hostOps0_v6 (V : Valuation τ sig (Elt Ideal)) :
    StableHlo.after hostOps0 V (Proc.devRef .tc main_v6)
      = cmpf .ogt (degT (V main_arg2) (V main_arg3))
          (broadcastInDim S50000 ![] bcast_S_S50000 (constant (F := Ideal) S_ .f32 0x00000000#32)) := by
  after_results_simp; rfl

theorem hostOps0_v7 (V : Valuation τ sig (Elt Ideal)) :
    StableHlo.after hostOps0 V (Proc.devRef .tc main_v7) = Host.rsqrt (F := Ideal) (degT (V main_arg2) (V main_arg3)) := by
  after_results_simp; rfl

theorem hostOps0_cst2 (V : Valuation τ sig (Elt Ideal)) :
    StableHlo.after hostOps0 V (Proc.devRef .tc main_cst_2) = constant (F := Ideal) S_ .f32 0x00000000#32 := by
  after_results_simp

theorem hostOps0_1_v8 (V : Valuation τ sig (Elt Ideal)) :
    StableHlo.after hostOps0_1 V (Proc.devRef .tc main_v8)
      = select (V main_v6) (V main_v7) (broadcastInDim S50000 ![] bcast_S_S50000 (V main_cst_2)) := by
  after_results; rfl

theorem hostOps0_2_v24_at (V : Valuation τ sig (Elt Ideal)) :
    StableHlo.after hostOps0_2 V (Proc.devRef .tc main_v24)
      = (mulf (mulf (Host.gather gather_S50000_S800000x1_S800000_n_0_n_n_0_1_1 (V main_v8) (wrapT (V main_arg1))) (V main_arg3))
             (Host.gather gather_S50000_S800000x1_S800000_n_0_n_n_0_1_1 (V main_v8) (wrapT (V main_arg2))) : FVec Ideal S800000 .f32) := by
  after_results_simp; rfl

theorem hostOps0_2_v25_at (V : Valuation τ sig (Elt Ideal)) :
    StableHlo.after hostOps0_2 V (Proc.devRef .tc main_v25) = (mulf (V main_v8) (V main_v8) : FVec Ideal S50000 .f32) := by
  after_results_simp

theorem hostOps0_1_v8_eq (W : Valuation τ sig (Elt Ideal)) :
    StableHlo.after hostOps0_1 (StableHlo.after hostOps0 W) (Proc.devRef .tc main_v8) = dinvT (W main_arg2) (W main_arg3) := by
  rw [hostOps0_1_v8, hostOps0_v6, hostOps0_v7, hostOps0_cst2]; rfl

theorem hostOps0_2_v24 (W : Valuation τ sig (Elt Ideal)) :
    StableHlo.after hostOps0_2 (StableHlo.after hostOps0_1 (StableHlo.after hostOps0 W)) (Proc.devRef .tc main_v24)
      = normT (W main_arg1) (W main_arg2) (W main_arg3) := by
  rw [hostOps0_2_v24_at, hostOps0_1_v8_eq]
  unfold normT
  after_results_simp

theorem hostOps0_2_v25 (W : Valuation τ sig (Elt Ideal)) :
    StableHlo.after hostOps0_2 (StableHlo.after hostOps0_1 (StableHlo.after hostOps0 W)) (Proc.devRef .tc main_v25)
      = dsqT (W main_arg2) (W main_arg3) := by
  rw [hostOps0_2_v25_at, hostOps0_1_v8_eq]
  rfl

theorem hostNorm_scatterAdd_real {s si su : Shape} {φ : FTy} {w : Nat} (d : ScatterDims s si su) (x : FVec Ideal s φ) (idx : IVec si w)
    (upd : FVec Ideal su φ) (hx : ∀ i, IsFin (x i)) (hu : ∀ j, IsFin (upd j)) (i : s.Idx) :
    IsFin (Host.scatterAdd d x idx upd i) := by
  show IsFin (x i + ∑ j ∈ _, upd j)
  exact (hx i).add (IsFin.sum _ _ fun j _ => hu j)

theorem hostNorm_rsqrt_apply {s : Shape} {φ : FTy} (x : FVec Ideal s φ) (i : s.Idx) :
    Host.rsqrt (F := Ideal) x i = Ideal.rsqrt (x i) := rfl

theorem degT_real (dst : IVec S800000 32) (ew : FVec Ideal S800000 .f32) (hew : ∀ e, ∃ r : ℝ, ew e = (r : EReal))
    (i : S50000.Idx) : ∃ r : ℝ, degT dst ew i = (r : EReal) := by
  unfold degT
  rw [addf_apply]
  refine IsFin.add (hostNorm_scatterAdd_real _ _ _ _ (fun i => ?_) hew i) ?_
  · rw [broadcastInDim_scalar_apply, constant_apply, Ideal.ofBits_zero_f32]; exact IsFin.zero
  · rw [broadcastInDim_scalar_apply, constant_apply, Ideal.ofBits_one_f32]; exact IsFin.one

theorem dinvT_real (dst : IVec S800000 32) (ew : FVec Ideal S800000 .f32) (hew : ∀ e, ∃ r : ℝ, ew e = (r : EReal)) :
    ∀ i, ∃ r : ℝ, dinvT dst ew i = (r : EReal) := by
  intro i
  obtain ⟨r, hr⟩ := degT_real dst ew hew i
  unfold dinvT
  rw [select_apply, cmpf_apply, Ideal.cmpf_def, hostNorm_rsqrt_apply, broadcastInDim_scalar_apply, constant_apply, Ideal.ofBits_zero_f32, hr]
  by_cases h0 : (0 : ℝ) < r
  · have hc : Ideal.cmp .ogt (r : EReal) 0 = 1#1 := by
      simp [Ideal.cmp, h0]
    rw [hc, select_one, Ideal.rsqrt_coe, if_neg (not_lt.2 h0.le), if_neg h0.ne']
    exact ⟨_, rfl⟩
  · have hc : Ideal.cmp .ogt (r : EReal) 0 = 0#1 := by
      simp [Ideal.cmp, h0]
    rw [hc, select_zero]
    exact IsFin.zero

theorem normT_real (src dst : IVec S800000 32) (ew : FVec Ideal S800000 .f32) (hew : ∀ e, ∃ r : ℝ, ew e = (r : EReal)) :
    ∀ e, ∃ r : ℝ, normT src dst ew e = (r : EReal) := by
  intro e
  unfold normT
  rw [mulf_apply, mulf_apply]
  exact ((IsFin.mul (dinvT_real dst ew hew _) (hew e)).mul (dinvT_real dst ew hew _))

theorem dsqT_real (dst : IVec S800000 32) (ew : FVec Ideal S800000 .f32) (hew : ∀ e, ∃ r : ℝ, ew e = (r : EReal)) :
    ∀ i, ∃ r : ℝ, dsqT dst ew i = (r : EReal) := by
  intro i
  unfold dsqT
  rw [mulf_apply]
  exact (IsFin.mul (dinvT_real dst ew hew i) (dinvT_real dst ew hew i))

end Cert.KernelIdeal.GenP

end
-- ==== Proof.KI.HostConv1.lean ====
import proofs.«141437_j50036368998564_1_alg».proof.Proof.Gen.KernelIdeal.Launch
import proofs.«141437_j50036368998564_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.GenP

open Cert.KernelIdeal Cert.KernelIdeal.Gen Idealize.ShloMosaic Idealize.ShloMosaic.TcCoe
open Idealize.ShloMosaic.ValueIdx

def srcIx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def gath128 (src : IVec S800000 32) (X : Spec.M 50000 128) : Spec.M 800000 128 :=
  fun e k => Host.gather gather_S50000x128_S800000x1_S800000x128_1_0_n_n_0_1_1128
    (fun idx : S50000x128.Idx => X (idx 0) (idx 1)) (srcIx src) (ix2 e k)

def scat128 (dst : IVec S800000 32) (U : Spec.M 800000 128) : Spec.M 50000 128 :=
  fun i j => Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (fun idx : S800000x128.Idx => U (idx 0) (idx 1)) (ix2 i j)

theorem unc_eq {α : Type} {n0 n1 : ℕ} (X : (⟨2, ![n0, n1]⟩ : Shape).Idx → α) :
    (fun idx : (⟨2, ![n0, n1]⟩ : Shape).Idx => X (ix2 (idx 0) (idx 1))) = X :=
  funext fun idx => congrArg X (eq_ix2 idx).symm

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

-- One number per edge, laid out as a column and repeated along n columns, reads at (e, k) its entry e.
theorem spread_apply {α : Type} {n : ℕ} (v : S800000.Idx → α) (h : S800000x1.BroadcastsInDim ⟨2, ![800000, n]⟩ ![0, 1]) (e : Fin 800000) (k : Fin n) :
    broadcastInDim ⟨2, ![800000, n]⟩ ![0, 1] h (broadcastInDim S800000x1 ![0] bcast_S800000_S800000x1_0 v) (ix2 e k) = v (ix1 e) :=
  (broadcastInDim_apply ![0, 1] h _ (ix2 e k) (ix2 e (0 : Fin 1)) fun a => match a with | ⟨0, _⟩ => rfl | ⟨1, _⟩ => rfl).trans
    (broadcastInDim_apply ![0] bcast_S800000_S800000x1_0 v (ix2 e (0 : Fin 1)) (ix1 e) fun a => match a with | ⟨0, _⟩ => rfl)

theorem gath128_eq (src : IVec S800000 32) (X : S50000x128.Idx → EReal) (e : Fin 800000) (k : Fin 128) :
    Host.gather gather_S50000x128_S800000x1_S800000x128_1_0_n_n_0_1_1128 X (srcIx src) (ix2 e k)
      = gath128 src (fun i k => X (ix2 i k)) e k := by
  unfold gath128
  rw [unc_eq X]

theorem scat128_eq (dst : IVec S800000 32) (U : S800000x128.Idx → EReal) (i : Fin 50000) (j : Fin 128) :
    Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 dst) U (ix2 i j)
      = scat128 dst (fun e k => U (ix2 e k)) i j := by
  unfold scat128
  rw [unc_eq U]

theorem hostOps1_v39 (W : Valuation τ sig (Elt Ideal)) (i : Fin 50000) (j : Fin 128) :
    StableHlo.after hostOps1 W (Proc.devRef .tc main_v39) (ix2 i j)
      = scat128 (W main_arg2) (fun e k => gath128 (W main_arg1) (fun i k => W main_v26 (ix2 i k)) e k * W main_v24 (ix1 e)) i j := by
  after_results_simp
  rw [scat128_eq]
  refine congrArg (fun U => scat128 (W main_arg2) U i j) ?_
  funext e k
  rw [mulf_apply, spread_apply]
  exact congrArg (· * W main_v24 (ix1 e)) (gath128_eq (W main_arg1) (W main_v26) e k)

theorem hostOps1_v40 (W : Valuation τ sig (Elt Ideal)) (i : Fin 50000) :
    StableHlo.after hostOps1 W (Proc.devRef .tc main_v40) (ix2 i 0) = W main_v25 (ix1 i) := by
  after_results
  exact shapeCast_a_a1_apply (W main_v25) shapeCasts_S50000_S50000x1 i 0

theorem hostOps1_v41 (W : Valuation τ sig (Elt Ideal)) (j : Fin 128) :
    StableHlo.after hostOps1 W (Proc.devRef .tc main_v41) (ix2 0 j) = W main_arg5 (ix1 j) := by
  after_results
  exact shapeCast_a_1a_apply (W main_arg5) shapeCasts_S128_S1x128 0 j

end Cert.KernelIdeal.GenP
-- ==== Proof.KI.HostConv5.lean ====
import proofs.«141437_j50036368998564_1_alg».proof.Proof.KI.HostConv1

set_option maxRecDepth 16384

noncomputable section

namespace Cert.KernelIdeal.GenP

open Cert.KernelIdeal Cert.KernelIdeal.Gen Idealize.ShloMosaic Idealize.ShloMosaic.TcCoe
open Idealize.ShloMosaic.ValueIdx

theorem hostOps5_v69 (W : Valuation τ sig (Elt Ideal)) (i : Fin 50000) (j : Fin 128) :
    StableHlo.after hostOps5 W (Proc.devRef .tc main_v69) (ix2 i j)
      = scat128 (W main_arg2) (fun e k => gath128 (W main_arg1) (fun i k => W main_v56 (ix2 i k)) e k * W main_v24 (ix1 e)) i j := by
  after_results_simp
  rw [scat128_eq]
  refine congrArg (fun U => scat128 (W main_arg2) U i j) ?_
  funext e k
  rw [mulf_apply, spread_apply]
  exact congrArg (· * W main_v24 (ix1 e)) (gath128_eq (W main_arg1) (W main_v56) e k)

theorem hostOps5_v70 (W : Valuation τ sig (Elt Ideal)) (i : Fin 50000) :
    StableHlo.after hostOps5 W (Proc.devRef .tc main_v70) (ix2 i 0) = W main_v25 (ix1 i) := by
  after_results
  exact shapeCast_a_a1_apply (W main_v25) shapeCasts_S50000_S50000x1 i 0

theorem hostOps5_v71 (W : Valuation τ sig (Elt Ideal)) (j : Fin 128) :
    StableHlo.after hostOps5 W (Proc.devRef .tc main_v71) (ix2 0 j) = W main_arg7 (ix1 j) := by
  after_results
  exact shapeCast_a_1a_apply (W main_arg7) shapeCasts_S128_S1x128 0 j

end Cert.KernelIdeal.GenP
-- ==== Proof.KI.HostConv9.lean ====
import proofs.«141437_j50036368998564_1_alg».proof.Proof.KI.HostConv1

set_option maxRecDepth 16384

noncomputable section

namespace Cert.KernelIdeal.GenP

open Cert.KernelIdeal Cert.KernelIdeal.Gen Idealize.ShloMosaic Idealize.ShloMosaic.TcCoe
open Idealize.ShloMosaic.ValueIdx

def gath64 (src : IVec S800000 32) (X : Spec.M 50000 64) : Spec.M 800000 64 :=
  fun e k => Host.gather gather_S50000x64_S800000x1_S800000x64_1_0_n_n_0_1_164
    (fun idx : S50000x64.Idx => X (idx 0) (idx 1)) (srcIx src) (ix2 e k)

def scat64 (dst : IVec S800000 32) (U : Spec.M 800000 64) : Spec.M 50000 64 :=
  fun i j => Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (fun idx : S800000x64.Idx => U (idx 0) (idx 1)) (ix2 i j)

theorem gath64_eq (src : IVec S800000 32) (X : S50000x64.Idx → EReal) (e : Fin 800000) (k : Fin 64) :
    Host.gather gather_S50000x64_S800000x1_S800000x64_1_0_n_n_0_1_164 X (srcIx src) (ix2 e k)
      = gath64 src (fun i k => X (ix2 i k)) e k := by
  unfold gath64
  rw [unc_eq X]

theorem scat64_eq (dst : IVec S800000 32) (U : S800000x64.Idx → EReal) (i : Fin 50000) (j : Fin 64) :
    Host.scatterAdd (F := Ideal) scatter_S50000x64_S800000x1_S800000x64_1_0_0_1
        (broadcastInDim S50000x64 ![] bcast_S_S50000x64 (constant (F := Ideal) S_ .f32 0x00000000#32))
        (broadcastInDim S800000x1 ![0] bcast_S800000_S800000x1_0 dst) U (ix2 i j)
      = scat64 dst (fun e k => U (ix2 e k)) i j := by
  unfold scat64
  rw [unc_eq U]

theorem hostOps9_v99 (W : Valuation τ sig (Elt Ideal)) (i : Fin 50000) (j : Fin 64) :
    StableHlo.after hostOps9 W (Proc.devRef .tc main_v99) (ix2 i j)
      = scat64 (W main_arg2) (fun e k => gath64 (W main_arg1) (fun i k => W main_v86 (ix2 i k)) e k * W main_v24 (ix1 e)) i j := by
  after_results_simp
  rw [scat64_eq]
  refine congrArg (fun U => scat64 (W main_arg2) U i j) ?_
  funext e k
  rw [mulf_apply, spread_apply]
  exact congrArg (· * W main_v24 (ix1 e)) (gath64_eq (W main_arg1) (W main_v86) e k)

theorem hostOps9_v100 (W : Valuation τ sig (Elt Ideal)) (i : Fin 50000) :
    StableHlo.after hostOps9 W (Proc.devRef .tc main_v100) (ix2 i 0) = W main_v25 (ix1 i) := by
  after_results
  exact shapeCast_a_a1_apply (W main_v25) shapeCasts_S50000_S50000x1 i 0

theorem hostOps9_v101 (W : Valuation τ sig (Elt Ideal)) (j : Fin 64) :
    StableHlo.after hostOps9 W (Proc.devRef .tc main_v101) (ix2 0 j) = W main_arg9 (ix1 j) := by
  after_results
  exact shapeCast_a_1a_apply (W main_arg9) shapeCasts_S64_S1x64 0 j

end Cert.KernelIdeal.GenP
-- ==== Proof.KI.HostBn3.lean ====
import proofs.«141437_j50036368998564_1_alg».proof.Proof.Gen.KernelIdeal.Launch
import proofs.«141437_j50036368998564_1_alg».proof.Proof.Spec
import Idealize.ShloMosaic.Lib.StableHlo.Run
import Idealize.ShloMosaic.Lib.IdealHost
import Idealize.ShloMosaic.Lib.ValueLayout

noncomputable section

namespace Cert.KernelIdeal.GenP

open Cert.KernelIdeal Cert.KernelIdeal.Gen Idealize.ShloMosaic Idealize.ShloMosaic.TcCoe
open Idealize.ShloMosaic.ValueIdx

def cN : EReal := Ideal.ofBits .f32 0x47435000#32
def cEps : EReal := Ideal.ofBits .f32 0x3727C5AC#32

theorem cN_eq : cN = (((50000 : ℕ) : ℝ) : EReal) := by
  unfold cN
  simp [Ideal.ofBits, Ideal.ieee, -EReal.coe_mul]; norm_num

theorem cEps_pos : ∃ ε : ℝ, 0 < ε ∧ cEps = (ε : EReal) := by
  refine ⟨(10995116 : ℝ) * (2 : ℝ) ^ (-40 : ℤ), by positivity, ?_⟩
  unfold cEps
  simp [Ideal.ofBits, Ideal.ieee, -EReal.coe_mul]

theorem rowLit_apply (b : BitVec 32) (i : S1x128.Idx) :
    broadcastInDim S1x128 ![] bcast_S_S1x128 (constant (F := Ideal) S_ .f32 b) i = Ideal.ofBits .f32 b := by
  rw [broadcastInDim_scalar_apply, constant_apply]

theorem hostOps3_v45 (W : Valuation τ sig (Elt Ideal)) (j : Fin 128) :
    StableHlo.after hostOps3 W (Proc.devRef .tc main_v45) (ValueIdx.ix2 0 j) = Ideal.div (W main_v43_0 (ValueIdx.ix2 0 j)) cN := by
  after_results
  rw [hostDivf_apply, rowLit_apply]; rfl

theorem hostOps3_v52 (W : Valuation τ sig (Elt Ideal)) (j : Fin 128) :
    StableHlo.after hostOps3 W (Proc.devRef .tc main_v52) (ValueIdx.ix2 0 j)
      = Ideal.rsqrt (Ideal.div (W main_v43_1 (ValueIdx.ix2 0 j)) cN
          - Ideal.div (W main_v43_0 (ValueIdx.ix2 0 j)) cN * Ideal.div (W main_v43_0 (ValueIdx.ix2 0 j)) cN + cEps) := by
  after_results
  show Ideal.rsqrt _ = _
  rw [addf_apply, subf_apply, mulf_apply, hostDivf_apply, hostDivf_apply, rowLit_apply, rowLit_apply]; rfl

theorem hostOps3_v53 (W : Valuation τ sig (Elt Ideal)) (j : Fin 128) :
    StableHlo.after hostOps3 W (Proc.devRef .tc main_v53) (ValueIdx.ix2 0 j) = W main_arg10 (ValueIdx.ix1 j) := by
  after_results
  exact shapeCast_a_1a_apply (W main_arg10) shapeCasts_S128_S1x128 0 j

theorem hostOps3_v54 (W : Valuation τ sig (Elt Ideal)) (j : Fin 128) :
    StableHlo.after hostOps3 W (Proc.devRef .tc main_v54) (ValueIdx.ix2 0 j) = W main_arg11 (ValueIdx.ix1 j) := by
  after_results
  exact shapeCast_a_1a_apply (W main_arg11) shapeCasts_S128_S1x128 0 j

end Cert.KernelIdeal.GenP
-- ==== Proof.KI.HostBn7.lean ====
import proofs.«141437_j50036368998564_1_alg».proof.Proof.KI.HostBn3

noncomputable section

namespace Cert.KernelIdeal.GenP

open Cert.KernelIdeal Cert.KernelIdeal.Gen Idealize.ShloMosaic Idealize.ShloMosaic.TcCoe
open Idealize.ShloMosaic.ValueIdx

theorem hostOps7_v75 (W : Valuation τ sig (Elt Ideal)) (j : Fin 128) :
    StableHlo.after hostOps7 W (Proc.devRef .tc main_v75) (ValueIdx.ix2 0 j) = Ideal.div (W main_v73_0 (ValueIdx.ix2 0 j)) cN := by
  after_results
  rw [hostDivf_apply, rowLit_apply]; rfl

theorem hostOps7_v82 (W : Valuation τ sig (Elt Ideal)) (j : Fin 128) :
    StableHlo.after hostOps7 W (Proc.devRef .tc main_v82) (ValueIdx.ix2 0 j)
      = Ideal.rsqrt (Ideal.div (W main_v73_1 (ValueIdx.ix2 0 j)) cN
          - Ideal.div (W main_v73_0 (ValueIdx.ix2 0 j)) cN * Ideal.div (W main_v73_0 (ValueIdx.ix2 0 j)) cN + cEps) := by
  after_results
  show Ideal.rsqrt _ = _
  rw [addf_apply, subf_apply, mulf_apply, hostDivf_apply, hostDivf_apply, rowLit_apply, rowLit_apply]; rfl

theorem hostOps7_v83 (W : Valuation τ sig (Elt Ideal)) (j : Fin 128) :
    StableHlo.after hostOps7 W (Proc.devRef .tc main_v83) (ValueIdx.ix2 0 j) = W main_arg12 (ValueIdx.ix1 j) := by
  after_results
  exact shapeCast_a_1a_apply (W main_arg12) shapeCasts_S128_S1x128 0 j

theorem hostOps7_v84 (W : Valuation τ sig (Elt Ideal)) (j : Fin 128) :
    StableHlo.after hostOps7 W (Proc.devRef .tc main_v84) (ValueIdx.ix2 0 j) = W main_arg13 (ValueIdx.ix1 j) := by
  after_results
  exact shapeCast_a_1a_apply (W main_arg13) shapeCasts_S128_S1x128 0 j

end Cert.KernelIdeal.GenP
-- ==== Proof.KI.Value.lean ====
import proofs.«141437_j50036368998564_1_alg».proof.Proof.Spec
import proofs.«141437_j50036368998564_1_alg».proof.Proof.KI.Run
import proofs.«141437_j50036368998564_1_alg».proof.Proof.KI.Keep
import proofs.«141437_j50036368998564_1_alg».proof.Proof.KI.Val0
import proofs.«141437_j50036368998564_1_alg».proof.Proof.KI.Val1
import proofs.«141437_j50036368998564_1_alg».proof.Proof.KI.Val2
import proofs.«141437_j50036368998564_1_alg».proof.Proof.KI.Val3
import proofs.«141437_j50036368998564_1_alg».proof.Proof.KI.Val4
import proofs.«141437_j50036368998564_1_alg».proof.Proof.KI.Val5
import proofs.«141437_j50036368998564_1_alg».proof.Proof.KI.Val6
import proofs.«141437_j50036368998564_1_alg».proof.Proof.KI.Val7
import proofs.«141437_j50036368998564_1_alg».proof.Proof.KI.Val8
import proofs.«141437_j50036368998564_1_alg».proof.Proof.KI.Val9
import proofs.«141437_j50036368998564_1_alg».proof.Proof.KI.HostNorm
import proofs.«141437_j50036368998564_1_alg».proof.Proof.KI.HostConv1
import proofs.«141437_j50036368998564_1_alg».proof.Proof.KI.HostConv5
import proofs.«141437_j50036368998564_1_alg».proof.Proof.KI.HostConv9
import proofs.«141437_j50036368998564_1_alg».proof.Proof.KI.HostBn3
import proofs.«141437_j50036368998564_1_alg».proof.Proof.KI.HostBn7

set_option maxRecDepth 16384

noncomputable section

namespace Cert.KernelIdeal.GenP

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (c : Dev nD)

abbrev aSrc : IVec S800000 32 := m ((c : Thread nD τ).loc main_arg1)
abbrev aDst : IVec S800000 32 := m ((c : Thread nD τ).loc main_arg2)
abbrev aEw : FVec Ideal S800000 .f32 := m ((c : Thread nD τ).loc main_arg3)
abbrev xIn : Spec.M 50000 64 := fun i k => m ((c : Thread nD τ).loc main_arg0) (ix2 i k)
abbrev w0 : Spec.M 64 128 := fun k j => m ((c : Thread nD τ).loc main_arg4) (ix2 k j)
abbrev b0 : Fin 128 → EReal := fun j => m ((c : Thread nD τ).loc main_arg5) (ix1 j)
abbrev w1 : Spec.M 128 128 := fun k j => m ((c : Thread nD τ).loc main_arg6) (ix2 k j)
abbrev b1 : Fin 128 → EReal := fun j => m ((c : Thread nD τ).loc main_arg7) (ix1 j)
abbrev w2 : Spec.M 128 64 := fun k j => m ((c : Thread nD τ).loc main_arg8) (ix2 k j)
abbrev b2 : Fin 64 → EReal := fun j => m ((c : Thread nD τ).loc main_arg9) (ix1 j)
abbrev g0 : Fin 128 → EReal := fun j => m ((c : Thread nD τ).loc main_arg10) (ix1 j)
abbrev be0 : Fin 128 → EReal := fun j => m ((c : Thread nD τ).loc main_arg11) (ix1 j)
abbrev g1 : Fin 128 → EReal := fun j => m ((c : Thread nD τ).loc main_arg12) (ix1 j)
abbrev be1 : Fin 128 → EReal := fun j => m ((c : Thread nD τ).loc main_arg13) (ix1 j)
abbrev nrm : Fin 800000 → EReal := fun e => normT (aSrc m c) (aDst m c) (aEw m c) (ix1 e)
abbrev dsq : Fin 50000 → EReal := fun i => dsqT (aDst m c) (aEw m c) (ix1 i)

def H1 : Spec.M 50000 128 :=
  Spec.conv (gath128 (aSrc m c)) (scat128 (aDst m c)) (nrm m c) (dsq m c) (xIn m c) (w0 m c) (b0 m c)
def H1n : Spec.M 50000 128 := Spec.bnK cN cEps (H1 m c) (g0 m c) (be0 m c)
def H2 : Spec.M 50000 128 :=
  Spec.conv (gath128 (aSrc m c)) (scat128 (aDst m c)) (nrm m c) (dsq m c) (H1n m c) (w1 m c) (b1 m c)
def H2n : Spec.M 50000 128 := Spec.bnK cN cEps (H2 m c) (g1 m c) (be1 m c)
def H3 : Spec.M 50000 64 :=
  Spec.conv (gath64 (aSrc m c)) (scat64 (aDst m c)) (nrm m c) (dsq m c) (H2n m c) (w2 m c) (b2 m c)

theorem v24_eq : W3 m c (Proc.devRef .tc main_v24) = normT (aSrc m c) (aDst m c) (aEw m c) :=
  hostOps0_2_v24 (W0 m c)

theorem v25_eq : W3 m c (Proc.devRef .tc main_v25) = dsqT (aDst m c) (aEw m c) :=
  hostOps0_2_v25 (W0 m c)

theorem xw1_apply (i : Fin 50000) (j : Fin 128) :
    W4 m c (Proc.devRef .tc main_v26) (ix2 i j) = Spec.mm (xIn m c) (w0 m c) i j := by
  refine (congrFun (W4_arr m c 2) (ix2 i j)).trans ((val0 (V3 m) c i j).trans ?_)
  show (_ : EReal) = _
  unfold Spec.mm
  refine Finset.sum_congr rfl fun k _ => ?_
  exact congrArg₂ (fun a b : EReal => a * b) (congrFun (W3_arg m c main_arg0 (by decide)) (ix2 i k)) (congrFun (W3_arg m c main_arg4 (by decide)) (ix2 k j))

theorem xw1_fn : (fun i k => W4 m c (Proc.devRef .tc main_v26) (ix2 i k) : Spec.M 50000 128) = Spec.mm (xIn m c) (w0 m c) :=
  funext fun i => funext fun k => xw1_apply m c i k

theorem v39_apply (i : Fin 50000) (j : Fin 128) :
    W5 m c (Proc.devRef .tc main_v39) (ix2 i j)
      = scat128 (aDst m c) (fun e k => gath128 (aSrc m c) (Spec.mm (xIn m c) (w0 m c)) e k * nrm m c e) i j := by
  refine (hostOps1_v39 (W4 m c) i j).trans ?_
  rw [W4_arg m c main_arg2 (by decide), W4_arg m c main_arg1 (by decide), xw1_fn, W4_of_ne m c main_v24 (by decide), v24_eq]
theorem v40_apply (i : Fin 50000) : W5 m c (Proc.devRef .tc main_v40) (ix2 i (0 : Fin 1)) = dsq m c i := by
  refine (hostOps1_v40 (W4 m c) i).trans ?_
  rw [W4_of_ne m c main_v25 (by decide), v25_eq]
theorem v41_apply (j : Fin 128) : W5 m c (Proc.devRef .tc main_v41) (ix2 (0 : Fin 1) j) = b0 m c j := by
  refine (hostOps1_v41 (W4 m c) j).trans ?_
  rw [W4_arg m c main_arg5 (by decide)]

theorem h1_apply (i : Fin 50000) (j : Fin 128) : W6 m c (Proc.devRef .tc main_v42) (ix2 i j) = H1 m c i j := by
  refine (congrFun (W6_arr m c 4) (ix2 i j)).trans ((val1 (V5 m) c i j).trans ?_)
  rw [G1_apply]
  have e39 : V5 m c main_v39 (ix2 i j) = _ := v39_apply m c i j
  have e26 : V5 m c main_v26 (ix2 i j) = _ := (congrFun (W5_of m c main_v26 (by decide)) (ix2 i j)).trans (xw1_apply m c i j)
  have e40 : V5 m c main_v40 (ix2 i (0 : Fin 1)) = _ := v40_apply m c i
  have e41 : V5 m c main_v41 (ix2 (0 : Fin 1) j) = _ := v41_apply m c j
  rw [e39, e26, e40, e41]
  rfl

theorem sum1_apply (j : Fin 128) : W7 m c (Proc.devRef .tc main_v43_0) (ix2 (0 : Fin 1) j) = Spec.colsum (H1 m c) j := by
  refine (congrFun (W7_arr m c 1) (ix2 (0 : Fin 1) j)).trans ((val2_sum (V6 m) c j).trans ?_)
  show (_ : EReal) = _
  unfold Spec.colsum
  refine Finset.sum_congr rfl fun i _ => ?_
  exact h1_apply m c i j
theorem sumsq1_apply (j : Fin 128) : W7 m c (Proc.devRef .tc main_v43_1) (ix2 (0 : Fin 1) j) = Spec.colsumsq (H1 m c) j := by
  refine (congrFun (W7_arr m c 2) (ix2 (0 : Fin 1) j)).trans ((val2_sumsq (V6 m) c j).trans ?_)
  show (_ : EReal) = _
  unfold Spec.colsumsq
  refine Finset.sum_congr rfl fun i _ => ?_
  exact congrArg₂ (fun a b : EReal => a * b) (h1_apply m c i j) (h1_apply m c i j)

theorem mean1_apply (j : Fin 128) : W8 m c (Proc.devRef .tc main_v45) (ix2 (0 : Fin 1) j) = Spec.meanOf cN (H1 m c) j := by
  refine (hostOps3_v45 (W7 m c) j).trans ?_
  rw [sum1_apply]
  rfl
theorem rstd1_apply (j : Fin 128) :
    W8 m c (Proc.devRef .tc main_v52) (ix2 (0 : Fin 1) j) = Ideal.rsqrt (Spec.varK cN (H1 m c) j + cEps) := by
  refine (hostOps3_v52 (W7 m c) j).trans ?_
  rw [sum1_apply, sumsq1_apply]
  rfl
theorem gamma1_apply (j : Fin 128) : W8 m c (Proc.devRef .tc main_v53) (ix2 (0 : Fin 1) j) = g0 m c j := by
  refine (hostOps3_v53 (W7 m c) j).trans ?_
  rw [W7_arg m c main_arg10 (by decide)]
theorem beta1_apply (j : Fin 128) : W8 m c (Proc.devRef .tc main_v54) (ix2 (0 : Fin 1) j) = be0 m c j := by
  refine (hostOps3_v54 (W7 m c) j).trans ?_
  rw [W7_arg m c main_arg11 (by decide)]

theorem h1n_apply (i : Fin 50000) (j : Fin 128) : W9 m c (Proc.devRef .tc main_v55) (ix2 i j) = H1n m c i j := by
  refine (congrFun (W9_arr m c 5) (ix2 i j)).trans ((val3 (V8 m) c i j).trans ?_)
  rw [G3_ix2]
  have e0 : V8 m c main_v42 (ix2 i j) = _ := (congrFun (W8_main_v42 m c) (ix2 i j)).trans (h1_apply m c i j)
  have e1 : V8 m c main_v45 (ix2 (0 : Fin 1) j) = _ := mean1_apply m c j
  have e2 : V8 m c main_v52 (ix2 (0 : Fin 1) j) = _ := rstd1_apply m c j
  have e3 : V8 m c main_v53 (ix2 (0 : Fin 1) j) = _ := gamma1_apply m c j
  have e4 : V8 m c main_v54 (ix2 (0 : Fin 1) j) = _ := beta1_apply m c j
  rw [e0, e1, e2, e3, e4]
  rfl

theorem xw2_apply (i : Fin 50000) (j : Fin 128) :
    W10 m c (Proc.devRef .tc main_v56) (ix2 i j) = Spec.mm (H1n m c) (w1 m c) i j := by
  refine (congrFun (W10_arr m c 2) (ix2 i j)).trans ((val4 (V9 m) c i j).trans ?_)
  show (_ : EReal) = _
  unfold Spec.mm
  refine Finset.sum_congr rfl fun k _ => ?_
  exact congrArg₂ (fun a b : EReal => a * b) (h1n_apply m c i k) (congrFun (W9_arg m c main_arg6 (by decide)) (ix2 k j))

theorem xw2_fn : (fun i k => W10 m c (Proc.devRef .tc main_v56) (ix2 i k) : Spec.M 50000 128) = Spec.mm (H1n m c) (w1 m c) :=
  funext fun i => funext fun k => xw2_apply m c i k

theorem v69_apply (i : Fin 50000) (j : Fin 128) :
    W11 m c (Proc.devRef .tc main_v69) (ix2 i j)
      = scat128 (aDst m c) (fun e k => gath128 (aSrc m c) (Spec.mm (H1n m c) (w1 m c)) e k * nrm m c e) i j := by
  refine (hostOps5_v69 (W10 m c) i j).trans ?_
  rw [W10_arg m c main_arg2 (by decide), W10_arg m c main_arg1 (by decide), xw2_fn, W10_W3 m c main_v24 (by decide), v24_eq]
theorem v70_apply (i : Fin 50000) : W11 m c (Proc.devRef .tc main_v70) (ix2 i (0 : Fin 1)) = dsq m c i := by
  refine (hostOps5_v70 (W10 m c) i).trans ?_
  rw [W10_W3 m c main_v25 (by decide), v25_eq]
theorem v71_apply (j : Fin 128) : W11 m c (Proc.devRef .tc main_v71) (ix2 (0 : Fin 1) j) = b1 m c j := by
  refine (hostOps5_v71 (W10 m c) j).trans ?_
  rw [W10_arg m c main_arg7 (by decide)]

theorem h2_apply (i : Fin 50000) (j : Fin 128) : W12 m c (Proc.devRef .tc main_v72) (ix2 i j) = H2 m c i j := by
  refine (congrFun (W12_arr m c 4) (ix2 i j)).trans ((val5 (V11 m) c i j).trans ?_)
  rw [G5_apply]
  have e69 : V11 m c main_v69 (ix2 i j) = _ := v69_apply m c i j
  have e56 : V11 m c main_v56 (ix2 i j) = _ := (congrFun (W11_of m c main_v56 (by decide)) (ix2 i j)).trans (xw2_apply m c i j)
  have e70 : V11 m c main_v70 (ix2 i (0 : Fin 1)) = _ := v70_apply m c i
  have e71 : V11 m c main_v71 (ix2 (0 : Fin 1) j) = _ := v71_apply m c j
  rw [e69, e56, e70, e71]
  rfl

theorem sum2_apply (j : Fin 128) : W13 m c (Proc.devRef .tc main_v73_0) (ix2 (0 : Fin 1) j) = Spec.colsum (H2 m c) j := by
  refine (congrFun (W13_arr m c 1) (ix2 (0 : Fin 1) j)).trans ((val6_sum (V12 m) c j).trans ?_)
  show (_ : EReal) = _
  unfold Spec.colsum
  refine Finset.sum_congr rfl fun i _ => ?_
  exact h2_apply m c i j
theorem sumsq2_apply (j : Fin 128) : W13 m c (Proc.devRef .tc main_v73_1) (ix2 (0 : Fin 1) j) = Spec.colsumsq (H2 m c) j := by
  refine (congrFun (W13_arr m c 2) (ix2 (0 : Fin 1) j)).trans ((val6_sumsq (V12 m) c j).trans ?_)
  show (_ : EReal) = _
  unfold Spec.colsumsq
  refine Finset.sum_congr rfl fun i _ => ?_
  exact congrArg₂ (fun a b : EReal => a * b) (h2_apply m c i j) (h2_apply m c i j)

theorem mean2_apply (j : Fin 128) : W14 m c (Proc.devRef .tc main_v75) (ix2 (0 : Fin 1) j) = Spec.meanOf cN (H2 m c) j := by
  refine (hostOps7_v75 (W13 m c) j).trans ?_
  rw [sum2_apply]
  rfl
theorem rstd2_apply (j : Fin 128) :
    W14 m c (Proc.devRef .tc main_v82) (ix2 (0 : Fin 1) j) = Ideal.rsqrt (Spec.varK cN (H2 m c) j + cEps) := by
  refine (hostOps7_v82 (W13 m c) j).trans ?_
  rw [sum2_apply, sumsq2_apply]
  rfl
theorem gamma2_apply (j : Fin 128) : W14 m c (Proc.devRef .tc main_v83) (ix2 (0 : Fin 1) j) = g1 m c j := by
  refine (hostOps7_v83 (W13 m c) j).trans ?_
  rw [W13_arg m c main_arg12 (by decide)]
theorem beta2_apply (j : Fin 128) : W14 m c (Proc.devRef .tc main_v84) (ix2 (0 : Fin 1) j) = be1 m c j := by
  refine (hostOps7_v84 (W13 m c) j).trans ?_
  rw [W13_arg m c main_arg13 (by decide)]

theorem h2n_apply (i : Fin 50000) (j : Fin 128) : W15 m c (Proc.devRef .tc main_v85) (ix2 i j) = H2n m c i j := by
  refine (congrFun (W15_arr m c 5) (ix2 i j)).trans ((val7 (V14 m) c i j).trans ?_)
  rw [G7_ix2]
  have e0 : V14 m c main_v72 (ix2 i j) = _ := (congrFun (W14_main_v72 m c) (ix2 i j)).trans (h2_apply m c i j)
  have e1 : V14 m c main_v75 (ix2 (0 : Fin 1) j) = _ := mean2_apply m c j
  have e2 : V14 m c main_v82 (ix2 (0 : Fin 1) j) = _ := rstd2_apply m c j
  have e3 : V14 m c main_v83 (ix2 (0 : Fin 1) j) = _ := gamma2_apply m c j
  have e4 : V14 m c main_v84 (ix2 (0 : Fin 1) j) = _ := beta2_apply m c j
  rw [e0, e1, e2, e3, e4]
  rfl

theorem xw3_apply (i : Fin 50000) (j : Fin 64) :
    W16 m c (Proc.devRef .tc main_v86) (ix2 i j) = Spec.mm (H2n m c) (w2 m c) i j := by
  refine (congrFun (W16_arr m c 2) (ix2 i j)).trans ((val8 (V15 m) c i j).trans ?_)
  show (_ : EReal) = _
  unfold Spec.mm
  refine Finset.sum_congr rfl fun k _ => ?_
  exact congrArg₂ (fun a b : EReal => a * b) (h2n_apply m c i k) (congrFun (W15_arg m c main_arg8 (by decide)) (ix2 k j))

theorem xw3_fn : (fun i k => W16 m c (Proc.devRef .tc main_v86) (ix2 i k) : Spec.M 50000 64) = Spec.mm (H2n m c) (w2 m c) :=
  funext fun i => funext fun k => xw3_apply m c i k

theorem v99_apply (i : Fin 50000) (j : Fin 64) :
    W17 m c (Proc.devRef .tc main_v99) (ix2 i j)
      = scat64 (aDst m c) (fun e k => gath64 (aSrc m c) (Spec.mm (H2n m c) (w2 m c)) e k * nrm m c e) i j := by
  refine (hostOps9_v99 (W16 m c) i j).trans ?_
  rw [W16_arg m c main_arg2 (by decide), W16_arg m c main_arg1 (by decide), xw3_fn, W16_W3 m c main_v24 (by decide), v24_eq]
theorem v100_apply (i : Fin 50000) : W17 m c (Proc.devRef .tc main_v100) (ix2 i (0 : Fin 1)) = dsq m c i := by
  refine (hostOps9_v100 (W16 m c) i).trans ?_
  rw [W16_W3 m c main_v25 (by decide), v25_eq]
theorem v101_apply (j : Fin 64) : W17 m c (Proc.devRef .tc main_v101) (ix2 (0 : Fin 1) j) = b2 m c j := by
  refine (hostOps9_v101 (W16 m c) j).trans ?_
  rw [W16_arg m c main_arg9 (by decide)]

theorem h3_apply (i : Fin 50000) (j : Fin 64) : W18 m c (Proc.devRef .tc main_v102) (ix2 i j) = H3 m c i j := by
  refine (congrFun (W18_arr m c 4) (ix2 i j)).trans ((val9 (V17 m) c i j).trans ?_)
  rw [G9_apply]
  have e99 : V17 m c main_v99 (ix2 i j) = _ := v99_apply m c i j
  have e86 : V17 m c main_v86 (ix2 i j) = _ := (congrFun (W17_of m c main_v86 (by decide)) (ix2 i j)).trans (xw3_apply m c i j)
  have e100 : V17 m c main_v100 (ix2 i (0 : Fin 1)) = _ := v100_apply m c i
  have e101 : V17 m c main_v101 (ix2 (0 : Fin 1) j) = _ := v101_apply m c j
  rw [e99, e86, e100, e101]
  rfl

theorem kernel_value (m : (ℓ : Loc nD τ sig) → Buf (Elt Ideal) ℓ) (c : Dev nD) (i : Fin 50000) (j : Fin 64) :
    (W18 m c (Proc.devRef .tc main_v102) : S50000x64.Idx → EReal) (ValueIdx.ix2 i j)
      = Spec.net (Spec.bnK cN cEps)
          (gath128 (m ((c : Thread nD τ).loc main_arg1))) (scat128 (m ((c : Thread nD τ).loc main_arg2)))
          (gath64 (m ((c : Thread nD τ).loc main_arg1))) (scat64 (m ((c : Thread nD τ).loc main_arg2)))
          (fun e => normT (m ((c : Thread nD τ).loc main_arg1)) (m ((c : Thread nD τ).loc main_arg2)) (m ((c : Thread nD τ).loc main_arg3)) (ValueIdx.ix1 e))
          (fun i => dsqT (m ((c : Thread nD τ).loc main_arg2)) (m ((c : Thread nD τ).loc main_arg3)) (ValueIdx.ix1 i))
          (fun i k => m ((c : Thread nD τ).loc main_arg0) (ValueIdx.ix2 i k)) (fun k j => m ((c : Thread nD τ).loc main_arg4) (ValueIdx.ix2 k j)) (fun j => m ((c : Thread nD τ).loc main_arg5) (ValueIdx.ix1 j))
          (fun k j => m ((c : Thread nD τ).loc main_arg6) (ValueIdx.ix2 k j)) (fun j => m ((c : Thread nD τ).loc main_arg7) (ValueIdx.ix1 j))
          (fun k j => m ((c : Thread nD τ).loc main_arg8) (ValueIdx.ix2 k j)) (fun j => m ((c : Thread nD τ).loc main_arg9) (ValueIdx.ix1 j))
          (fun j => m ((c : Thread nD τ).loc main_arg10) (ValueIdx.ix1 j)) (fun j => m ((c : Thread nD τ).loc main_arg11) (ValueIdx.ix1 j))
          (fun j => m ((c : Thread nD τ).loc main_arg12) (ValueIdx.ix1 j)) (fun j => m ((c : Thread nD τ).loc main_arg13) (ValueIdx.ix1 j)) i j :=
  (h3_apply m c i j).trans (by unfold H3 H2n H2 H1n H1 Spec.net; rfl)

end Cert.KernelIdeal.GenP
-- ==== Proof.Ref.ValBn.lean ====
import proofs.«141437_j50036368998564_1_alg».proof.Proof.Ref.Run
import proofs.«141437_j50036368998564_1_alg».proof.Proof.Spec
import Idealize.ShloMosaic.Lib.IdealHost
import Idealize.ShloMosaic.Lib.KernelVsHost
import Idealize.ShloMosaic.Lib.ValueIdx
import Idealize.ShloMosaic.Lib.Pipeline.Value
import Idealize.ShloMosaic.PureOps.Ideal.Laws

noncomputable section

namespace Cert.ReferenceIdeal.RefVal

open Cert.ReferenceIdeal Cert.ReferenceIdeal.RefRun Idealize.ShloMosaic Idealize.ShloMosaic.TcCoe
open Cert.ReferenceIdeal.Gen
open Idealize.ShloMosaic.ValueIdx
open scoped BigOperators
open Idealize.ShloMosaic.StableHlo

def cNR : EReal := Ideal.ofBits .f32 0x47435000#32
def cEpsR : EReal := Ideal.ofBits .f32 0x3727C5AC#32

theorem cNR_eq : cNR = (((50000 : ℕ) : ℝ) : EReal) := by
  unfold cNR
  simp [Ideal.ofBits, Ideal.ieee, -EReal.coe_mul] <;> norm_num

def bnSumV (h : FVec Ideal S50000x128 .f32) : FVec Ideal S128 .f32 :=
  Host.reduceAdd h (constant (F := Ideal) S_ .f32 0x00000000#32) reducesTo_S50000x128_S128_d0 h_S_

def bnMeanV (h : FVec Ideal S50000x128 .f32) : FVec Ideal S128 .f32 :=
  Host.divf (F := Ideal) (bnSumV h) (broadcastInDim S128 ![] bcast_S_S128 (constant (F := Ideal) S_ .f32 0x47435000#32))

def bnDenV : FVec Ideal S_ .f32 :=
  subf (F := Ideal) (constant (F := Ideal) S_ .f32 0x47435000#32) (sitofp (F := Ideal) .f32 (constantI S_ 32 0#32))

def bnDevV (h : FVec Ideal S50000x128 .f32) : FVec Ideal S50000x128 .f32 :=
  subf (F := Ideal) h (broadcastInDim S50000x128 ![0, 1] bcast_S1x128_S50000x128_0_1
    (Host.divf (F := Ideal) (broadcastInDim S1x128 ![1] bcast_S128_S1x128_1 (bnSumV h))
      (broadcastInDim S1x128 ![] bcast_S_S1x128 (constant (F := Ideal) S_ .f32 0x47435000#32))))

def bnVarV (h : FVec Ideal S50000x128 .f32) : FVec Ideal S128 .f32 :=
  select (broadcastInDim S128 ![] bcast_S_S128 (cmpf (F := Ideal) .ogt bnDenV (constant (F := Ideal) S_ .f32 0x00000000#32)))
    (Host.divf (F := Ideal)
      (Host.reduceAdd (mulf (F := Ideal) (bnDevV h) (bnDevV h)) (constant (F := Ideal) S_ .f32 0x00000000#32) reducesTo_S50000x128_S128_d0 h_S_)
      (broadcastInDim S128 ![] bcast_S_S128 bnDenV))
    (broadcastInDim S128 ![] bcast_S_S128 (id (constant (F := Ideal) S_ .f32 0x7FC00000#32)))

def bnV (h : FVec Ideal S50000x128 .f32) (g b : FVec Ideal S128 .f32) : FVec Ideal S50000x128 .f32 :=
  maximumf (F := Ideal)
    (addf (F := Ideal)
      (mulf (F := Ideal)
        (mulf (F := Ideal)
          (subf (F := Ideal) h (broadcastInDim S50000x128 ![0, 1] bcast_S1x128_S50000x128_0_1 (broadcastInDim S1x128 ![1] bcast_S128_S1x128_1 (bnMeanV h))))
          (broadcastInDim S50000x128 ![0, 1] bcast_S1x128_S50000x128_0_1 (broadcastInDim S1x128 ![1] bcast_S128_S1x128_1
            (Host.rsqrt (F := Ideal) (addf (F := Ideal) (bnVarV h) (broadcastInDim S128 ![] bcast_S_S128 (constant (F := Ideal) S_ .f32 0x3727C5AC#32)))))))
        (broadcastInDim S50000x128 ![0, 1] bcast_S1x128_S50000x128_0_1 (broadcastInDim S1x128 ![1] bcast_S128_S1x128_1 g)))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

theorem bn_bc_row_apply {α : Type} (hb : S128.BroadcastsInDim S1x128 (![1] : Fin 1 → Fin S1x128.rank)) (x : S128.Idx → α)
    (z : Fin 1) (j : Fin 128) : broadcastInDim S1x128 ![1] hb x (ix2 z j) = x (ix1 j) := by
  refine broadcastInDim_apply _ hb x (ix2 z j) (ix1 j) fun a => ?_
  match a with
  | ⟨0, _⟩ => rfl

theorem bn_colsum_apply (h : FVec Ideal S50000x128 .f32) (hr : S50000x128.ReducesTo [0] S128) (hu : 0 < S_.numel) (j : Fin 128) :
    Host.reduceAdd h (constant (F := Ideal) S_ .f32 0x00000000#32) hr hu (ix1 j) = ∑ i : Fin 50000, h (ix2 i j) := by
  rw [hostReduceAdd_apply, Ideal.hostReduceAdd_single hr (by decide : S50000x128.Reduces [0] S128), constant_apply,
    Ideal.ofBits_zero_f32, zero_add]
  exact Finset.sum_congr rfl fun k _ => congrArg h (funext fun a => match a with | ⟨0, _⟩ => rfl | ⟨1, _⟩ => rfl)

theorem bnMeanV_apply (h : FVec Ideal S50000x128 .f32) (j : Fin 128) :
    bnMeanV h (ix1 j) = Spec.meanOf cNR (fun i j => h (ix2 i j)) j := by
  unfold bnMeanV bnSumV Spec.meanOf Spec.colsum
  rw [hostDivf_apply, bn_colsum_apply, broadcastInDim_scalar_apply, constant_apply]
  rfl

theorem bnDenV_apply : bnDenV ix0 = cNR := by
  unfold bnDenV
  rw [subf_apply, constant_apply, sitofp_apply]
  show cNR - (((0#32 : BitVec 32).toInt : ℝ) : EReal) = cNR
  have h0 : (0#32 : BitVec 32).toInt = 0 := by decide
  rw [h0, Int.cast_zero, EReal.coe_zero, sub_zero]

theorem bnDevV_apply (h : FVec Ideal S50000x128 .f32) (i : Fin 50000) (j : Fin 128) :
    bnDevV h (ix2 i j) = h (ix2 i j) - Spec.meanOf cNR (fun i j => h (ix2 i j)) j := by
  unfold bnDevV bnSumV Spec.meanOf Spec.colsum
  rw [subf_apply, broadcastInDim_oneRow_apply, hostDivf_apply, bn_bc_row_apply, bn_colsum_apply, broadcastInDim_scalar_apply, constant_apply]
  rfl

theorem bnVarV_apply (h : FVec Ideal S50000x128 .f32) (j : Fin 128) :
    bnVarV h (ix1 j) = Spec.varR cNR (fun i j => h (ix2 i j)) j := by
  unfold bnVarV
  rw [select_apply]
  have hc : (broadcastInDim S128 ![] bcast_S_S128 (cmpf (F := Ideal) .ogt bnDenV (constant (F := Ideal) S_ .f32 0x00000000#32))) (ix1 j) = 1#1 := by
    rw [broadcastInDim_scalar_apply, cmpf_apply, bnDenV_apply, constant_apply, Ideal.ofBits_zero_f32]
    show Ideal.cmp .ogt cNR 0 = 1#1
    rw [cNR_eq]
    unfold Ideal.cmp
    simp
  rw [hc, select_one, hostDivf_apply, bn_colsum_apply, broadcastInDim_scalar_apply, bnDenV_apply]
  unfold Spec.varR
  refine congrArg (fun s => Ideal.div s cNR) (Finset.sum_congr rfl fun i _ => ?_)
  rw [mulf_apply, bnDevV_apply]

-- Entry (i, j) is max(((h i j − mean j) · rsqrt(var j + ε)) · γ j + β j, 0), the variance being the mean of the squared deviations.
theorem bnV_apply (h : FVec Ideal S50000x128 .f32) (g b : FVec Ideal S128 .f32) (i : Fin 50000) (j : Fin 128) :
    bnV h g b (ix2 i j) = Spec.bnR cNR cEpsR (fun i j => h (ix2 i j)) (fun j => g (ix1 j)) (fun j => b (ix1 j)) i j := by
  unfold bnV
  simp only [maximumf_apply, addf_apply, mulf_apply, subf_apply]
  rw [broadcastInDim_oneRow_apply, broadcastInDim_oneRow_apply, broadcastInDim_oneRow_apply, broadcastInDim_oneRow_apply, bn_bc_row_apply, bn_bc_row_apply, bn_bc_row_apply,
    bn_bc_row_apply, broadcastInDim_scalar_apply, constant_apply, Ideal.ofBits_zero_f32, bnMeanV_apply]
  show max ((h (ix2 i j) - Spec.meanOf cNR (fun i j => h (ix2 i j)) j)
      * Ideal.rsqrt (bnVarV h (ix1 j) + broadcastInDim S128 ![] bcast_S_S128 (constant (F := Ideal) S_ .f32 0x3727C5AC#32) (ix1 j)) * g (ix1 j) + b (ix1 j)) 0 = _
  rw [bnVarV_apply, broadcastInDim_scalar_apply, constant_apply]
  rfl

theorem opsB1_out (W : Valuation τ sig (Elt Ideal)) (i : Fin 50000) (j : Fin 128) :
    StableHlo.after opsB1 W (Proc.devRef .tc main_v66) (ValueIdx.ix2 i j)
      = Spec.bnR cNR cEpsR (fun i j => W (Proc.devRef .tc main_v46) (ValueIdx.ix2 i j))
          (fun j => W (Proc.devRef .tc main_arg10) (ValueIdx.ix1 j)) (fun j => W (Proc.devRef .tc main_arg11) (ValueIdx.ix1 j)) i j := by
  refine (congrFun ?_ _).trans (bnV_apply _ _ _ i j)
  after_results_simp
  simp only [TRef.ofBuf, TRef.toBuf, cast_eq]
  unfold bnV bnVarV bnDevV bnDenV bnMeanV bnSumV
  rfl

theorem opsB2_out (W : Valuation τ sig (Elt Ideal)) (i : Fin 50000) (j : Fin 128) :
    StableHlo.after opsB2 W (Proc.devRef .tc main_v133) (ValueIdx.ix2 i j)
      = Spec.bnR cNR cEpsR (fun i j => W (Proc.devRef .tc main_v113) (ValueIdx.ix2 i j))
          (fun j => W (Proc.devRef .tc main_arg12) (ValueIdx.ix1 j)) (fun j => W (Proc.devRef .tc main_arg13) (ValueIdx.ix1 j)) i j := by
  refine (congrFun ?_ _).trans (bnV_apply _ _ _ i j)
  after_results_simp
  simp only [TRef.ofBuf, TRef.toBuf, cast_eq]
  unfold bnV bnVarV bnDevV bnDenV bnMeanV bnSumV
  rfl

end Cert.ReferenceIdeal.RefVal

end
-- ==== Proof.Ref.ValConv.lean ====
import proofs.«141437_j50036368998564_1_alg».proof.Proof.Ref.Run
import proofs.«141437_j50036368998564_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.Lib.KernelVsHost
import Idealize.ShloMosaic.Lib.StackMember

set_option maxRecDepth 16384

noncomputable section

namespace Cert.ReferenceIdeal.RefVal

open Cert.ReferenceIdeal Cert.ReferenceIdeal.RefRun Cert.ReferenceIdeal.Gen Idealize.ShloMosaic Idealize.ShloMosaic.TcCoe
open Idealize.ShloMosaic.ValueIdx

def srcIxR (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def degTR (dst : IVec S800000 32) (ew : FVec Ideal S800000 .f32) : FVec Ideal S50000 .f32 :=
  addf
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 dst) ew)
    (broadcastInDim S50000 ![] bcast_S_S50000 (constant (F := Ideal) S_ .f32 0x3F800000#32))

def dinvTR (dst : IVec S800000 32) (ew : FVec Ideal S800000 .f32) : FVec Ideal S50000 .f32 :=
  select (cmpf .ogt (degTR dst ew) (broadcastInDim S50000 ![] bcast_S_S50000 (constant (F := Ideal) S_ .f32 0x00000000#32)))
    (Host.rsqrt (F := Ideal) (degTR dst ew))
    (broadcastInDim S50000 ![] bcast_S_S50000 (id (constant (F := Ideal) S_ .f32 0x00000000#32)))

def normTR (src dst : IVec S800000 32) (ew : FVec Ideal S800000 .f32) : FVec Ideal S800000 .f32 :=
  mulf
    (mulf (Host.gather gather_S50000_S800000x1_S800000_n_0_n_n_0_1_1 (dinvTR dst ew) (srcIxR src)) ew)
    (Host.gather gather_S50000_S800000x1_S800000_n_0_n_n_0_1_1 (dinvTR dst ew) (srcIxR dst))

def dsqTR (dst : IVec S800000 32) (ew : FVec Ideal S800000 .f32) : FVec Ideal S50000 .f32 :=
  mulf (dinvTR dst ew) (dinvTR dst ew)

theorem fin_ite {n : Nat} (i : Fin n) : i.val = if n = 1 then 0 else i.val := by
  have := i.isLt
  split <;> omega

-- A vector laid out as a column and spread along every row reads, at (i, j), its entry i.
theorem bcast_col_apply {α : Type} {n m : Nat}
    (h1 : (⟨1, ![n]⟩ : Shape).BroadcastsInDim ⟨2, ![n, 1]⟩ ![0])
    (h2 : (⟨2, ![n, 1]⟩ : Shape).BroadcastsInDim ⟨2, ![n, m]⟩ ![0, 1])
    (v : (⟨1, ![n]⟩ : Shape).Idx → α) (i : Fin n) (j : Fin m) :
    broadcastInDim ⟨2, ![n, m]⟩ ![0, 1] h2 (broadcastInDim ⟨2, ![n, 1]⟩ ![0] h1 v) (ix2 i j) = v (ix1 i) := by
  refine (broadcastInDim_apply ![0, 1] h2 _ (ix2 i j) (ix2 i (0 : Fin 1)) ?_).trans
    (broadcastInDim_apply ![0] h1 v (ix2 i (0 : Fin 1)) (ix1 i) ?_)
  · intro a
    match a with
    | ⟨0, _⟩ => exact fin_ite i
    | ⟨1, _⟩ => rfl
  · intro a
    match a with
    | ⟨0, _⟩ => exact fin_ite i

-- A vector laid out as a row and spread down every row reads, at (i, j), its entry j.
theorem bcast_row_apply {α : Type} {n m : Nat}
    (h1 : (⟨1, ![m]⟩ : Shape).BroadcastsInDim ⟨2, ![1, m]⟩ ![1])
    (h2 : (⟨2, ![1, m]⟩ : Shape).BroadcastsInDim ⟨2, ![n, m]⟩ ![0, 1])
    (v : (⟨1, ![m]⟩ : Shape).Idx → α) (i : Fin n) (j : Fin m) :
    broadcastInDim ⟨2, ![n, m]⟩ ![0, 1] h2 (broadcastInDim ⟨2, ![1, m]⟩ ![1] h1 v) (ix2 i j) = v (ix1 j) := by
  refine (broadcastInDim_oneRow_apply h2 _ i j).trans
    (broadcastInDim_apply ![1] h1 v (ix2 (0 : Fin 1) j) (ix1 j) ?_)
  intro a
  match a with
  | ⟨0, _⟩ => exact fin_ite j

section Layer

variable {k m : Nat} (d : DotDims ⟨2, ![50000, k]⟩ ⟨2, ![k, m]⟩ ⟨2, ![50000, m]⟩) (hd : d = DotDims.plain 50000 k m)
  (g : GatherDims ⟨2, ![50000, m]⟩ S800000x1 ⟨2, ![800000, m]⟩) (s : ScatterDims ⟨2, ![50000, m]⟩ S800000x1 ⟨2, ![800000, m]⟩)
  (h0 : S_.BroadcastsInDim ⟨2, ![50000, m]⟩ ![]) (h1 : S800000x1.BroadcastsInDim ⟨2, ![800000, m]⟩ ![0, 1])
  (h2 : S50000x1.BroadcastsInDim ⟨2, ![50000, m]⟩ ![0, 1]) (h3 : (⟨1, ![m]⟩ : Shape).BroadcastsInDim ⟨2, ![1, m]⟩ ![1])
  (h4 : (⟨2, ![1, m]⟩ : Shape).BroadcastsInDim ⟨2, ![50000, m]⟩ ![0, 1])
  (src dst : IVec S800000 32) (ew : FVec Ideal S800000 .f32)
  (x : FVec Ideal ⟨2, ![50000, k]⟩ .f32) (w : FVec Ideal ⟨2, ![k, m]⟩ .f32) (b : FVec Ideal ⟨1, ![m]⟩ .f32)

def gathR (X : Spec.M 50000 m) : Spec.M 800000 m :=
  fun e c => Host.gather g (fun idx : Shape.Idx ⟨2, ![50000, m]⟩ => X (idx 0) (idx 1)) (srcIxR src) (ix2 e c)

def scatR (U : Spec.M 800000 m) : Spec.M 50000 m :=
  fun i j => Host.scatterAdd (F := Ideal) s
    (broadcastInDim ⟨2, ![50000, m]⟩ ![] h0 (constant (F := Ideal) S_ .f32 0x00000000#32))
    (broadcastInDim S800000x1 ![0] bcast_S800000_S800000x1_0 dst)
    (fun idx : Shape.Idx ⟨2, ![800000, m]⟩ => U (idx 0) (idx 1)) (ix2 i j)

-- A layer of m columns over k contracted coordinates: scatter-add of the gathered, edge-normalised rows of x·w, plus x·w scaled by the squared node factor, plus the bias.
def convT : FVec Ideal ⟨2, ![50000, m]⟩ .f32 :=
  addf
    (addf
      (Host.scatterAdd (F := Ideal) s
        (broadcastInDim ⟨2, ![50000, m]⟩ ![] h0 (constant (F := Ideal) S_ .f32 0x00000000#32))
        (broadcastInDim S800000x1 ![0] bcast_S800000_S800000x1_0 dst)
        (mulf (Host.gather g (Host.dotGeneral (F := Ideal) d none x w) (srcIxR src))
          (broadcastInDim ⟨2, ![800000, m]⟩ ![0, 1] h1
            (broadcastInDim S800000x1 ![0] bcast_S800000_S800000x1_0 (normTR src dst ew)))))
      (mulf (Host.dotGeneral (F := Ideal) d none x w)
        (broadcastInDim ⟨2, ![50000, m]⟩ ![0, 1] h2
          (broadcastInDim S50000x1 ![0] bcast_S50000_S50000x1_0 (dsqTR dst ew)))))
    (broadcastInDim ⟨2, ![50000, m]⟩ ![0, 1] h4 (broadcastInDim ⟨2, ![1, m]⟩ ![1] h3 b))

include hd in
theorem xw_eq : Host.dotGeneral (F := Ideal) d none x w
    = fun idx => Spec.mm (fun i c => x (ix2 i c)) (fun c j => w (ix2 c j)) (idx 0) (idx 1) := by
  subst hd
  funext idx
  obtain ⟨a, c, rfl⟩ : ∃ (a : Fin 50000) (c : Fin m), idx = ix2 a c := ⟨idx 0, idx 1, eq_ix2 idx⟩
  rw [StackMember.dotGeneral_plain_apply]
  rfl

variable {g s h0 h1 h2 h3 h4 src dst ew x w b}

-- Entry (i, j) of a layer's term is the specification's convolution at (i, j): the product x·w is the finite sum over the contracted coordinate.
include hd in
theorem conv_out {V : FVec Ideal ⟨2, ![50000, m]⟩ .f32} (hV : V = convT d g s h0 h1 h2 h3 h4 src dst ew x w b)
    (i : Fin 50000) (j : Fin m) :
    V (ix2 i j)
      = Spec.conv (gathR g src) (scatR s h0 dst) (fun e => normTR src dst ew (ix1 e)) (fun i => dsqTR dst ew (ix1 i))
          (fun i c => x (ix2 i c)) (fun c j => w (ix2 c j)) (fun j => b (ix1 j)) i j := by
  have hu : mulf (Host.gather g (Host.dotGeneral (F := Ideal) d none x w) (srcIxR src))
      (broadcastInDim ⟨2, ![800000, m]⟩ ![0, 1] h1 (broadcastInDim S800000x1 ![0] bcast_S800000_S800000x1_0 (normTR src dst ew)))
      = fun idx => gathR g src (Spec.mm (fun i c => x (ix2 i c)) (fun c j => w (ix2 c j))) (idx 0) (idx 1)
          * normTR src dst ew (ix1 (idx 0)) := by
    funext idx
    obtain ⟨e, c, rfl⟩ : ∃ (e : Fin 800000) (c : Fin m), idx = ix2 e c := ⟨idx 0, idx 1, eq_ix2 idx⟩
    rw [mulf_apply, bcast_col_apply, xw_eq d hd]
    rfl
  rw [hV, convT, addf_apply, addf_apply, mulf_apply, bcast_col_apply, bcast_row_apply, hu, xw_eq d hd]
  rfl

end Layer

def gath128R := gathR gather_S50000x128_S800000x1_S800000x128_1_0_n_n_0_1_1128
def scat128R := scatR scatter_S50000x128_S800000x1_S800000x128_1_0_0_1 bcast_S_S50000x128
def gath64R := gathR gather_S50000x64_S800000x1_S800000x64_1_0_n_n_0_1_164
def scat64R := scatR scatter_S50000x64_S800000x1_S800000x64_1_0_0_1 bcast_S_S50000x64

set_option maxHeartbeats 4000000 in
theorem opsL1_out (W : Valuation τ sig (Elt Ideal)) (i : Fin 50000) (j : Fin 128) :
    StableHlo.after opsL1 W (Proc.devRef .tc main_v46) (ix2 i j)
      = Spec.conv (gath128R (W main_arg1)) (scat128R (W main_arg2))
          (fun e => normTR (W main_arg1) (W main_arg2) (W main_arg3) (ix1 e))
          (fun i => dsqTR (W main_arg2) (W main_arg3) (ix1 i))
          (fun i k => W main_arg0 (ix2 i k)) (fun k j => W main_arg4 (ix2 k j)) (fun j => W main_arg5 (ix1 j)) i j := by
  apply conv_out dot_S50000x64_S64x128_S50000x128_1_0_0_1_n_n rfl
  after_results_simp
  simp only [StableHlo.TRef.toBuf, StableHlo.TRef.ofBuf]
  repeat rw [cast_eq]
  unfold convT dsqTR normTR dinvTR degTR srcIxR
  with_reducible rfl

set_option maxHeartbeats 4000000 in
theorem opsL2_out (W : Valuation τ sig (Elt Ideal)) (i : Fin 50000) (j : Fin 128) :
    StableHlo.after opsL2 W (Proc.devRef .tc main_v113) (ix2 i j)
      = Spec.conv (gath128R (W main_arg1)) (scat128R (W main_arg2))
          (fun e => normTR (W main_arg1) (W main_arg2) (W main_arg3) (ix1 e))
          (fun i => dsqTR (W main_arg2) (W main_arg3) (ix1 i))
          (fun i k => W main_v66 (ix2 i k)) (fun k j => W main_arg6 (ix2 k j)) (fun j => W main_arg7 (ix1 j)) i j := by
  apply conv_out dot_S50000x128_S128x128_S50000x128_1_0_0_1_n_n rfl
  after_results_simp
  simp only [StableHlo.TRef.toBuf, StableHlo.TRef.ofBuf]
  repeat rw [cast_eq]
  unfold convT dsqTR normTR dinvTR degTR srcIxR
  with_reducible rfl

set_option maxHeartbeats 4000000 in
theorem opsL3_out (W : Valuation τ sig (Elt Ideal)) (i : Fin 50000) (j : Fin 64) :
    StableHlo.after opsL3 W (Proc.devRef .tc main_v180) (ix2 i j)
      = Spec.conv (gath64R (W main_arg1)) (scat64R (W main_arg2))
          (fun e => normTR (W main_arg1) (W main_arg2) (W main_arg3) (ix1 e))
          (fun i => dsqTR (W main_arg2) (W main_arg3) (ix1 i))
          (fun i k => W main_v133 (ix2 i k)) (fun k j => W main_arg8 (ix2 k j)) (fun j => W main_arg9 (ix1 j)) i j := by
  apply conv_out dot_S50000x128_S128x64_S50000x64_1_0_0_1_n_n rfl
  after_results_simp
  simp only [StableHlo.TRef.toBuf, StableHlo.TRef.ofBuf]
  repeat rw [cast_eq]
  unfold convT dsqTR normTR dinvTR degTR srcIxR
  with_reducible rfl

end Cert.ReferenceIdeal.RefVal

end
-- ==== Proof.Ref.Value.lean ====
import proofs.«141437_j50036368998564_1_alg».proof.Proof.Ref.ValBn
import proofs.«141437_j50036368998564_1_alg».proof.Proof.Ref.ValConv
import proofs.«141437_j50036368998564_1_alg».proof.Proof.Ref.Keep
import Idealize.ShloMosaic.Lib.Pipeline.Frame

noncomputable section

namespace Cert.ReferenceIdeal.RefVal

open Cert.ReferenceIdeal Cert.ReferenceIdeal.RefRun Cert.ReferenceIdeal.Gen Idealize.ShloMosaic Idealize.ShloMosaic.TcCoe
open Idealize.ShloMosaic.ValueIdx

-- Each stretch's result is the specification's stage of what the stretch before it leaves and of the arguments, which no stretch writes.
theorem ref_value (W0 : Valuation τ sig (Elt Ideal)) (i : Fin 50000) (j : Fin 64) :
    StableHlo.after ops W0 (Proc.devRef .tc main_v180) (ValueIdx.ix2 i j)
      = Spec.net (Spec.bnR cNR cEpsR) (gath128R (W0 main_arg1)) (scat128R (W0 main_arg2)) (gath64R (W0 main_arg1)) (scat64R (W0 main_arg2))
          (fun e => normTR (W0 main_arg1) (W0 main_arg2) (W0 main_arg3) (ValueIdx.ix1 e)) (fun i => dsqTR (W0 main_arg2) (W0 main_arg3) (ValueIdx.ix1 i))
          (fun i k => W0 main_arg0 (ValueIdx.ix2 i k)) (fun k j => W0 main_arg4 (ValueIdx.ix2 k j)) (fun j => W0 main_arg5 (ValueIdx.ix1 j))
          (fun k j => W0 main_arg6 (ValueIdx.ix2 k j)) (fun j => W0 main_arg7 (ValueIdx.ix1 j))
          (fun k j => W0 main_arg8 (ValueIdx.ix2 k j)) (fun j => W0 main_arg9 (ValueIdx.ix1 j))
          (fun j => W0 main_arg10 (ValueIdx.ix1 j)) (fun j => W0 main_arg11 (ValueIdx.ix1 j)) (fun j => W0 main_arg12 (ValueIdx.ix1 j)) (fun j => W0 main_arg13 (ValueIdx.ix1 j)) i j := by
  rw [ops_eq]
  have hL1 : (fun i k => StableHlo.after opsL1 W0 (Proc.devRef .tc main_v46) (ix2 i k))
      = Spec.conv (gath128R (W0 main_arg1)) (scat128R (W0 main_arg2))
          (fun e => normTR (W0 main_arg1) (W0 main_arg2) (W0 main_arg3) (ix1 e)) (fun i => dsqTR (W0 main_arg2) (W0 main_arg3) (ix1 i))
          (fun i k => W0 main_arg0 (ix2 i k)) (fun k j => W0 main_arg4 (ix2 k j)) (fun j => W0 main_arg5 (ix1 j)) :=
    funext fun i => funext fun k => opsL1_out W0 i k
  have hB1 : (fun i k => StableHlo.after opsB1 (StableHlo.after opsL1 W0) (Proc.devRef .tc main_v66) (ix2 i k))
      = Spec.bnR cNR cEpsR (fun i k => StableHlo.after opsL1 W0 (Proc.devRef .tc main_v46) (ix2 i k))
          (fun j => W0 main_arg10 (ix1 j)) (fun j => W0 main_arg11 (ix1 j)) := by
    funext i k
    rw [opsB1_out, keep1 (r := main_arg10) (by decide), keep1 (r := main_arg11) (by decide)]
  have hL2 : (fun i k => StableHlo.after opsL2 (StableHlo.after opsB1 (StableHlo.after opsL1 W0)) (Proc.devRef .tc main_v113) (ix2 i k))
      = Spec.conv (gath128R (W0 main_arg1)) (scat128R (W0 main_arg2))
          (fun e => normTR (W0 main_arg1) (W0 main_arg2) (W0 main_arg3) (ix1 e)) (fun i => dsqTR (W0 main_arg2) (W0 main_arg3) (ix1 i))
          (fun i k => StableHlo.after opsB1 (StableHlo.after opsL1 W0) (Proc.devRef .tc main_v66) (ix2 i k))
          (fun k j => W0 main_arg6 (ix2 k j)) (fun j => W0 main_arg7 (ix1 j)) := by
    funext i k
    rw [opsL2_out, keep2 (r := main_arg1) (by decide), keep2 (r := main_arg2) (by decide), keep2 (r := main_arg3) (by decide), keep2 (r := main_arg6) (by decide), keep2 (r := main_arg7) (by decide)]
  have hB2 : (fun i k => StableHlo.after opsB2 (StableHlo.after opsL2 (StableHlo.after opsB1 (StableHlo.after opsL1 W0))) (Proc.devRef .tc main_v133) (ix2 i k))
      = Spec.bnR cNR cEpsR (fun i k => StableHlo.after opsL2 (StableHlo.after opsB1 (StableHlo.after opsL1 W0)) (Proc.devRef .tc main_v113) (ix2 i k))
          (fun j => W0 main_arg12 (ix1 j)) (fun j => W0 main_arg13 (ix1 j)) := by
    funext i k
    rw [opsB2_out, keep3 (r := main_arg12) (by decide), keep3 (r := main_arg13) (by decide)]
  rw [opsL3_out, keep4 (r := main_arg1) (by decide), keep4 (r := main_arg2) (by decide), keep4 (r := main_arg3) (by decide), keep4 (r := main_arg8) (by decide), keep4 (r := main_arg9) (by decide), hB2, hL2, hB1, hL1]
  rfl

end Cert.ReferenceIdeal.RefVal

end
-- ==== Proof.Bridge.lean ====
import proofs.«141437_j50036368998564_1_alg».proof.Proof.KI.HostConv1
import proofs.«141437_j50036368998564_1_alg».proof.Proof.KI.HostConv9
import proofs.«141437_j50036368998564_1_alg».proof.Proof.KI.HostBn3
import proofs.«141437_j50036368998564_1_alg».proof.Proof.KI.HostNorm
import proofs.«141437_j50036368998564_1_alg».proof.Proof.Ref.ValConv
import proofs.«141437_j50036368998564_1_alg».proof.Proof.Ref.ValBn

set_option maxRecDepth 16384

noncomputable section

namespace Cert.Proof.Bridge

open Idealize.ShloMosaic Cert.ReferenceIdeal.RefVal Cert.KernelIdeal.GenP

theorem gath128_eq' : gath128R = gath128 := rfl
theorem scat128_eq' : scat128R = scat128 := rfl
theorem gath64_eq' : gath64R = gath64 := rfl
theorem scat64_eq' : scat64R = scat64 := rfl

theorem normT_eq' (src dst : IVec Cert.KernelIdeal.S800000 32) (ew : FVec Ideal Cert.KernelIdeal.S800000 .f32) :
    normTR src dst ew = normT src dst ew := rfl

theorem dsqT_eq' (dst : IVec Cert.KernelIdeal.S800000 32) (ew : FVec Ideal Cert.KernelIdeal.S800000 .f32) :
    dsqTR dst ew = dsqT dst ew := rfl

theorem cN_eq' : cNR = cN := rfl
theorem cEps_eq' : cEpsR = cEps := rfl

end Cert.Proof.Bridge

end
-- ==== Proof.Algebra.lean ====
import proofs.«141437_j50036368998564_1_alg».proof.Proof.Spec
import proofs.«141437_j50036368998564_1_alg».proof.Proof.LibExtReal
import Mathlib.Tactic.Ring
import Mathlib.Tactic.FieldSimp
import Mathlib.Tactic.Positivity
import Mathlib.Algebra.BigOperators.Ring.Finset
import Mathlib.Algebra.Order.BigOperators.Ring.Finset

noncomputable section

namespace Cert.Spec

open Idealize.ShloMosaic Cert.ExtReal

abbrev IsReal := IsFin

def RealM {n d : Nat} (X : M n d) : Prop := ∀ i j, IsReal (X i j)
def RealV {n : Nat} (v : Fin n → EReal) : Prop := ∀ i, IsReal (v i)

theorem coe_sum {ι : Type} (s : Finset ι) (f : ι → ℝ) :
    ((∑ i ∈ s, f i : ℝ) : EReal) = ∑ i ∈ s, (f i : EReal) := by
  classical
  refine Finset.induction_on s ?_ (fun a s ha ih => ?_)
  · rw [Finset.sum_empty, Finset.sum_empty, EReal.coe_zero]
  · rw [Finset.sum_insert ha, Finset.sum_insert ha, EReal.coe_add, ih]

theorem real_var {n : Nat} (hn : 0 < n) (g : Fin n → ℝ) :
    (∑ i, g i * g i) * (1 / (n : ℝ)) - (∑ i, g i) * (1 / (n : ℝ)) * ((∑ i, g i) * (1 / (n : ℝ)))
      = (∑ i, (g i - (∑ i, g i) * (1 / (n : ℝ))) * (g i - (∑ i, g i) * (1 / (n : ℝ)))) * (1 / (n : ℝ)) := by
  have hn0 : (n : ℝ) ≠ 0 := Nat.cast_ne_zero.mpr hn.ne'
  generalize hS : (∑ i, g i) = S
  generalize hm : S * (1 / (n : ℝ)) = m
  have hexp : ∀ i : Fin n, (g i - m) * (g i - m) = g i * g i - 2 * m * g i + m * m := fun i => by ring
  have h1 : ∑ i : Fin n, (g i - m) * (g i - m) = (∑ i, g i * g i) - 2 * m * S + (n : ℝ) * (m * m) := by
    simp only [hexp]
    rw [Finset.sum_add_distrib, Finset.sum_sub_distrib, ← Finset.mul_sum, Finset.sum_const, Finset.card_univ,
      Fintype.card_fin, nsmul_eq_mul, hS]
  rw [h1, ← hm]
  field_simp
  ring

theorem meanOf_coe {n d : Nat} (hn : 0 < n) (f : Fin n → Fin d → ℝ) (j : Fin d) :
    meanOf ((n : ℝ) : EReal) (fun i j => (f i j : EReal)) j = (((∑ i, f i j) * (1 / (n : ℝ)) : ℝ) : EReal) := by
  have hn0 : (n : ℝ) ≠ 0 := Nat.cast_ne_zero.mpr hn.ne'
  simp only [meanOf, colsum, Ideal.div_coe hn0, ← coe_sum, ← EReal.coe_mul]

theorem varK_coe {n d : Nat} (hn : 0 < n) (f : Fin n → Fin d → ℝ) (j : Fin d) :
    varK ((n : ℝ) : EReal) (fun i j => (f i j : EReal)) j
      = (((∑ i, f i j * f i j) * (1 / (n : ℝ))
          - (∑ i, f i j) * (1 / (n : ℝ)) * ((∑ i, f i j) * (1 / (n : ℝ))) : ℝ) : EReal) := by
  have hn0 : (n : ℝ) ≠ 0 := Nat.cast_ne_zero.mpr hn.ne'
  simp only [varK, colsumsq, meanOf_coe hn, Ideal.div_coe hn0, ← coe_sum, ← EReal.coe_mul, ← EReal.coe_sub]

theorem varR_coe {n d : Nat} (hn : 0 < n) (f : Fin n → Fin d → ℝ) (j : Fin d) :
    varR ((n : ℝ) : EReal) (fun i j => (f i j : EReal)) j
      = (((∑ i, (f i j - (∑ i, f i j) * (1 / (n : ℝ))) * (f i j - (∑ i, f i j) * (1 / (n : ℝ))))
          * (1 / (n : ℝ)) : ℝ) : EReal) := by
  have hn0 : (n : ℝ) ≠ 0 := Nat.cast_ne_zero.mpr hn.ne'
  simp only [varR, meanOf_coe hn, Ideal.div_coe hn0, ← coe_sum, ← EReal.coe_mul, ← EReal.coe_sub]

theorem RealM.exists_coe {n d : Nat} {h : M n d} (hh : RealM h) :
    ∃ f : Fin n → Fin d → ℝ, h = fun i j => (f i j : EReal) := by
  choose f hf using hh
  exact ⟨f, funext fun i => funext fun j => hf i j⟩

theorem varK_eq_varR {n d : Nat} (hn : 0 < n) (cN : EReal) (hcN : cN = ((n : ℝ) : EReal)) (h : M n d) (hh : RealM h) :
    varK cN h = varR cN h := by
  obtain ⟨f, rfl⟩ := hh.exists_coe
  subst hcN
  funext j
  rw [varK_coe hn, varR_coe hn, real_var hn fun i => f i j]

theorem bnK_eq_bnR {n d : Nat} (hn : 0 < n) (cN ceps : EReal) (hcN : cN = ((n : ℝ) : EReal)) (h : M n d) (hh : RealM h)
    (gamma beta : Fin d → EReal) : bnK cN ceps h gamma beta = bnR cN ceps h gamma beta := by
  unfold bnK bnR
  rw [varK_eq_varR hn cN hcN h hh]

theorem mm_real {n a b : Nat} (x : M n a) (W : M a b) (hx : RealM x) (hW : RealM W) : RealM (mm x W) :=
  fun i j => IsFin.sum Finset.univ _ fun k _ => IsFin.mul (hx i k) (hW k j)

theorem conv_real {n e a b : Nat} (G : M n b → M e b) (Sc : M e b → M n b) (hG : ∀ X, RealM X → RealM (G X))
    (hSc : ∀ X, RealM X → RealM (Sc X)) (norm : Fin e → EReal) (dsq : Fin n → EReal) (hnorm : RealV norm)
    (hdsq : RealV dsq) (x : M n a) (W : M a b) (bias : Fin b → EReal) (hx : RealM x) (hW : RealM W) (hb : RealV bias) :
    RealM (conv G Sc norm dsq x W bias) := by
  intro i j
  have hmm : RealM (mm x W) := mm_real x W hx hW
  have hmsg : RealM (fun ed k => G (mm x W) ed k * norm ed) :=
    fun ed k => IsFin.mul (hG _ hmm ed k) (hnorm ed)
  exact IsFin.add (IsFin.add (hSc _ hmsg i j) (IsFin.mul (hmm i j) (hdsq i))) (hb j)

theorem varR_nonneg {n d : Nat} (hn : 0 < n) (cN : EReal) (hcN : cN = ((n : ℝ) : EReal)) (h : M n d) (hh : RealM h)
    (j : Fin d) : ∃ r : ℝ, 0 ≤ r ∧ varR cN h j = (r : EReal) := by
  obtain ⟨f, rfl⟩ := hh.exists_coe
  subst hcN
  refine ⟨_, ?_, varR_coe hn f j⟩
  exact mul_nonneg (Finset.sum_nonneg fun i _ => mul_self_nonneg _) (by positivity)

theorem meanOf_real {n d : Nat} (hn : 0 < n) (cN : EReal) (hcN : cN = ((n : ℝ) : EReal)) (h : M n d) (hh : RealM h)
    (j : Fin d) : IsReal (meanOf cN h j) := by
  obtain ⟨f, rfl⟩ := hh.exists_coe
  subst hcN
  exact ⟨_, meanOf_coe hn f j⟩

theorem bnR_real {n d : Nat} (hn : 0 < n) (cN ceps : EReal) (hcN : cN = ((n : ℝ) : EReal))
    (hε : ∃ ε : ℝ, 0 < ε ∧ ceps = (ε : EReal)) (h : M n d) (hh : RealM h) (gamma beta : Fin d → EReal)
    (hg : RealV gamma) (hbe : RealV beta) : RealM (bnR cN ceps h gamma beta) := by
  intro i j
  obtain ⟨ε, hε0, rfl⟩ := hε
  obtain ⟨r, hr0, hr⟩ := varR_nonneg hn cN hcN h hh j
  have hpos : 0 < r + ε := by positivity
  have hrs : IsReal (Ideal.rsqrt (varR cN h j + (ε : EReal))) := by
    rw [hr, ← EReal.coe_add, Ideal.rsqrt_coe, if_neg (not_lt.mpr hpos.le), if_neg hpos.ne']
    exact ⟨_, rfl⟩
  have hm : IsReal (meanOf cN h j) := meanOf_real hn cN hcN h hh j
  exact IsFin.max (IsFin.add (IsFin.mul (IsFin.mul (IsFin.sub (hh i j) hm) hrs) (hg j)) (hbe j)) IsFin.zero

theorem net_eq {n e a b c : Nat} (hn : 0 < n) (cN ceps : EReal) (hcN : cN = ((n : ℝ) : EReal))
    (hε : ∃ ε : ℝ, 0 < ε ∧ ceps = (ε : EReal))
    (G : M n b → M e b) (Sc : M e b → M n b) (G' : M n c → M e c) (Sc' : M e c → M n c)
    (hG : ∀ X, RealM X → RealM (G X)) (hSc : ∀ X, RealM X → RealM (Sc X))
    (norm : Fin e → EReal) (dsq : Fin n → EReal) (hnorm : RealV norm) (hdsq : RealV dsq)
    (x : M n a) (W0 : M a b) (b0 : Fin b → EReal) (W1 : M b b) (b1 : Fin b → EReal) (W2 : M b c) (b2 : Fin c → EReal)
    (g0 be0 g1 be1 : Fin b → EReal)
    (hx : RealM x) (hW0 : RealM W0) (hb0 : RealV b0) (hW1 : RealM W1) (hb1 : RealV b1) (hg0 : RealV g0)
    (hbe0 : RealV be0) (hg1 : RealV g1) (hbe1 : RealV be1) :
    net (bnK cN ceps) G Sc G' Sc' norm dsq x W0 b0 W1 b1 W2 b2 g0 be0 g1 be1
      = net (bnR cN ceps) G Sc G' Sc' norm dsq x W0 b0 W1 b1 W2 b2 g0 be0 g1 be1 := by
  have h0 : RealM (conv G Sc norm dsq x W0 b0) := conv_real G Sc hG hSc norm dsq hnorm hdsq x W0 b0 hx hW0 hb0
  have e0 := bnK_eq_bnR hn cN ceps hcN _ h0 g0 be0
  have r0 : RealM (bnR cN ceps (conv G Sc norm dsq x W0 b0) g0 be0) := bnR_real hn cN ceps hcN hε _ h0 g0 be0 hg0 hbe0
  have h1 : RealM (conv G Sc norm dsq (bnR cN ceps (conv G Sc norm dsq x W0 b0) g0 be0) W1 b1) :=
    conv_real G Sc hG hSc norm dsq hnorm hdsq _ W1 b1 r0 hW1 hb1
  have e1 := bnK_eq_bnR hn cN ceps hcN _ h1 g1 be1
  unfold net
  rw [e0, e1]

end Cert.Spec

end
-- ==== Proof.RealOps.lean ====
import proofs.«141437_j50036368998564_1_alg».proof.Proof.Algebra
import Idealize.ShloMosaic.PureOps.Ideal.Laws

noncomputable section

namespace Cert.Spec

open Idealize.ShloMosaic Cert.ExtReal

theorem gather_real {s si so : Shape} {w : Nat} (d : GatherDims s si so) (x : s.Idx → EReal) (idx : IVec si w)
    (hx : ∀ i, IsReal (x i)) : ∀ j, IsReal (Host.gather d x idx j) := fun _ => hx _

theorem scatterAdd_real {s si su : Shape} {w : Nat} {φ : FTy} (d : ScatterDims s si su) (x : FVec Ideal s φ)
    (idx : IVec si w) (upd : FVec Ideal su φ) (hx : ∀ i, IsReal (x i)) (hu : ∀ j, IsReal (upd j)) :
    ∀ i, IsReal (Host.scatterAdd (F := Ideal) d x idx upd i) := by
  intro i
  show IsReal (Ideal.hostScatterAdd d x idx upd i)
  unfold Ideal.hostScatterAdd
  exact IsFin.add (hx i) (IsFin.sum _ _ fun j _ => hu j)

theorem broadcastInDim_real {s t : Shape} (dims : Fin s.rank → Fin t.rank) (h : s.BroadcastsInDim t dims)
    (x : s.Idx → EReal) (hx : ∀ i, IsReal (x i)) : ∀ j, IsReal (broadcastInDim t dims h x j) := fun _ => hx _

theorem constant_zero_real (s : Shape) :
    ∀ i, IsReal ((constant s .f32 0x00000000#32 : FVec Ideal s .f32) i) := fun _ => ⟨0, by
    show Ideal.ofBits .f32 0x00000000#32 = ((0 : ℝ) : EReal)
    rw [Ideal.ofBits_zero_f32, EReal.coe_zero]⟩

theorem broadcast_zero_real {s t : Shape} (dims : Fin s.rank → Fin t.rank) (h : s.BroadcastsInDim t dims) :
    ∀ i, IsReal (broadcastInDim t dims h (constant s .f32 0x00000000#32 : FVec Ideal s .f32) i) := broadcastInDim_real dims h _ (constant_zero_real s)

end Cert.Spec

end
-- ==== Proof.Finite.lean ====
import proofs.«141437_j50036368998564_1_alg».proof.Defs
import Idealize.ShloMosaic.Lib.ReduceAll
import Idealize.ShloMosaic.Lib.ValueIdx

noncomputable section

namespace Cert.Proof.Finite

open Idealize.ShloMosaic Idealize.SL.Sem

instance subsingleton_scalar_idx : Subsingleton (⟨0, ![]⟩ : Shape).Idx :=
  ⟨fun a b => funext fun d => d.elim0⟩

/-- Every entry of the array is a real number. -/
abbrev Real {S : Shape} (x : FVec Ideal S .f32) : Prop := ∀ i, ∃ r : ℝ, x i = (r : EReal)

theorem real_of_abs_lt_top (x : EReal) (hx : max x (-x) < ⊤) : ∃ r : ℝ, x = (r : EReal) := by
  induction x using EReal.rec with
  | bot => simp at hx
  | coe r => exact ⟨r, rfl⟩
  | top => simp at hx

theorem inf_word : Ideal.ofBits .f32 0x7F800000#32 = (⊤ : EReal) := by
  simp [Ideal.ofBits, Ideal.ieee]

-- a reduction by "and" is 1 only if every word it met is 1, and |x i| < ⊤ leaves only the reals
theorem real_of_all {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (e : Host.reduce IntOp.andi (cmpf .olt (Host.absf x)
          (broadcastInDim S ![] hb (constant (F := Ideal) ⟨0, ![]⟩ .f32 0x7F800000#32)))
          (constantI ⟨0, ![]⟩ 1 1#1) hr hu ValueIdx.ix0 = 1#1) : Real x := fun i => by
  have h1 := Host.reduce_andi_all _ _ hr hu ValueIdx.ix0 e i
  change Ideal.cmp .olt (max (x i) (-(x i))) (Ideal.ofBits .f32 0x7F800000#32) = 1#1 at h1
  rw [inf_word] at h1
  refine real_of_abs_lt_top (x i) ?_
  by_contra hn
  simp [Ideal.cmp, hn] at h1

open Cert.KernelIdeal in
/-- Under the precondition each of the twelve floating-point arguments has only real entries. -/
theorem real_args [Cert.Pre_finite_inputs.Facts] (m : (ℓ : Loc nD τ sig) → Buf (Elt Ideal) ℓ)
    (h : Cert.Pre_KernelIdeal m) (c : Dev nD) :
    Real (m ((c.tc : Thread nD τ).loc main_arg0)) ∧ Real (m ((c.tc : Thread nD τ).loc main_arg3))
      ∧ Real (m ((c.tc : Thread nD τ).loc main_arg4)) ∧ Real (m ((c.tc : Thread nD τ).loc main_arg5))
      ∧ Real (m ((c.tc : Thread nD τ).loc main_arg6)) ∧ Real (m ((c.tc : Thread nD τ).loc main_arg7))
      ∧ Real (m ((c.tc : Thread nD τ).loc main_arg8)) ∧ Real (m ((c.tc : Thread nD τ).loc main_arg9))
      ∧ Real (m ((c.tc : Thread nD τ).loc main_arg10)) ∧ Real (m ((c.tc : Thread nD τ).loc main_arg11))
      ∧ Real (m ((c.tc : Thread nD τ).loc main_arg12)) ∧ Real (m ((c.tc : Thread nD τ).loc main_arg13)) := by
  have h0 := congrFun (h c) ValueIdx.ix0
  dsimp only [Cert.Pre_finite_inputs.fn, Cert.Pre_finite_inputs.fn_part1, Cert.Pre_finite_inputs.fn_part2, Cert.Pre_finite_inputs.fn_part3] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all _ _ _ _ e0, real_of_all _ _ _ _ e3, real_of_all _ _ _ _ e4, real_of_all _ _ _ _ e5,
    real_of_all _ _ _ _ e6, real_of_all _ _ _ _ e7, real_of_all _ _ _ _ e8, real_of_all _ _ _ _ e9,
    real_of_all _ _ _ _ e10, real_of_all _ _ _ _ e11, real_of_all _ _ _ _ e12, real_of_all _ _ _ _ e13⟩

end Cert.Proof.Finite

end
-- ==== Proof.Final.lean ====
import proofs.«141437_j50036368998564_1_alg».proof.Proof.KI.Value
import proofs.«141437_j50036368998564_1_alg».proof.Proof.KI.HostNorm
import proofs.«141437_j50036368998564_1_alg».proof.Proof.Ref.Value
import proofs.«141437_j50036368998564_1_alg».proof.Proof.Bridge
import proofs.«141437_j50036368998564_1_alg».proof.Proof.Algebra
import proofs.«141437_j50036368998564_1_alg».proof.Proof.RealOps
import proofs.«141437_j50036368998564_1_alg».proof.Proof.Finite

set_option maxRecDepth 16384

noncomputable section

namespace Cert.Proof.Final

open Idealize.ShloMosaic Idealize.ShloMosaic.TcCoe Idealize.SL.Sem
open Cert.Spec

section Real

open Cert.KernelIdeal Cert.KernelIdeal.Gen Cert.KernelIdeal.GenP

theorem gath128_real (src : IVec S800000 32) (X : Spec.M 50000 128) (hX : RealM X) : RealM (gath128 src X) := by
  intro e k; unfold gath128
  exact gather_real _ (fun idx : S50000x128.Idx => X (idx 0) (idx 1)) _ (fun i => hX _ _) _

theorem scat128_real (dst : IVec S800000 32) (U : Spec.M 800000 128) (hU : RealM U) : RealM (scat128 dst U) := by
  intro i j; unfold scat128
  exact scatterAdd_real _ _ _ (fun idx : S800000x128.Idx => U (idx 0) (idx 1)) (broadcast_zero_real _ _) (fun i => hU _ _) _

end Real

theorem final_eq [hPre : Cert.Pre_finite_inputs.Facts]
    (m : (ℓ : Loc Cert.KernelIdeal.nD Cert.KernelIdeal.τ Cert.KernelIdeal.sig) → Buf (Elt Ideal) ℓ)
    (W' : Valuation Cert.ReferenceIdeal.τ Cert.ReferenceIdeal.sig (Elt Ideal))
    (hpre : Cert.Pre_KernelIdeal m) (c : Dev Cert.KernelIdeal.nD)
    (h0 : W' (Proc.devRef .tc Cert.ReferenceIdeal.main_arg0) = m ((c.tc : Thread Cert.KernelIdeal.nD Cert.KernelIdeal.τ).loc Cert.KernelIdeal.main_arg0))
    (h1 : W' (Proc.devRef .tc Cert.ReferenceIdeal.main_arg1) = m ((c.tc : Thread Cert.KernelIdeal.nD Cert.KernelIdeal.τ).loc Cert.KernelIdeal.main_arg1))
    (h2 : W' (Proc.devRef .tc Cert.ReferenceIdeal.main_arg2) = m ((c.tc : Thread Cert.KernelIdeal.nD Cert.KernelIdeal.τ).loc Cert.KernelIdeal.main_arg2))
    (h3 : W' (Proc.devRef .tc Cert.ReferenceIdeal.main_arg3) = m ((c.tc : Thread Cert.KernelIdeal.nD Cert.KernelIdeal.τ).loc Cert.KernelIdeal.main_arg3))
    (h4 : W' (Proc.devRef .tc Cert.ReferenceIdeal.main_arg4) = m ((c.tc : Thread Cert.KernelIdeal.nD Cert.KernelIdeal.τ).loc Cert.KernelIdeal.main_arg4))
    (h5 : W' (Proc.devRef .tc Cert.ReferenceIdeal.main_arg5) = m ((c.tc : Thread Cert.KernelIdeal.nD Cert.KernelIdeal.τ).loc Cert.KernelIdeal.main_arg5))
    (h6 : W' (Proc.devRef .tc Cert.ReferenceIdeal.main_arg6) = m ((c.tc : Thread Cert.KernelIdeal.nD Cert.KernelIdeal.τ).loc Cert.KernelIdeal.main_arg6))
    (h7 : W' (Proc.devRef .tc Cert.ReferenceIdeal.main_arg7) = m ((c.tc : Thread Cert.KernelIdeal.nD Cert.KernelIdeal.τ).loc Cert.KernelIdeal.main_arg7))
    (h8 : W' (Proc.devRef .tc Cert.ReferenceIdeal.main_arg8) = m ((c.tc : Thread Cert.KernelIdeal.nD Cert.KernelIdeal.τ).loc Cert.KernelIdeal.main_arg8))
    (h9 : W' (Proc.devRef .tc Cert.ReferenceIdeal.main_arg9) = m ((c.tc : Thread Cert.KernelIdeal.nD Cert.KernelIdeal.τ).loc Cert.KernelIdeal.main_arg9))
    (h10 : W' (Proc.devRef .tc Cert.ReferenceIdeal.main_arg10) = m ((c.tc : Thread Cert.KernelIdeal.nD Cert.KernelIdeal.τ).loc Cert.KernelIdeal.main_arg10))
    (h11 : W' (Proc.devRef .tc Cert.ReferenceIdeal.main_arg11) = m ((c.tc : Thread Cert.KernelIdeal.nD Cert.KernelIdeal.τ).loc Cert.KernelIdeal.main_arg11))
    (h12 : W' (Proc.devRef .tc Cert.ReferenceIdeal.main_arg12) = m ((c.tc : Thread Cert.KernelIdeal.nD Cert.KernelIdeal.τ).loc Cert.KernelIdeal.main_arg12))
    (h13 : W' (Proc.devRef .tc Cert.ReferenceIdeal.main_arg13) = m ((c.tc : Thread Cert.KernelIdeal.nD Cert.KernelIdeal.τ).loc Cert.KernelIdeal.main_arg13)) :
    StableHlo.after Cert.ReferenceIdeal.RefRun.ops W' (Proc.devRef .tc Cert.ReferenceIdeal.main_v180)
      = Cert.KernelIdeal.GenP.W18 m c (Proc.devRef .tc Cert.KernelIdeal.main_v102) := by
  obtain ⟨r0, r3, r4, r5, r6, r7, -, -, r10, r11, r12, r13⟩ := Cert.Proof.Finite.real_args m hpre c
  funext idx
  obtain ⟨i, j, rfl⟩ : ∃ (i : Fin 50000) (j : Fin 64), idx = ValueIdx.ix2 i j := ⟨idx 0, idx 1, ValueIdx.eq_ix2 idx⟩
  refine (Cert.ReferenceIdeal.RefVal.ref_value W' i j).trans ?_
  refine Eq.trans ?_ (Cert.KernelIdeal.GenP.kernel_value m c i j).symm
  rw [h0, h1, h2, h3, h4, h5, h6, h7, h8, h9, h10, h11, h12, h13]
  rw [Cert.Proof.Bridge.gath128_eq', Cert.Proof.Bridge.scat128_eq', Cert.Proof.Bridge.gath64_eq', Cert.Proof.Bridge.scat64_eq',
    Cert.Proof.Bridge.cN_eq', Cert.Proof.Bridge.cEps_eq']
  simp only [Cert.Proof.Bridge.normT_eq', Cert.Proof.Bridge.dsqT_eq']
  refine (congrFun (congrFun (Cert.Spec.net_eq (n := 50000) (by norm_num) Cert.KernelIdeal.GenP.cN Cert.KernelIdeal.GenP.cEps
    Cert.KernelIdeal.GenP.cN_eq Cert.KernelIdeal.GenP.cEps_pos _ _ _ _ (gath128_real _) (scat128_real _) _ _ ?_ ?_ _ _ _ _ _ _ _ _ _ _ _
    ?_ ?_ ?_ ?_ ?_ ?_ ?_ ?_ ?_) i) j).symm
  · exact fun e => Cert.KernelIdeal.GenP.normT_real _ _ _ r3 _
  · exact fun i => Cert.KernelIdeal.GenP.dsqT_real _ _ r3 _
  · exact fun i k => r0 _
  · exact fun i k => r4 _
  · exact fun i => r5 _
  · exact fun i k => r6 _
  · exact fun i => r7 _
  · exact fun i => r10 _
  · exact fun i => r11 _
  · exact fun i => r12 _
  · exact fun i => r13 _

end Cert.Proof.Final

end
-- ==== Proof.lean ====
import proofs.«141437_j50036368998564_1_alg».proof.Defs
import proofs.«141437_j50036368998564_1_alg».proof.Proof.Gen.Kernel
import proofs.«141437_j50036368998564_1_alg».proof.Proof.Gen.KernelIdeal
import proofs.«141437_j50036368998564_1_alg».proof.Proof.Gen.ReferenceIdeal
import proofs.«141437_j50036368998564_1_alg».proof.Proof.Gen.Pre_finite_inputs
import proofs.«141437_j50036368998564_1_alg».proof.Proof.K.Run
import proofs.«141437_j50036368998564_1_alg».proof.Proof.KI.Run
import proofs.«141437_j50036368998564_1_alg».proof.Proof.Ref.Run
import proofs.«141437_j50036368998564_1_alg».proof.Proof.Ref.Keep
import proofs.«141437_j50036368998564_1_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.GenP.frame (F := Bits) m ρ

theorem frame_ki [Cert.KernelIdeal.Facts] [Cert.Pre_finite_inputs.Facts] : Cert.frame_KernelIdeal :=
  fun m ρ _ => Cert.KernelIdeal.GenP.frame (F := Ideal) m ρ

open Cert.ReferenceIdeal.RefVal Cert.ReferenceIdeal.RefRun

theorem frame_ri [Cert.ReferenceIdeal.Facts] [Cert.Pre_finite_inputs.Facts] : Cert.frame_ReferenceIdeal :=
  fun m ρ _ => (θ_run Cert.ReferenceIdeal.defs _ _).mono
    (fun r h c => by and_intros <;> exact (h c _).trans (ops_of (by decide) _))
    (run_after (F := Ideal) m ρ)

theorem preserves : Cert.preserves_Kernel_KernelIdeal := trivial

open Cert.KernelIdeal Cert.KernelIdeal.GenP in
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => W18 m c main_v102, ?_, ?_⟩
  · exact (θ_run Cert.KernelIdeal.defs _ _).mono
      (fun r h c => ⟨h c _ (mem_uc main_v102 (by decide)),
        by and_intros <;> exact (h c _ (mem_uc _ (by decide))).trans (W18_kept m c _ (by decide))⟩)
      (run_all (F := Ideal) m ρ)
  · exact (θ_run Cert.ReferenceIdeal.defs _ _).mono
      (fun r h c => by
        obtain ⟨a0, a1, a2, a3, a4, a5, a6, a7, a8, a9, a10, a11, a12, a13⟩ := hagree c
        exact ⟨(h c _).trans (Final.final_eq m _ hpre c a0 a1 a2 a3 a4 a5 a6 a7 a8 a9 a10 a11 a12 a13),
          by and_intros <;> exact (h c _).trans (ops_of (by decide) _)⟩)
      (run_after (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
